-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v184)) (v1 : (c : Dev Cert.KernelIdeal.nD) → Buf (Elt Ideal) ((c.tc : Thread Cert.KernelIdeal.nD Cert.KernelIdeal.τ).loc Cert.KernelIdeal.main_v140)) (v2 : (c : Dev Cert.KernelIdeal.nD) → Buf (Elt Ideal) ((c.tc : Thread Cert.KernelIdeal.nD Cert.KernelIdeal.τ).loc Cert.KernelIdeal.main_v141)) (v3 : (c : Dev Cert.KernelIdeal.nD) → Buf (Elt Ideal) ((c.tc : Thread Cert.KernelIdeal.nD Cert.KernelIdeal.τ).loc Cert.KernelIdeal.main_v142)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v184) = v0 c
          ∧ r.2.mem ((c.tc : Thread Cert.KernelIdeal.nD Cert.KernelIdeal.τ).loc Cert.KernelIdeal.main_v140) = v1 c
          ∧ r.2.mem ((c.tc : Thread Cert.KernelIdeal.nD Cert.KernelIdeal.τ).loc Cert.KernelIdeal.main_v141) = v2 c
          ∧ r.2.mem ((c.tc : Thread Cert.KernelIdeal.nD Cert.KernelIdeal.τ).loc Cert.KernelIdeal.main_v142) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v324) = v0 c
          ∧ r.2.mem ((c.tc : Thread Cert.ReferenceIdeal.nD Cert.ReferenceIdeal.τ).loc Cert.ReferenceIdeal.main_v161) = v1 c
          ∧ r.2.mem ((c.tc : Thread Cert.ReferenceIdeal.nD Cert.ReferenceIdeal.τ).loc Cert.ReferenceIdeal.main_v162) = v2 c
          ∧ r.2.mem ((c.tc : Thread Cert.ReferenceIdeal.nD Cert.ReferenceIdeal.τ).loc Cert.ReferenceIdeal.main_v163) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_

variable [Facts]

def fn_part5 {F : FTy → Type} [FloatOps F] (main_arg21 : FVec F S32x1 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S32x1 .f32 := Host.absf main_arg21
  let main_cst_34 : FVec F S_ .f32 := constant S_ .f32 0x7F800000#32
  let main_v90 : FVec F S32x1 .f32 := broadcastInDim S32x1 ![] bcast_S_S32x1 main_cst_34
  let main_v91 : IVec S32x1 1 := cmpf .olt main_v89 main_v90
  let main_c_35 : IVec S_ 1 := constantI S_ 1 1#1
  let main_v92 : IVec S_ 1 := (fun x v => Host.reduce IntOp.andi x v reducesTo_S32x1_S_d0_1 h_S_) main_v91 main_c_35
  let main_v93 : IVec S_ 1 := andi main_v88 main_v92
  main_v93

def fn_part4 {F : FTy → Type} [FloatOps F] (main_arg17 : FVec F S32x32 .f32) (main_arg18 : FVec F S32 .f32) (main_arg19 : FVec F S32 .f32) (main_arg20 : FVec F S32 .f32) (main_arg21 : FVec F S32x1 .f32) (main_v63 : IVec S_ 1) (main_v67 : IVec S_ 1) : IVec S_ 1 :=
  let main_v68 : IVec S_ 1 := andi main_v63 main_v67
  let main_v69 : FVec F S32x32 .f32 := Host.absf main_arg17
  let main_cst_26 : FVec F S_ .f32 := constant S_ .f32 0x7F800000#32
  let main_v70 : FVec F S32x32 .f32 := broadcastInDim S32x32 ![] bcast_S_S32x32 main_cst_26
  let main_v71 : IVec S32x32 1 := cmpf .olt main_v69 main_v70
  let main_c_27 : IVec S_ 1 := constantI S_ 1 1#1
  let main_v72 : IVec S_ 1 := (fun x v => Host.reduce IntOp.andi x v reducesTo_S32x32_S_d0_1 h_S_) main_v71 main_c_27
  let main_v73 : IVec S_ 1 := andi main_v68 main_v72
  let main_v74 : FVec F S32 .f32 := Host.absf main_arg18
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32 .f32 := Host.absf main_arg19
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S32 .f32 := Host.absf main_arg20
  let main_cst_32 : FVec F S_ .f32 := constant S_ .f32 0x7F800000#32
  fn_part5 (F := F) main_arg21 main_v83 main_v84 main_cst_32

def fn_part3 {F : FTy → Type} [FloatOps F] (main_arg14 : FVec F S32 .f32) (main_arg15 : FVec F S32x32 .f32) (main_arg16 : FVec F S32x32 .f32) (main_arg17 : FVec F S32x32 .f32) (main_arg18 : FVec F S32 .f32) (main_arg19 : FVec F S32 .f32) (main_arg20 : FVec F S32 .f32) (main_arg21 : FVec F S32x1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32 .f32 := Host.absf main_arg14
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x32 .f32 := Host.absf main_arg15
  let main_cst_22 : FVec F S_ .f32 := constant S_ .f32 0x7F800000#32
  let main_v60 : FVec F S32x32 .f32 := broadcastInDim S32x32 ![] bcast_S_S32x32 main_cst_22
  let main_v61 : IVec S32x32 1 := cmpf .olt main_v59 main_v60
  let main_c_23 : IVec S_ 1 := constantI S_ 1 1#1
  let main_v62 : IVec S_ 1 := (fun x v => Host.reduce IntOp.andi x v reducesTo_S32x32_S_d0_1 h_S_) main_v61 main_c_23
  let main_v63 : IVec S_ 1 := andi main_v58 main_v62
  let main_v64 : FVec F S32x32 .f32 := Host.absf main_arg16
  let main_cst_24 : FVec F S_ .f32 := constant S_ .f32 0x7F800000#32
  let main_v65 : FVec F S32x32 .f32 := broadcastInDim S32x32 ![] bcast_S_S32x32 main_cst_24
  let main_v66 : IVec S32x32 1 := cmpf .olt main_v64 main_v65
  let main_c_25 : IVec S_ 1 := constantI S_ 1 1#1
  let main_v67 : IVec S_ 1 := (fun x v => Host.reduce IntOp.andi x v reducesTo_S32x32_S_d0_1 h_S_) main_v66 main_c_25
  fn_part4 (F := F) main_arg17 main_arg18 main_arg19 main_arg20 main_arg21 main_v63 main_v67

def fn_part2 {F : FTy → Type} [FloatOps F] (main_arg10 : FVec F S128x32 .f32) (main_arg11 : FVec F S128x32 .f32) (main_arg12 : FVec F S32 .f32) (main_arg13 : FVec F S32 .f32) (main_arg14 : FVec F S32 .f32) (main_arg15 : FVec F S32x32 .f32) (main_arg16 : FVec F S32x32 .f32) (main_arg17 : FVec F S32x32 .f32) (main_arg18 : FVec F S32 .f32) (main_arg19 : FVec F S32 .f32) (main_arg20 : FVec F S32 .f32) (main_arg21 : FVec F S32x1 .f32) (main_v33 : IVec S_ 1) : IVec S_ 1 :=
  let main_v34 : FVec F S128x32 .f32 := Host.absf main_arg10
  let main_cst_12 : FVec F S_ .f32 := constant S_ .f32 0x7F800000#32
  let main_v35 : FVec F S128x32 .f32 := broadcastInDim S128x32 ![] bcast_S_S128x32 main_cst_12
  let main_v36 : IVec S128x32 1 := cmpf .olt main_v34 main_v35
  let main_c_13 : IVec S_ 1 := constantI S_ 1 1#1
  let main_v37 : IVec S_ 1 := (fun x v => Host.reduce IntOp.andi x v reducesTo_S128x32_S_d0_1 h_S_) main_v36 main_c_13
  let main_v38 : IVec S_ 1 := andi main_v33 main_v37
  let main_v39 : FVec F S128x32 .f32 := Host.absf main_arg11
  let main_cst_14 : FVec F S_ .f32 := constant S_ .f32 0x7F800000#32
  let main_v40 : FVec F S128x32 .f32 := broadcastInDim S128x32 ![] bcast_S_S128x32 main_cst_14
  let main_v41 : IVec S128x32 1 := cmpf .olt main_v39 main_v40
  let main_c_15 : IVec S_ 1 := constantI S_ 1 1#1
  let main_v42 : IVec S_ 1 := (fun x v => Host.reduce IntOp.andi x v reducesTo_S128x32_S_d0_1 h_S_) main_v41 main_c_15
  let main_v43 : IVec S_ 1 := andi main_v38 main_v42
  let main_v44 : FVec F S32 .f32 := Host.absf main_arg12
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32 .f32 := Host.absf main_arg13
  let main_cst_18 : FVec F S_ .f32 := constant S_ .f32 0x7F800000#32
  let main_v50 : FVec F S32 .f32 := broadcastInDim S32 ![] bcast_S_S32 main_cst_18
  fn_part3 (F := F) main_arg14 main_arg15 main_arg16 main_arg17 main_arg18 main_arg19 main_arg20 main_arg21 main_v48 main_v49 main_v50

def fn_part1 {F : FTy → Type} [FloatOps F] (main_arg7 : FVec F S1600000 .f32) (main_arg8 : FVec F S1600000 .f32) (main_arg9 : FVec F S128x32 .f32) (main_arg10 : FVec F S128x32 .f32) (main_arg11 : FVec F S128x32 .f32) (main_arg12 : FVec F S32 .f32) (main_arg13 : FVec F S32 .f32) (main_arg14 : FVec F S32 .f32) (main_arg15 : FVec F S32x32 .f32) (main_arg16 : FVec F S32x32 .f32) (main_arg17 : FVec F S32x32 .f32) (main_arg18 : FVec F S32 .f32) (main_arg19 : FVec F S32 .f32) (main_arg20 : FVec F S32 .f32) (main_arg21 : FVec F S32x1 .f32) (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  let main_v19 : FVec F S1600000 .f32 := Host.absf main_arg7
  let main_cst_6 : FVec F S_ .f32 := constant S_ .f32 0x7F800000#32
  let main_v20 : FVec F S1600000 .f32 := broadcastInDim S1600000 ![] bcast_S_S1600000 main_cst_6
  let main_v21 : IVec S1600000 1 := cmpf .olt main_v19 main_v20
  let main_c_7 : IVec S_ 1 := constantI S_ 1 1#1
  let main_v22 : IVec S_ 1 := (fun x v => Host.reduce IntOp.andi x v reducesTo_S1600000_S_d0 h_S_) main_v21 main_c_7
  let main_v23 : IVec S_ 1 := andi main_v18 main_v22
  let main_v24 : FVec F S1600000 .f32 := Host.absf main_arg8
  let main_cst_8 : FVec F S_ .f32 := constant S_ .f32 0x7F800000#32
  let main_v25 : FVec F S1600000 .f32 := broadcastInDim S1600000 ![] bcast_S_S1600000 main_cst_8
  let main_v26 : IVec S1600000 1 := cmpf .olt main_v24 main_v25
  let main_c_9 : IVec S_ 1 := constantI S_ 1 1#1
  let main_v27 : IVec S_ 1 := (fun x v => Host.reduce IntOp.andi x v reducesTo_S1600000_S_d0 h_S_) main_v26 main_c_9
  let main_v28 : IVec S_ 1 := andi main_v23 main_v27
  let main_v29 : FVec F S128x32 .f32 := Host.absf main_arg9
  let main_cst_10 : FVec F S_ .f32 := constant S_ .f32 0x7F800000#32
  let main_v30 : FVec F S128x32 .f32 := broadcastInDim S128x32 ![] bcast_S_S128x32 main_cst_10
  let main_v31 : IVec S128x32 1 := cmpf .olt main_v29 main_v30
  let main_c_11 : IVec S_ 1 := constantI S_ 1 1#1
  let main_v32 : IVec S_ 1 := (fun x v => Host.reduce IntOp.andi x v reducesTo_S128x32_S_d0_1 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_v33

def fn {F : FTy → Type} [FloatOps F] (main_arg0 : FVec F S100000x128 .f32) (main_arg1 : FVec F S100000x128 .f32) (main_arg2 : FVec F S100000x128 .f32) (main_arg3 : IVec S2x1600000 32) (main_arg4 : IVec S2x1600000 32) (main_arg5 : IVec S2x1600000 32) (main_arg6 : FVec F S1600000 .f32) (main_arg7 : FVec F S1600000 .f32) (main_arg8 : FVec F S1600000 .f32) (main_arg9 : FVec F S128x32 .f32) (main_arg10 : FVec F S128x32 .f32) (main_arg11 : FVec F S128x32 .f32) (main_arg12 : FVec F S32 .f32) (main_arg13 : FVec F S32 .f32) (main_arg14 : FVec F S32 .f32) (main_arg15 : FVec F S32x32 .f32) (main_arg16 : FVec F S32x32 .f32) (main_arg17 : FVec F S32x32 .f32) (main_arg18 : FVec F S32 .f32) (main_arg19 : FVec F S32 .f32) (main_arg20 : FVec F S32 .f32) (main_arg21 : FVec F S32x1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S1600000 .f32 := Host.absf main_arg6
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x32 : Shape := ⟨2, ![100000, 32]⟩
abbrev S10000x128 : Shape := ⟨2, ![10000, 128]⟩
abbrev S10000x32 : Shape := ⟨2, ![10000, 32]⟩
abbrev S1700000x32 : Shape := ⟨2, ![1700000, 32]⟩
abbrev S1x32 : Shape := ⟨2, ![1, 32]⟩
abbrev S100000x3 : Shape := ⟨2, ![100000, 3]⟩
abbrev S2000x32 : Shape := ⟨2, ![2000, 32]⟩
abbrev S2000x3 : Shape := ⟨2, ![2000, 3]⟩
abbrev S2000 : Shape := ⟨1, ![2000]⟩
abbrev S2000x1 : Shape := ⟨2, ![2000, 1]⟩
abbrev S100000x1 : Shape := ⟨2, ![100000, 1]⟩
abbrev S5000x32 : Shape := ⟨2, ![5000, 32]⟩

abbrev nBuf : Space → Nat
  | .hbm => 256
  | .vmem => 41
  | .smem => 0
  | _ => 0

abbrev hbmTy0_0 (i : Nat) : BufTy := match i % 128 with
  | 0 => ⟨S100000x128, .f32⟩
  | 1 => ⟨S100000x128, .f32⟩
  | 2 => ⟨S100000x128, .f32⟩
  | 3 => ⟨S2x1600000, .i32⟩
  | 4 => ⟨S2x1600000, .i32⟩
  | 5 => ⟨S2x1600000, .i32⟩
  | 6 => ⟨S1600000, .f32⟩
  | 7 => ⟨S1600000, .f32⟩
  | 8 => ⟨S1600000, .f32⟩
  | 9 => ⟨S128x32, .f32⟩
  | 10 => ⟨S128x32, .f32⟩
  | 11 => ⟨S128x32, .f32⟩
  | 12 => ⟨S32, .f32⟩
  | 13 => ⟨S32, .f32⟩
  | 14 => ⟨S32, .f32⟩
  | 15 => ⟨S32x32, .f32⟩
  | 16 => ⟨S32x32, .f32⟩
  | 17 => ⟨S32x32, .f32⟩
  | 18 => ⟨S32, .f32⟩
  | 19 => ⟨S32, .f32⟩
  | 20 => ⟨S32, .f32⟩
  | 21 => ⟨S32x1, .f32⟩
  | 22 => ⟨S1x1600000, .i32⟩
  | 23 => ⟨S1600000, .i32⟩
  | 24 => ⟨S1x1600000, .i32⟩
  | 25 => ⟨S1600000, .i32⟩
  | 26 => ⟨S100000, .i32⟩
  | 27 => ⟨S1700000, .i32⟩
  | 28 => ⟨S1700000, .i32⟩
  | 29 => ⟨S_, .f32⟩
  | 30 => ⟨S100000, .f32⟩
  | 31 => ⟨S1700000, .f32⟩
  | 32 => ⟨S_, .f32⟩
  | 33 => ⟨S100000, .f32⟩
  | 34 => ⟨S1700000x1, .i32⟩
  | 35 => ⟨S100000, .f32⟩
  | 36 => ⟨S_, .f32⟩
  | 37 => ⟨S100000, .f32⟩
  | 38 => ⟨S100000, .i1⟩
  | 39 => ⟨S100000, .f32⟩
  | 40 => ⟨S_, .f32⟩
  | 41 => ⟨S_, .f32⟩
  | 42 => ⟨S100000, .f32⟩
  | 43 => ⟨S100000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000, .f32⟩
  | 63 => ⟨S1700000, .f32⟩
  | 64 => ⟨S1x1600000, .i32⟩
  | 65 => ⟨S1600000, .i32⟩
  | 66 => ⟨S1x1600000, .i32⟩
  | 67 => ⟨S1600000, .i32⟩
  | 68 => ⟨S100000, .i32⟩
  | 69 => ⟨S1700000, .i32⟩
  | 70 => ⟨S1700000, .i32⟩
  | 71 => ⟨S_, .f32⟩
  | 72 => ⟨S100000, .f32⟩
  | 73 => ⟨S1700000, .f32⟩
  | 74 => ⟨S_, .f32⟩
  | 75 => ⟨S100000, .f32⟩
  | 76 => ⟨S1700000x1, .i32⟩
  | 77 => ⟨S100000, .f32⟩
  | 78 => ⟨S_, .f32⟩
  | 79 => ⟨S100000, .f32⟩
  | 80 => ⟨S100000, .i1⟩
  | 81 => ⟨S100000, .f32⟩
  | 82 => ⟨S_, .f32⟩
  | 83 => ⟨S_, .f32⟩
  | 84 => ⟨S100000, .f32⟩
  | 85 => ⟨S100000, .f32⟩
  | 86 => ⟨S_, .i32⟩
  | 87 => ⟨S1700000, .i32⟩
  | 88 => ⟨S1700000, .i1⟩
  | 89 => ⟨S_, .i32⟩
  | 90 => ⟨S1700000, .i32⟩
  | 91 => ⟨S1700000, .i32⟩
  | 92 => ⟨S1700000, .i32⟩
  | 93 => ⟨S1700000x1, .i32⟩
  | 94 => ⟨S1700000, .f32⟩
  | 95 => ⟨S1700000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000, .f32⟩
  | 105 => ⟨S1700000, .f32⟩
  | 106 => ⟨S1x1600000, .i32⟩
  | 107 => ⟨S1600000, .i32⟩
  | 108 => ⟨S1x1600000, .i32⟩
  | 109 => ⟨S1600000, .i32⟩
  | 110 => ⟨S100000, .i32⟩
  | 111 => ⟨S1700000, .i32⟩
  | 112 => ⟨S1700000, .i32⟩
  | 113 => ⟨S_, .f32⟩
  | 114 => ⟨S100000, .f32⟩
  | 115 => ⟨S1700000, .f32⟩
  | 116 => ⟨S_, .f32⟩
  | 117 => ⟨S100000, .f32⟩
  | 118 => ⟨S1700000x1, .i32⟩
  | 119 => ⟨S100000, .f32⟩
  | 120 => ⟨S_, .f32⟩
  | 121 => ⟨S100000, .f32⟩
  | 122 => ⟨S100000, .i1⟩
  | 123 => ⟨S100000, .f32⟩
  | 124 => ⟨S_, .f32⟩
  | 125 => ⟨S_, .f32⟩
  | 126 => ⟨S100000, .f32⟩
  | 127 => ⟨S100000, .f32⟩
  | _ => ⟨S100000x128, .f32⟩

abbrev hbmTy0_1 (i : Nat) : BufTy := match i % 128 with
  | 0 => ⟨S_, .i32⟩
  | 1 => ⟨S1700000, .i32⟩
  | 2 => ⟨S1700000, .i1⟩
  | 3 => ⟨S_, .i32⟩
  | 4 => ⟨S1700000, .i32⟩
  | 5 => ⟨S1700000, .i32⟩
  | 6 => ⟨S1700000, .i32⟩
  | 7 => ⟨S1700000x1, .i32⟩
  | 8 => ⟨S1700000, .f32⟩
  | 9 => ⟨S1700000, .f32⟩
  | 10 => ⟨S_, .i32⟩
  | 11 => ⟨S1700000, .i32⟩
  | 12 => ⟨S1700000, .i1⟩
  | 13 => ⟨S_, .i32⟩
  | 14 => ⟨S1700000, .i32⟩
  | 15 => ⟨S1700000, .i32⟩
  | 16 => ⟨S1700000, .i32⟩
  | 17 => ⟨S1700000x1, .i32⟩
  | 18 => ⟨S1700000, .f32⟩
  | 19 => ⟨S1700000, .f32⟩
  | 20 => ⟨S100000x32, .f32⟩
  | 21 => ⟨S1700000x1, .f32⟩
  | 22 => ⟨S_, .i32⟩
  | 23 => ⟨S1700000, .i32⟩
  | 24 => ⟨S1700000, .i1⟩
  | 25 => ⟨S_, .i32⟩
  | 26 => ⟨S1700000, .i32⟩
  | 27 => ⟨S1700000, .i32⟩
  | 28 => ⟨S1700000, .i32⟩
  | 29 => ⟨S1700000x1, .i32⟩
  | 30 => ⟨S1700000x32, .f32⟩
  | 31 => ⟨S1700000x32, .f32⟩
  | 32 => ⟨S1700000x32, .f32⟩
  | 33 => ⟨S_, .f32⟩
  | 34 => ⟨S100000x32, .f32⟩
  | 35 => ⟨S1700000x1, .i32⟩
  | 36 => ⟨S100000x32, .f32⟩
  | 37 => ⟨S100000x32, .f32⟩
  | 38 => ⟨S1700000x1, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000x32, .f32⟩
  | 48 => ⟨S1700000x32, .f32⟩
  | 49 => ⟨S1700000x32, .f32⟩
  | 50 => ⟨S_, .f32⟩
  | 51 => ⟨S100000x32, .f32⟩
  | 52 => ⟨S1700000x1, .i32⟩
  | 53 => ⟨S100000x32, .f32⟩
  | 54 => ⟨S100000x32, .f32⟩
  | 55 => ⟨S1700000x1, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x32, .f32⟩
  | 65 => ⟨S1700000x32, .f32⟩
  | 66 => ⟨S1700000x32, .f32⟩
  | 67 => ⟨S_, .f32⟩
  | 68 => ⟨S100000x32, .f32⟩
  | 69 => ⟨S1700000x1, .i32⟩
  | 70 => ⟨S100000x32, .f32⟩
  | 71 => ⟨S1x32, .f32⟩
  | 72 => ⟨S100000x32, .f32⟩
  | 73 => ⟨S100000x3, .f32⟩
  | 74 => ⟨S100000x1, .f32⟩
  | 75 => ⟨S100000x1, .f32⟩
  | 76 => ⟨S100000x1, .f32⟩
  | 77 => ⟨S1700000x1, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000x32, .f32⟩
  | 87 => ⟨S1700000x32, .f32⟩
  | 88 => ⟨S1700000x32, .f32⟩
  | 89 => ⟨S_, .f32⟩
  | 90 => ⟨S100000x32, .f32⟩
  | 91 => ⟨S1700000x1, .i32⟩
  | 92 => ⟨S100000x32, .f32⟩
  | 93 => ⟨S1700000x1, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000x32, .f32⟩
  | 103 => ⟨S1700000x32, .f32⟩
  | 104 => ⟨S1700000x32, .f32⟩
  | 105 => ⟨S_, .f32⟩
  | 106 => ⟨S100000x32, .f32⟩
  | 107 => ⟨S1700000x1, .i32⟩
  | 108 => ⟨S100000x32, .f32⟩
  | 109 => ⟨S1700000x1, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x32, .f32⟩
  | 119 => ⟨S1700000x32, .f32⟩
  | 120 => ⟨S1700000x32, .f32⟩
  | 121 => ⟨S_, .f32⟩
  | 122 => ⟨S100000x32, .f32⟩
  | 123 => ⟨S1700000x1, .i32⟩
  | 124 => ⟨S100000x32, .f32⟩
  | 125 => ⟨S32, .f32⟩
  | 126 => ⟨S32, .f32⟩
  | 127 => ⟨S100000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S10000x32, .f32⟩
  | .local _ .vmem, ⟨4, _⟩ => ⟨S10000x32, .f32⟩
  | .local _ .vmem, ⟨5, _⟩ => ⟨S10000x128, .f32⟩
  | .local _ .vmem, ⟨6, _⟩ => ⟨S10000x128, .f32⟩
  | .local _ .vmem, ⟨7, _⟩ => ⟨S128x32, .f32⟩
  | .local _ .vmem, ⟨8, _⟩ => ⟨S10000x32, .f32⟩
  | .local _ .vmem, ⟨9, _⟩ => ⟨S10000x32, .f32⟩
  | .local _ .vmem, ⟨10, _⟩ => ⟨S10000x128, .f32⟩
  | .local _ .vmem, ⟨11, _⟩ => ⟨S10000x128, .f32⟩
  | .local _ .vmem, ⟨12, _⟩ => ⟨S128x32, .f32⟩
  | .local _ .vmem, ⟨13, _⟩ => ⟨S10000x32, .f32⟩
  | .local _ .vmem, ⟨14, _⟩ => ⟨S10000x32, .f32⟩
  | .local _ .vmem, ⟨15, _⟩ => ⟨S2000x32, .f32⟩
  | .local _ .vmem, ⟨16, _⟩ => ⟨S2000x32, .f32⟩
  | .local _ .vmem, ⟨17, _⟩ => ⟨S2000x32, .f32⟩
  | .local _ .vmem, ⟨18, _⟩ => ⟨S2000x32, .f32⟩
  | .local _ .vmem, ⟨19, _⟩ => ⟨S2000x32, .f32⟩
  | .local _ .vmem, ⟨20, _⟩ => ⟨S2000x32, .f32⟩
  | .local _ .vmem, ⟨21, _⟩ => ⟨S32, .f32⟩
  | .local _ .vmem, ⟨22, _⟩ => ⟨S32, .f32⟩
  | .local _ .vmem, ⟨23, _⟩ => ⟨S32, .f32⟩
  | .local _ .vmem, ⟨24, _⟩ => ⟨S1x32, .f32⟩
  | .local _ .vmem, ⟨25, _⟩ => ⟨S2000x32, .f32⟩
  | .local _ .vmem, ⟨26, _⟩ => ⟨S2000x32, .f32⟩
  | .local _ .vmem, ⟨27, _⟩ => ⟨S2000x3, .f32⟩
  | .local _ .vmem, ⟨28, _⟩ => ⟨S2000x3, .f32⟩
  | .local _ .vmem, ⟨29, _⟩ => ⟨S5000x32, .f32⟩
  | .local _ .vmem, ⟨30, _⟩ => ⟨S5000x32, .f32⟩
  | .local _ .vmem, ⟨31, _⟩ => ⟨S5000x32, .f32⟩
  | .local _ .vmem, ⟨32, _⟩ => ⟨S5000x32, .f32⟩
  | .local _ .vmem, ⟨33, _⟩ => ⟨S5000x32, .f32⟩
  | .local _ .vmem, ⟨34, _⟩ => ⟨S5000x32, .f32⟩
  | .local _ .vmem, ⟨35, _⟩ => ⟨S32x32, .f32⟩
  | .local _ .vmem, ⟨36, _⟩ => ⟨S32x32, .f32⟩
  | .local _ .vmem, ⟨37, _⟩ => ⟨S32x32, .f32⟩
  | .local _ .vmem, ⟨38, _⟩ => ⟨S32, .f32⟩
  | .local _ .vmem, ⟨39, _⟩ => ⟨S5000x32, .f32⟩
  | .local _ .vmem, ⟨40, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_v8 : Ref sig .tc := ⟨.hbm, 31, rfl⟩
abbrev main_cst_0 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst_1 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_2 : Ref sig .tc := ⟨.hbm, 40, rfl⟩
abbrev main_call0_v0 : Ref sig .tc := ⟨.hbm, 41, rfl⟩
abbrev main_call0_v1 : Ref sig .tc := ⟨.hbm, 42, rfl⟩
abbrev main_v15 : Ref sig .tc := ⟨.hbm, 43, rfl⟩
abbrev main_c : Ref sig .tc := ⟨.hbm, 44, rfl⟩
abbrev main_v16 : Ref sig .tc := ⟨.hbm, 45, rfl⟩
abbrev main_v17 : Ref sig .tc := ⟨.hbm, 46, rfl⟩
abbrev main_c_3 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_c_4 : Ref sig .tc := ⟨.hbm, 54, rfl⟩
abbrev main_v24 : Ref sig .tc := ⟨.hbm, 55, rfl⟩
abbrev main_v25 : Ref sig .tc := ⟨.hbm, 56, rfl⟩
abbrev main_c_5 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_6 : Ref sig .tc := ⟨.hbm, 71, rfl⟩
abbrev main_v39 : Ref sig .tc := ⟨.hbm, 72, rfl⟩
abbrev main_v40 : Ref sig .tc := ⟨.hbm, 73, rfl⟩
abbrev main_cst_7 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_8 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_9 : Ref sig .tc := ⟨.hbm, 82, rfl⟩
abbrev main_call1_v0 : Ref sig .tc := ⟨.hbm, 83, rfl⟩
abbrev main_call1_v1 : Ref sig .tc := ⟨.hbm, 84, rfl⟩
abbrev main_v47 : Ref sig .tc := ⟨.hbm, 85, rfl⟩
abbrev main_c_10 : Ref sig .tc := ⟨.hbm, 86, rfl⟩
abbrev main_v48 : Ref sig .tc := ⟨.hbm, 87, rfl⟩
abbrev main_v49 : Ref sig .tc := ⟨.hbm, 88, rfl⟩
abbrev main_c_11 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_c_12 : Ref sig .tc := ⟨.hbm, 96, rfl⟩
abbrev main_v56 : Ref sig .tc := ⟨.hbm, 97, rfl⟩
abbrev main_v57 : Ref sig .tc := ⟨.hbm, 98, rfl⟩
abbrev main_c_13 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_cst_14 : Ref sig .tc := ⟨.hbm, 113, rfl⟩
abbrev main_v71 : Ref sig .tc := ⟨.hbm, 114, rfl⟩
abbrev main_v72 : Ref sig .tc := ⟨.hbm, 115, rfl⟩
abbrev main_cst_15 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_cst_16 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_cst_17 : Ref sig .tc := ⟨.hbm, 124, rfl⟩
abbrev main_call2_v0 : Ref sig .tc := ⟨.hbm, 125, rfl⟩
abbrev main_call2_v1 : Ref sig .tc := ⟨.hbm, 126, rfl⟩
abbrev main_v79 : Ref sig .tc := ⟨.hbm, 127, rfl⟩
abbrev main_c_18 : Ref sig .tc := ⟨.hbm, 128, rfl⟩
abbrev main_v80 : Ref sig .tc := ⟨.hbm, 129, rfl⟩
abbrev main_v81 : Ref sig .tc := ⟨.hbm, 130, rfl⟩
abbrev main_c_19 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_c_20 : Ref sig .tc := ⟨.hbm, 138, rfl⟩
abbrev main_v88 : Ref sig .tc := ⟨.hbm, 139, rfl⟩
abbrev main_v89 : Ref sig .tc := ⟨.hbm, 140, rfl⟩
abbrev main_c_21 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_c_22 : Ref sig .tc := ⟨.hbm, 150, rfl⟩
abbrev main_v98 : Ref sig .tc := ⟨.hbm, 151, rfl⟩
abbrev main_v99 : Ref sig .tc := ⟨.hbm, 152, rfl⟩
abbrev main_c_23 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_cst_24 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_c_25 : Ref sig .tc := ⟨.hbm, 167, rfl⟩
abbrev main_v112 : Ref sig .tc := ⟨.hbm, 168, rfl⟩
abbrev main_v113 : Ref sig .tc := ⟨.hbm, 169, rfl⟩
abbrev main_c_26 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_cst_27 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_c_28 : Ref sig .tc := ⟨.hbm, 184, rfl⟩
abbrev main_v126 : Ref sig .tc := ⟨.hbm, 185, rfl⟩
abbrev main_v127 : Ref sig .tc := ⟨.hbm, 186, rfl⟩
abbrev main_c_29 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_cst_30 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139_0 : Ref sig .tc := ⟨.hbm, 200, rfl⟩
abbrev main_v139_1 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_c_31 : Ref sig .tc := ⟨.hbm, 206, rfl⟩
abbrev main_v144 : Ref sig .tc := ⟨.hbm, 207, rfl⟩
abbrev main_v145 : Ref sig .tc := ⟨.hbm, 208, rfl⟩
abbrev main_c_32 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_cst_33 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_c_34 : Ref sig .tc := ⟨.hbm, 222, rfl⟩
abbrev main_v157 : Ref sig .tc := ⟨.hbm, 223, rfl⟩
abbrev main_v158 : Ref sig .tc := ⟨.hbm, 224, rfl⟩
abbrev main_c_35 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_cst_36 : Ref sig .tc := ⟨.hbm, 233, rfl⟩
abbrev main_v166 : Ref sig .tc := ⟨.hbm, 234, rfl⟩
abbrev main_v167 : Ref sig .tc := ⟨.hbm, 235, rfl⟩
abbrev main_v168 : Ref sig .tc := ⟨.hbm, 236, rfl⟩
abbrev main_v169 : Ref sig .tc := ⟨.hbm, 237, rfl⟩
abbrev main_c_37 : Ref sig .tc := ⟨.hbm, 238, rfl⟩
abbrev main_v170 : Ref sig .tc := ⟨.hbm, 239, rfl⟩
abbrev main_v171 : Ref sig .tc := ⟨.hbm, 240, rfl⟩
abbrev main_c_38 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_cst_39 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg5_0 : Ref sig .tc := ⟨.vmem, 23, rfl⟩
abbrev cc3_stg6_0 : Ref sig .tc := ⟨.vmem, 24, rfl⟩
abbrev cc3_stg7_0 : Ref sig .tc := ⟨.vmem, 25, rfl⟩
abbrev cc3_stg7_1 : Ref sig .tc := ⟨.vmem, 26, rfl⟩
abbrev cc3_stg8_0 : Ref sig .tc := ⟨.vmem, 27, rfl⟩
abbrev cc3_stg8_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg6_0 : Ref sig .tc := ⟨.vmem, 38, rfl⟩
abbrev cc4_stg7_0 : Ref sig .tc := ⟨.vmem, 39, rfl⟩
abbrev cc4_stg7_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem4_0 : DmaSem sig := 22
abbrev cc3_sem5_0 : DmaSem sig := 23
abbrev cc3_sem6_0 : DmaSem sig := 24
abbrev cc3_sem7_0 : DmaSem sig := 25
abbrev cc3_sem7_1 : DmaSem sig := 26
abbrev cc3_sem8_0 : DmaSem sig := 27
abbrev cc3_sem8_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem4_0 : DmaSem sig := 36
abbrev cc4_sem5_0 : DmaSem sig := 37
abbrev cc4_sem6_0 : DmaSem sig := 38
abbrev cc4_sem7_0 : DmaSem sig := 39
abbrev cc4_sem7_1 : DmaSem sig := 40

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x32 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x32 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S2000x3 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S32x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S32x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S32x32 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S32 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x32 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32x1_S1x32 : S32x1.ShapeCasts S1x32
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  inb_S32_S32_0 : ∀ a, (![0] : Fin 1 → Nat) a + S32.size a ≤ S32.size a
  h_S32 : 0 < S32.numel
  shapeCasts_S32_S1x32 : S32.ShapeCasts S1x32
  broadcasts_S1x32_S2000x32 : S1x32.Broadcasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  reduces_S2000x32_S2000 : S2000x32.Reduces [1] S2000
  shapeCasts_S2000_S2000x1 : S2000.ShapeCasts S2000x1
  broadcasts_S2000x1_S2000x32 : S2000x1.Broadcasts S2000x32
  inb_S2000x3_S2000x1_0_0 : ∀ a, (![0, 0] : Fin 2 → Nat) a + S2000x1.size a ≤ S2000x3.size a
  h_S2000x1 : 0 < S2000x1.numel
  inb_S2000x3_S2000x1_0_1 : ∀ a, (![0, 1] : Fin 2 → Nat) a + S2000x1.size a ≤ S2000x3.size a
  inb_S2000x3_S2000x1_0_2 : ∀ a, (![0, 2] : Fin 2 → Nat) a + S2000x1.size a ≤ S2000x3.size a
  slices_S100000x3_S100000x1_0_0 : S100000x3.Slices ![0, 0] S100000x1
  slices_S100000x3_S100000x1_0_1 : S100000x3.Slices ![0, 1] S100000x1
  slices_S100000x3_S100000x1_0_2 : S100000x3.Slices ![0, 2] S100000x1
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S32x32_S32x32_0_0 : ∀ a, (![0, 0] : Fin 2 → Nat) a + S32x32.size a ≤ S32x32.size a
  h_S32x32 : 0 < S32x32.numel
  shapeCasts_S32_S32 : S32.ShapeCasts S32
  broadcasts_S1x32_S5000x32 : S1x32.Broadcasts S5000x32
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x32_S10000x32_1_0_0_1_n_n_wf : DotDims.WF S10000x128 S128x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S5000x32_S32x32_S5000x32_1_0_0_1_n_n_wf : DotDims.WF S5000x32 S32x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x32.size a ≤ S128x32.size a
  hwx1_1 : ∀ i : grid1.Coords, EltTy.bits .f32 = 32 ∨ (Rect.block (s := S128x32) S128x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x32.size a ≤ S128x32.size a
  hwx2_1 : ∀ i : grid2.Coords, EltTy.bits .f32 = 32 ∨ (Rect.block (s := S128x32) S128x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x32.size a ≤ S100000x32.size a
  hwx3_0 : ∀ i : grid3.Coords, EltTy.bits .f32 = 32 ∨ (Rect.block (s := S100000x32) S2000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x32.size a ≤ S100000x32.size a
  hwx3_1 : ∀ i : grid3.Coords, EltTy.bits .f32 = 32 ∨ (Rect.block (s := S100000x32) S2000x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x32.size a ≤ S100000x32.size a
  hwx3_2 : ∀ i : grid3.Coords, EltTy.bits .f32 = 32 ∨ (Rect.block (s := S100000x32) S2000x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32.size a ≤ S32.size a
  hwx3_3 : ∀ i : grid3.Coords, EltTy.bits .f32 = 32 ∨ (Rect.block (s := S32) S32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S32.size a ≤ S32.size a
  hwx3_4 : ∀ i : grid3.Coords, EltTy.bits .f32 = 32 ∨ (Rect.block (s := S32) S32.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S32.size a ≤ S32.size a
  hwx3_5 : ∀ i : grid3.Coords, EltTy.bits .f32 = 32 ∨ (Rect.block (s := S32) S32.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x32.size a ≤ S1x32.size a
  hwx3_6 : ∀ i : grid3.Coords, EltTy.bits .f32 = 32 ∨ (Rect.block (s := S1x32) S1x32.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x32.size a ≤ S100000x32.size a
  hwx3_7 : ∀ i : grid3.Coords, EltTy.bits .f32 = 32 ∨ (Rect.block (s := S100000x32) S2000x32.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x3.size a ≤ S100000x3.size a
  hwx3_8 : ∀ i : grid3.Coords, EltTy.bits .f32 = 32 ∨ (Rect.block (s := S100000x3) S2000x3.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S100000x32.size a
  hwx4_0 : ∀ i : grid4.Coords, EltTy.bits .f32 = 32 ∨ (Rect.block (s := S100000x32) S5000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x32.size a ≤ S100000x32.size a
  hwx4_1 : ∀ i : grid4.Coords, EltTy.bits .f32 = 32 ∨ (Rect.block (s := S100000x32) S5000x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x32.size a ≤ S100000x32.size a
  hwx4_2 : ∀ i : grid4.Coords, EltTy.bits .f32 = 32 ∨ (Rect.block (s := S100000x32) S5000x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x32.size a ≤ S32x32.size a
  hwx4_3 : ∀ i : grid4.Coords, EltTy.bits .f32 = 32 ∨ (Rect.block (s := S32x32) S32x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S32x32.size a ≤ S32x32.size a
  hwx4_4 : ∀ i : grid4.Coords, EltTy.bits .f32 = 32 ∨ (Rect.block (s := S32x32) S32x32.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S32x32.size a ≤ S32x32.size a
  hwx4_5 : ∀ i : grid4.Coords, EltTy.bits .f32 = 32 ∨ (Rect.block (s := S32x32) S32x32.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S32.size a ≤ S32.size a
  hwx4_6 : ∀ i : grid4.Coords, EltTy.bits .f32 = 32 ∨ (Rect.block (s := S32) S32.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x32.size a ≤ S100000x32.size a
  hwx4_7 : ∀ i : grid4.Coords, EltTy.bits .f32 = 32 ∨ (Rect.block (s := S100000x32) S5000x32.size (cc4_transform_7 i) (hinb4_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg9) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v96) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S128x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v110) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg2) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S128x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v124) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v109) S2000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v123) S2000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v137) S2000x32.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg14) S32.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v138) S1x32.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v139_0) S2000x32.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v139_1) S2000x3.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v155) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v168) S5000x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v181) S5000x32.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg15) S32x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg16) S32x32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg17) S32x32.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v183) S32.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v184) S5000x32.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S100000x32 : Shape := ⟨2, ![100000, 32]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x32 : Shape := ⟨2, ![1700000, 32]⟩
abbrev S1x32 : Shape := ⟨2, ![1, 32]⟩
abbrev S100000x1 : Shape := ⟨2, ![100000, 1]⟩

abbrev nBuf : Space → Nat
  | .hbm => 451
  | .vmem => 0
  | .smem => 0
  | _ => 0

abbrev hbmTy0_0 (i : Nat) : BufTy := match i % 128 with
  | 0 => ⟨S100000x128, .f32⟩
  | 1 => ⟨S100000x128, .f32⟩
  | 2 => ⟨S100000x128, .f32⟩
  | 3 => ⟨S2x1600000, .i32⟩
  | 4 => ⟨S2x1600000, .i32⟩
  | 5 => ⟨S2x1600000, .i32⟩
  | 6 => ⟨S1600000, .f32⟩
  | 7 => ⟨S1600000, .f32⟩
  | 8 => ⟨S1600000, .f32⟩
  | 9 => ⟨S128x32, .f32⟩
  | 10 => ⟨S128x32, .f32⟩
  | 11 => ⟨S128x32, .f32⟩
  | 12 => ⟨S32, .f32⟩
  | 13 => ⟨S32, .f32⟩
  | 14 => ⟨S32, .f32⟩
  | 15 => ⟨S32x32, .f32⟩
  | 16 => ⟨S32x32, .f32⟩
  | 17 => ⟨S32x32, .f32⟩
  | 18 => ⟨S32, .f32⟩
  | 19 => ⟨S32, .f32⟩
  | 20 => ⟨S32, .f32⟩
  | 21 => ⟨S32x1, .f32⟩
  | 22 => ⟨S100000x32, .f32⟩
  | 23 => ⟨S1x1600000, .i32⟩
  | 24 => ⟨S1600000, .i32⟩
  | 25 => ⟨S1x1600000, .i32⟩
  | 26 => ⟨S1600000, .i32⟩
  | 27 => ⟨S100000, .i32⟩
  | 28 => ⟨S1700000, .i32⟩
  | 29 => ⟨S1700000, .i32⟩
  | 30 => ⟨S_, .f32⟩
  | 31 => ⟨S100000, .f32⟩
  | 32 => ⟨S1700000, .f32⟩
  | 33 => ⟨S_, .f32⟩
  | 34 => ⟨S100000, .f32⟩
  | 35 => ⟨S1700000x1, .i32⟩
  | 36 => ⟨S100000, .f32⟩
  | 37 => ⟨S_, .f32⟩
  | 38 => ⟨S100000, .f32⟩
  | 39 => ⟨S100000, .i1⟩
  | 40 => ⟨S100000, .f32⟩
  | 41 => ⟨S_, .f32⟩
  | 42 => ⟨S_, .f32⟩
  | 43 => ⟨S100000, .f32⟩
  | 44 => ⟨S100000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000, .f32⟩
  | 64 => ⟨S1700000, .f32⟩
  | 65 => ⟨S1700000x1, .f32⟩
  | 66 => ⟨S_, .i32⟩
  | 67 => ⟨S1700000, .i32⟩
  | 68 => ⟨S1700000, .i1⟩
  | 69 => ⟨S_, .i32⟩
  | 70 => ⟨S1700000, .i32⟩
  | 71 => ⟨S1700000, .i32⟩
  | 72 => ⟨S1700000, .i32⟩
  | 73 => ⟨S1700000x1, .i32⟩
  | 74 => ⟨S1700000x32, .f32⟩
  | 75 => ⟨S1700000x32, .f32⟩
  | 76 => ⟨S1700000x32, .f32⟩
  | 77 => ⟨S_, .f32⟩
  | 78 => ⟨S100000x32, .f32⟩
  | 79 => ⟨S1700000x1, .i32⟩
  | 80 => ⟨S100000x32, .f32⟩
  | 81 => ⟨S1x32, .f32⟩
  | 82 => ⟨S100000x32, .f32⟩
  | 83 => ⟨S100000x32, .f32⟩
  | 84 => ⟨S_, .f32⟩
  | 85 => ⟨S100000x32, .f32⟩
  | 86 => ⟨S100000x32, .f32⟩
  | 87 => ⟨S100000x1, .f32⟩
  | 88 => ⟨S_, .f32⟩
  | 89 => ⟨S100000x1, .f32⟩
  | 90 => ⟨S100000x1, .i1⟩
  | 91 => ⟨S_, .f32⟩
  | 92 => ⟨S100000x1, .f32⟩
  | 93 => ⟨S100000x1, .f32⟩
  | 94 => ⟨S100000x1, .f32⟩
  | 95 => ⟨S100000x1, .f32⟩
  | 96 => ⟨S100000x32, .f32⟩
  | 97 => ⟨S1x1600000, .i32⟩
  | 98 => ⟨S1600000, .i32⟩
  | 99 => ⟨S1x1600000, .i32⟩
  | 100 => ⟨S1600000, .i32⟩
  | 101 => ⟨S100000, .i32⟩
  | 102 => ⟨S1700000, .i32⟩
  | 103 => ⟨S1700000, .i32⟩
  | 104 => ⟨S_, .f32⟩
  | 105 => ⟨S100000, .f32⟩
  | 106 => ⟨S1700000, .f32⟩
  | 107 => ⟨S_, .f32⟩
  | 108 => ⟨S100000, .f32⟩
  | 109 => ⟨S1700000x1, .i32⟩
  | 110 => ⟨S100000, .f32⟩
  | 111 => ⟨S_, .f32⟩
  | 112 => ⟨S100000, .f32⟩
  | 113 => ⟨S100000, .i1⟩
  | 114 => ⟨S100000, .f32⟩
  | 115 => ⟨S_, .f32⟩
  | 116 => ⟨S_, .f32⟩
  | 117 => ⟨S100000, .f32⟩
  | 118 => ⟨S100000, .f32⟩
  | 119 => ⟨S_, .i32⟩
  | 120 => ⟨S1700000, .i32⟩
  | 121 => ⟨S1700000, .i1⟩
  | 122 => ⟨S_, .i32⟩
  | 123 => ⟨S1700000, .i32⟩
  | 124 => ⟨S1700000, .i32⟩
  | 125 => ⟨S1700000, .i32⟩
  | 126 => ⟨S1700000x1, .i32⟩
  | 127 => ⟨S1700000, .f32⟩
  | _ => ⟨S100000x128, .f32⟩

abbrev hbmTy0_1 (i : Nat) : BufTy := match i % 128 with
  | 0 => ⟨S1700000, .f32⟩
  | 1 => ⟨S_, .i32⟩
  | 2 => ⟨S1700000, .i32⟩
  | 3 => ⟨S1700000, .i1⟩
  | 4 => ⟨S_, .i32⟩
  | 5 => ⟨S1700000, .i32⟩
  | 6 => ⟨S1700000, .i32⟩
  | 7 => ⟨S1700000, .i32⟩
  | 8 => ⟨S1700000x1, .i32⟩
  | 9 => ⟨S1700000, .f32⟩
  | 10 => ⟨S1700000, .f32⟩
  | 11 => ⟨S1700000x1, .f32⟩
  | 12 => ⟨S_, .i32⟩
  | 13 => ⟨S1700000, .i32⟩
  | 14 => ⟨S1700000, .i1⟩
  | 15 => ⟨S_, .i32⟩
  | 16 => ⟨S1700000, .i32⟩
  | 17 => ⟨S1700000, .i32⟩
  | 18 => ⟨S1700000, .i32⟩
  | 19 => ⟨S1700000x1, .i32⟩
  | 20 => ⟨S1700000x32, .f32⟩
  | 21 => ⟨S1700000x32, .f32⟩
  | 22 => ⟨S1700000x32, .f32⟩
  | 23 => ⟨S_, .f32⟩
  | 24 => ⟨S100000x32, .f32⟩
  | 25 => ⟨S1700000x1, .i32⟩
  | 26 => ⟨S100000x32, .f32⟩
  | 27 => ⟨S1x32, .f32⟩
  | 28 => ⟨S100000x32, .f32⟩
  | 29 => ⟨S100000x32, .f32⟩
  | 30 => ⟨S_, .f32⟩
  | 31 => ⟨S100000x32, .f32⟩
  | 32 => ⟨S100000x32, .f32⟩
  | 33 => ⟨S100000x1, .f32⟩
  | 34 => ⟨S_, .f32⟩
  | 35 => ⟨S100000x1, .f32⟩
  | 36 => ⟨S100000x1, .i1⟩
  | 37 => ⟨S_, .f32⟩
  | 38 => ⟨S100000x1, .f32⟩
  | 39 => ⟨S100000x1, .f32⟩
  | 40 => ⟨S100000x1, .f32⟩
  | 41 => ⟨S100000x1, .f32⟩
  | 42 => ⟨S100000x32, .f32⟩
  | 43 => ⟨S1x1600000, .i32⟩
  | 44 => ⟨S1600000, .i32⟩
  | 45 => ⟨S1x1600000, .i32⟩
  | 46 => ⟨S1600000, .i32⟩
  | 47 => ⟨S100000, .i32⟩
  | 48 => ⟨S1700000, .i32⟩
  | 49 => ⟨S1700000, .i32⟩
  | 50 => ⟨S_, .f32⟩
  | 51 => ⟨S100000, .f32⟩
  | 52 => ⟨S1700000, .f32⟩
  | 53 => ⟨S_, .f32⟩
  | 54 => ⟨S100000, .f32⟩
  | 55 => ⟨S1700000x1, .i32⟩
  | 56 => ⟨S100000, .f32⟩
  | 57 => ⟨S_, .f32⟩
  | 58 => ⟨S100000, .f32⟩
  | 59 => ⟨S100000, .i1⟩
  | 60 => ⟨S100000, .f32⟩
  | 61 => ⟨S_, .f32⟩
  | 62 => ⟨S_, .f32⟩
  | 63 => ⟨S100000, .f32⟩
  | 64 => ⟨S100000, .f32⟩
  | 65 => ⟨S_, .i32⟩
  | 66 => ⟨S1700000, .i32⟩
  | 67 => ⟨S1700000, .i1⟩
  | 68 => ⟨S_, .i32⟩
  | 69 => ⟨S1700000, .i32⟩
  | 70 => ⟨S1700000, .i32⟩
  | 71 => ⟨S1700000, .i32⟩
  | 72 => ⟨S1700000x1, .i32⟩
  | 73 => ⟨S1700000, .f32⟩
  | 74 => ⟨S1700000, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000, .f32⟩
  | 84 => ⟨S1700000, .f32⟩
  | 85 => ⟨S1700000x1, .f32⟩
  | 86 => ⟨S_, .i32⟩
  | 87 => ⟨S1700000, .i32⟩
  | 88 => ⟨S1700000, .i1⟩
  | 89 => ⟨S_, .i32⟩
  | 90 => ⟨S1700000, .i32⟩
  | 91 => ⟨S1700000, .i32⟩
  | 92 => ⟨S1700000, .i32⟩
  | 93 => ⟨S1700000x1, .i32⟩
  | 94 => ⟨S1700000x32, .f32⟩
  | 95 => ⟨S1700000x32, .f32⟩
  | 96 => ⟨S1700000x32, .f32⟩
  | 97 => ⟨S_, .f32⟩
  | 98 => ⟨S100000x32, .f32⟩
  | 99 => ⟨S1700000x1, .i32⟩
  | 100 => ⟨S100000x32, .f32⟩
  | 101 => ⟨S1x32, .f32⟩
  | 102 => ⟨S100000x32, .f32⟩
  | 103 => ⟨S100000x32, .f32⟩
  | 104 => ⟨S_, .f32⟩
  | 105 => ⟨S100000x32, .f32⟩
  | 106 => ⟨S100000x32, .f32⟩
  | 107 => ⟨S100000x1, .f32⟩
  | 108 => ⟨S_, .f32⟩
  | 109 => ⟨S100000x1, .f32⟩
  | 110 => ⟨S100000x1, .i1⟩
  | 111 => ⟨S_, .f32⟩
  | 112 => ⟨S100000x1, .f32⟩
  | 113 => ⟨S100000x1, .f32⟩
  | 114 => ⟨S100000x1, .f32⟩
  | 115 => ⟨S100000x1, .f32⟩
  | 116 => ⟨S100000x1, .f32⟩
  | 117 => ⟨S100000x1, .f32⟩
  | 118 => ⟨S100000x1, .f32⟩
  | 119 => ⟨S100000x1, .f32⟩
  | 120 => ⟨S100000x1, .f32⟩
  | 121 => ⟨S100000x32, .f32⟩
  | 122 => ⟨S100000x32, .f32⟩
  | 123 => ⟨S_, .f32⟩
  | 124 => ⟨S100000x32, .f32⟩
  | 125 => ⟨S100000x32, .f32⟩
  | 126 => ⟨S100000x32, .f32⟩
  | 127 => ⟨S100000x32, .f32⟩
  | _ => ⟨S100000x128, .f32⟩

abbrev hbmTy0_2 (i : Nat) : BufTy := match i % 128 with
  | 0 => ⟨S100000x32, .f32⟩
  | 1 => ⟨S100000x32, .f32⟩
  | 2 => ⟨S100000x32, .f32⟩
  | 3 => ⟨S100000x32, .f32⟩
  | 4 => ⟨S100000x32, .f32⟩
  | 5 => ⟨S1x1600000, .i32⟩
  | 6 => ⟨S1600000, .i32⟩
  | 7 => ⟨S1x1600000, .i32⟩
  | 8 => ⟨S1600000, .i32⟩
  | 9 => ⟨S100000, .i32⟩
  | 10 => ⟨S1700000, .i32⟩
  | 11 => ⟨S1700000, .i32⟩
  | 12 => ⟨S_, .f32⟩
  | 13 => ⟨S100000, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000, .f32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S1700000x1, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x32, .f32⟩
  | 57 => ⟨S1700000x32, .f32⟩
  | 58 => ⟨S1700000x32, .f32⟩
  | 59 => ⟨S_, .f32⟩
  | 60 => ⟨S100000x32, .f32⟩
  | 61 => ⟨S1700000x1, .i32⟩
  | 62 => ⟨S100000x32, .f32⟩
  | 63 => ⟨S1x32, .f32⟩
  | 64 => ⟨S100000x32, .f32⟩
  | 65 => ⟨S100000x32, .f32⟩
  | 66 => ⟨S_, .f32⟩
  | 67 => ⟨S100000x32, .f32⟩
  | 68 => ⟨S100000x32, .f32⟩
  | 69 => ⟨S100000x32, .f32⟩
  | 70 => ⟨S1x1600000, .i32⟩
  | 71 => ⟨S1600000, .i32⟩
  | 72 => ⟨S1x1600000, .i32⟩
  | 73 => ⟨S1600000, .i32⟩
  | 74 => ⟨S100000, .i32⟩
  | 75 => ⟨S1700000, .i32⟩
  | 76 => ⟨S1700000, .i32⟩
  | 77 => ⟨S_, .f32⟩
  | 78 => ⟨S100000, .f32⟩
  | 79 => ⟨S1700000, .f32⟩
  | 80 => ⟨S_, .f32⟩
  | 81 => ⟨S100000, .f32⟩
  | 82 => ⟨S1700000x1, .i32⟩
  | 83 => ⟨S100000, .f32⟩
  | 84 => ⟨S_, .f32⟩
  | 85 => ⟨S100000, .f32⟩
  | 86 => ⟨S100000, .i1⟩
  | 87 => ⟨S100000, .f32⟩
  | 88 => ⟨S_, .f32⟩
  | 89 => ⟨S_, .f32⟩
  | 90 => ⟨S100000, .f32⟩
  | 91 => ⟨S100000, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000, .f32⟩
  | 101 => ⟨S1700000, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000, .f32⟩
  | 111 => ⟨S1700000, .f32⟩
  | 112 => ⟨S1700000x1, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1700000x32, .f32⟩
  | 122 => ⟨S1700000x32, .f32⟩
  | 123 => ⟨S1700000x32, .f32⟩
  | 124 => ⟨S_, .f32⟩
  | 125 => ⟨S100000x32, .f32⟩
  | 126 => ⟨S1700000x1, .i32⟩
  | 127 => ⟨S100000x32, .f32⟩
  | _ => ⟨S100000x128, .f32⟩

abbrev hbmTy0_3 (i : Nat) : BufTy := match i % 128 with
  | 0 => ⟨S1x32, .f32⟩
  | 1 => ⟨S100000x32, .f32⟩
  | 2 => ⟨S100000x32, .f32⟩
  | 3 => ⟨S100000x32, .f32⟩
  | 4 => ⟨S100000x32, .f32⟩
  | 5 => ⟨S1x1600000, .i32⟩
  | 6 => ⟨S1600000, .i32⟩
  | 7 => ⟨S1x1600000, .i32⟩
  | 8 => ⟨S1600000, .i32⟩
  | 9 => ⟨S100000, .i32⟩
  | 10 => ⟨S1700000, .i32⟩
  | 11 => ⟨S1700000, .i32⟩
  | 12 => ⟨S_, .f32⟩
  | 13 => ⟨S100000, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000, .f32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S1700000x1, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x32, .f32⟩
  | 57 => ⟨S1700000x32, .f32⟩
  | 58 => ⟨S1700000x32, .f32⟩
  | 59 => ⟨S_, .f32⟩
  | 60 => ⟨S100000x32, .f32⟩
  | 61 => ⟨S1700000x1, .i32⟩
  | 62 => ⟨S100000x32, .f32⟩
  | 63 => ⟨S1x32, .f32⟩
  | 64 => ⟨S100000x32, .f32⟩
  | 65 => ⟨S100000x32, .f32⟩
  | 66 => ⟨S100000x32, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_cst_0 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_1 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_2 : Ref sig .tc := ⟨.hbm, 41, rfl⟩
abbrev main_call0_v0 : Ref sig .tc := ⟨.hbm, 42, rfl⟩
abbrev main_call0_v1 : Ref sig .tc := ⟨.hbm, 43, rfl⟩
abbrev main_v16 : Ref sig .tc := ⟨.hbm, 44, rfl⟩
abbrev main_c : Ref sig .tc := ⟨.hbm, 45, rfl⟩
abbrev main_v17 : Ref sig .tc := ⟨.hbm, 46, rfl⟩
abbrev main_v18 : Ref sig .tc := ⟨.hbm, 47, rfl⟩
abbrev main_c_3 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_c_4 : Ref sig .tc := ⟨.hbm, 55, rfl⟩
abbrev main_v25 : Ref sig .tc := ⟨.hbm, 56, rfl⟩
abbrev main_v26 : Ref sig .tc := ⟨.hbm, 57, rfl⟩
abbrev main_c_5 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_c_6 : Ref sig .tc := ⟨.hbm, 66, rfl⟩
abbrev main_v34 : Ref sig .tc := ⟨.hbm, 67, rfl⟩
abbrev main_v35 : Ref sig .tc := ⟨.hbm, 68, rfl⟩
abbrev main_c_7 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_8 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_call1_cst : Ref sig .tc := ⟨.hbm, 84, rfl⟩
abbrev main_call1_v0 : Ref sig .tc := ⟨.hbm, 85, rfl⟩
abbrev main_v49 : Ref sig .tc := ⟨.hbm, 86, rfl⟩
abbrev main_v50 : Ref sig .tc := ⟨.hbm, 87, rfl⟩
abbrev main_call2_cst : Ref sig .tc := ⟨.hbm, 88, rfl⟩
abbrev main_call2_v0 : Ref sig .tc := ⟨.hbm, 89, rfl⟩
abbrev main_call2_v1 : Ref sig .tc := ⟨.hbm, 90, rfl⟩
abbrev main_call2_cst_0 : Ref sig .tc := ⟨.hbm, 91, rfl⟩
abbrev main_call2_v2 : Ref sig .tc := ⟨.hbm, 92, rfl⟩
abbrev main_call2_v3 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_cst_9 : Ref sig .tc := ⟨.hbm, 104, rfl⟩
abbrev main_v61 : Ref sig .tc := ⟨.hbm, 105, rfl⟩
abbrev main_v62 : Ref sig .tc := ⟨.hbm, 106, rfl⟩
abbrev main_cst_10 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_cst_11 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_cst_12 : Ref sig .tc := ⟨.hbm, 115, rfl⟩
abbrev main_call3_v0 : Ref sig .tc := ⟨.hbm, 116, rfl⟩
abbrev main_call3_v1 : Ref sig .tc := ⟨.hbm, 117, rfl⟩
abbrev main_v69 : Ref sig .tc := ⟨.hbm, 118, rfl⟩
abbrev main_c_13 : Ref sig .tc := ⟨.hbm, 119, rfl⟩
abbrev main_v70 : Ref sig .tc := ⟨.hbm, 120, rfl⟩
abbrev main_v71 : Ref sig .tc := ⟨.hbm, 121, rfl⟩
abbrev main_c_14 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_c_15 : Ref sig .tc := ⟨.hbm, 129, rfl⟩
abbrev main_v78 : Ref sig .tc := ⟨.hbm, 130, rfl⟩
abbrev main_v79 : Ref sig .tc := ⟨.hbm, 131, rfl⟩
abbrev main_c_16 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_c_17 : Ref sig .tc := ⟨.hbm, 140, rfl⟩
abbrev main_v87 : Ref sig .tc := ⟨.hbm, 141, rfl⟩
abbrev main_v88 : Ref sig .tc := ⟨.hbm, 142, rfl⟩
abbrev main_c_18 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_cst_19 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_call4_cst : Ref sig .tc := ⟨.hbm, 158, rfl⟩
abbrev main_call4_v0 : Ref sig .tc := ⟨.hbm, 159, rfl⟩
abbrev main_v102 : Ref sig .tc := ⟨.hbm, 160, rfl⟩
abbrev main_v103 : Ref sig .tc := ⟨.hbm, 161, rfl⟩
abbrev main_call5_cst : Ref sig .tc := ⟨.hbm, 162, rfl⟩
abbrev main_call5_v0 : Ref sig .tc := ⟨.hbm, 163, rfl⟩
abbrev main_call5_v1 : Ref sig .tc := ⟨.hbm, 164, rfl⟩
abbrev main_call5_cst_0 : Ref sig .tc := ⟨.hbm, 165, rfl⟩
abbrev main_call5_v2 : Ref sig .tc := ⟨.hbm, 166, rfl⟩
abbrev main_call5_v3 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_cst_20 : Ref sig .tc := ⟨.hbm, 178, rfl⟩
abbrev main_v114 : Ref sig .tc := ⟨.hbm, 179, rfl⟩
abbrev main_v115 : Ref sig .tc := ⟨.hbm, 180, rfl⟩
abbrev main_cst_21 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_cst_22 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_cst_23 : Ref sig .tc := ⟨.hbm, 189, rfl⟩
abbrev main_call6_v0 : Ref sig .tc := ⟨.hbm, 190, rfl⟩
abbrev main_call6_v1 : Ref sig .tc := ⟨.hbm, 191, rfl⟩
abbrev main_v122 : Ref sig .tc := ⟨.hbm, 192, rfl⟩
abbrev main_c_24 : Ref sig .tc := ⟨.hbm, 193, rfl⟩
abbrev main_v123 : Ref sig .tc := ⟨.hbm, 194, rfl⟩
abbrev main_v124 : Ref sig .tc := ⟨.hbm, 195, rfl⟩
abbrev main_c_25 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_c_26 : Ref sig .tc := ⟨.hbm, 203, rfl⟩
abbrev main_v131 : Ref sig .tc := ⟨.hbm, 204, rfl⟩
abbrev main_v132 : Ref sig .tc := ⟨.hbm, 205, rfl⟩
abbrev main_c_27 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_c_28 : Ref sig .tc := ⟨.hbm, 214, rfl⟩
abbrev main_v140 : Ref sig .tc := ⟨.hbm, 215, rfl⟩
abbrev main_v141 : Ref sig .tc := ⟨.hbm, 216, rfl⟩
abbrev main_c_29 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_cst_30 : Ref sig .tc := ⟨.hbm, 225, rfl⟩
abbrev main_v149 : Ref sig .tc := ⟨.hbm, 226, rfl⟩
abbrev main_v150 : Ref sig .tc := ⟨.hbm, 227, rfl⟩
abbrev main_v151 : Ref sig .tc := ⟨.hbm, 228, rfl⟩
abbrev main_v152 : Ref sig .tc := ⟨.hbm, 229, rfl⟩
abbrev main_v153 : Ref sig .tc := ⟨.hbm, 230, rfl⟩
abbrev main_v154 : Ref sig .tc := ⟨.hbm, 231, rfl⟩
abbrev main_call7_cst : Ref sig .tc := ⟨.hbm, 232, rfl⟩
abbrev main_call7_v0 : Ref sig .tc := ⟨.hbm, 233, rfl⟩
abbrev main_v155 : Ref sig .tc := ⟨.hbm, 234, rfl⟩
abbrev main_v156 : Ref sig .tc := ⟨.hbm, 235, rfl⟩
abbrev main_call8_cst : Ref sig .tc := ⟨.hbm, 236, rfl⟩
abbrev main_call8_v0 : Ref sig .tc := ⟨.hbm, 237, rfl⟩
abbrev main_call8_v1 : Ref sig .tc := ⟨.hbm, 238, rfl⟩
abbrev main_call8_cst_0 : Ref sig .tc := ⟨.hbm, 239, rfl⟩
abbrev main_call8_v2 : Ref sig .tc := ⟨.hbm, 240, rfl⟩
abbrev main_call8_v3 : Ref sig .tc := ⟨.hbm, 241, rfl⟩
abbrev main_v157 : Ref sig .tc := ⟨.hbm, 242, rfl⟩
abbrev main_v158 : Ref sig .tc := ⟨.hbm, 243, rfl⟩
abbrev main_v159 : Ref sig .tc := ⟨.hbm, 244, rfl⟩
abbrev main_v160 : Ref sig .tc := ⟨.hbm, 245, rfl⟩
abbrev main_v161 : Ref sig .tc := ⟨.hbm, 246, rfl⟩
abbrev main_v162 : Ref sig .tc := ⟨.hbm, 247, rfl⟩
abbrev main_v163 : Ref sig .tc := ⟨.hbm, 248, rfl⟩
abbrev main_v164 : Ref sig .tc := ⟨.hbm, 249, rfl⟩
abbrev main_v165 : Ref sig .tc := ⟨.hbm, 250, rfl⟩
abbrev main_cst_31 : Ref sig .tc := ⟨.hbm, 251, rfl⟩
abbrev main_v166 : Ref sig .tc := ⟨.hbm, 252, rfl⟩
abbrev main_v167 : Ref sig .tc := ⟨.hbm, 253, rfl⟩
abbrev main_v168 : Ref sig .tc := ⟨.hbm, 254, rfl⟩
abbrev main_v169 : Ref sig .tc := ⟨.hbm, 255, rfl⟩
abbrev main_v170 : Ref sig .tc := ⟨.hbm, 256, rfl⟩
abbrev main_v171 : Ref sig .tc := ⟨.hbm, 257, rfl⟩
abbrev main_v172 : Ref sig .tc := ⟨.hbm, 258, rfl⟩
abbrev main_v173 : Ref sig .tc := ⟨.hbm, 259, rfl⟩
abbrev main_v174 : Ref sig .tc := ⟨.hbm, 260, rfl⟩
abbrev main_v175 : Ref sig .tc := ⟨.hbm, 261, rfl⟩
abbrev main_v176 : Ref sig .tc := ⟨.hbm, 262, rfl⟩
abbrev main_v177 : Ref sig .tc := ⟨.hbm, 263, rfl⟩
abbrev main_v178 : Ref sig .tc := ⟨.hbm, 264, rfl⟩
abbrev main_v179 : Ref sig .tc := ⟨.hbm, 265, rfl⟩
abbrev main_v180 : Ref sig .tc := ⟨.hbm, 266, rfl⟩
abbrev main_v181 : Ref sig .tc := ⟨.hbm, 267, rfl⟩
abbrev main_cst_32 : Ref sig .tc := ⟨.hbm, 268, rfl⟩
abbrev main_v182 : Ref sig .tc := ⟨.hbm, 269, rfl⟩
abbrev main_v183 : Ref sig .tc := ⟨.hbm, 270, rfl⟩
abbrev main_cst_33 : Ref sig .tc := ⟨.hbm, 271, rfl⟩
abbrev main_v184 : Ref sig .tc := ⟨.hbm, 272, rfl⟩
abbrev main_v185 : Ref sig .tc := ⟨.hbm, 273, rfl⟩
abbrev main_v186 : Ref sig .tc := ⟨.hbm, 274, rfl⟩
abbrev main_cst_34 : Ref sig .tc := ⟨.hbm, 275, rfl⟩
abbrev main_v187 : Ref sig .tc := ⟨.hbm, 276, rfl⟩
abbrev main_v188 : Ref sig .tc := ⟨.hbm, 277, rfl⟩
abbrev main_v189 : Ref sig .tc := ⟨.hbm, 278, rfl⟩
abbrev main_cst_35 : Ref sig .tc := ⟨.hbm, 279, rfl⟩
abbrev main_call9_v0 : Ref sig .tc := ⟨.hbm, 280, rfl⟩
abbrev main_call9_v1 : Ref sig .tc := ⟨.hbm, 281, rfl⟩
abbrev main_v190 : Ref sig .tc := ⟨.hbm, 282, rfl⟩
abbrev main_c_36 : Ref sig .tc := ⟨.hbm, 283, rfl⟩
abbrev main_v191 : Ref sig .tc := ⟨.hbm, 284, rfl⟩
abbrev main_v192 : Ref sig .tc := ⟨.hbm, 285, rfl⟩
abbrev main_c_37 : Ref sig .tc := ⟨.hbm, 286, rfl⟩
abbrev main_v193 : Ref sig .tc := ⟨.hbm, 287, rfl⟩
abbrev main_v194 : Ref sig .tc := ⟨.hbm, 288, rfl⟩
abbrev main_v195 : Ref sig .tc := ⟨.hbm, 289, rfl⟩
abbrev main_v196 : Ref sig .tc := ⟨.hbm, 290, rfl⟩
abbrev main_v197 : Ref sig .tc := ⟨.hbm, 291, rfl⟩
abbrev main_v198 : Ref sig .tc := ⟨.hbm, 292, rfl⟩
abbrev main_c_38 : Ref sig .tc := ⟨.hbm, 293, rfl⟩
abbrev main_v199 : Ref sig .tc := ⟨.hbm, 294, rfl⟩
abbrev main_v200 : Ref sig .tc := ⟨.hbm, 295, rfl⟩
abbrev main_c_39 : Ref sig .tc := ⟨.hbm, 296, rfl⟩
abbrev main_v201 : Ref sig .tc := ⟨.hbm, 297, rfl⟩
abbrev main_v202 : Ref sig .tc := ⟨.hbm, 298, rfl⟩
abbrev main_v203 : Ref sig .tc := ⟨.hbm, 299, rfl⟩
abbrev main_v204 : Ref sig .tc := ⟨.hbm, 300, rfl⟩
abbrev main_v205 : Ref sig .tc := ⟨.hbm, 301, rfl⟩
abbrev main_v206 : Ref sig .tc := ⟨.hbm, 302, rfl⟩
abbrev main_v207 : Ref sig .tc := ⟨.hbm, 303, rfl⟩
abbrev main_c_40 : Ref sig .tc := ⟨.hbm, 304, rfl⟩
abbrev main_v208 : Ref sig .tc := ⟨.hbm, 305, rfl⟩
abbrev main_v209 : Ref sig .tc := ⟨.hbm, 306, rfl⟩
abbrev main_c_41 : Ref sig .tc := ⟨.hbm, 307, rfl⟩
abbrev main_v210 : Ref sig .tc := ⟨.hbm, 308, rfl⟩
abbrev main_v211 : Ref sig .tc := ⟨.hbm, 309, rfl⟩
abbrev main_v212 : Ref sig .tc := ⟨.hbm, 310, rfl⟩
abbrev main_v213 : Ref sig .tc := ⟨.hbm, 311, rfl⟩
abbrev main_v214 : Ref sig .tc := ⟨.hbm, 312, rfl⟩
abbrev main_v215 : Ref sig .tc := ⟨.hbm, 313, rfl⟩
abbrev main_v216 : Ref sig .tc := ⟨.hbm, 314, rfl⟩
abbrev main_cst_42 : Ref sig .tc := ⟨.hbm, 315, rfl⟩
abbrev main_v217 : Ref sig .tc := ⟨.hbm, 316, rfl⟩
abbrev main_v218 : Ref sig .tc := ⟨.hbm, 317, rfl⟩
abbrev main_v219 : Ref sig .tc := ⟨.hbm, 318, rfl⟩
abbrev main_v220 : Ref sig .tc := ⟨.hbm, 319, rfl⟩
abbrev main_v221 : Ref sig .tc := ⟨.hbm, 320, rfl⟩
abbrev main_v222 : Ref sig .tc := ⟨.hbm, 321, rfl⟩
abbrev main_cst_43 : Ref sig .tc := ⟨.hbm, 322, rfl⟩
abbrev main_v223 : Ref sig .tc := ⟨.hbm, 323, rfl⟩
abbrev main_v224 : Ref sig .tc := ⟨.hbm, 324, rfl⟩
abbrev main_v225 : Ref sig .tc := ⟨.hbm, 325, rfl⟩
abbrev main_v226 : Ref sig .tc := ⟨.hbm, 326, rfl⟩
abbrev main_v227 : Ref sig .tc := ⟨.hbm, 327, rfl⟩
abbrev main_v228 : Ref sig .tc := ⟨.hbm, 328, rfl⟩
abbrev main_v229 : Ref sig .tc := ⟨.hbm, 329, rfl⟩
abbrev main_v230 : Ref sig .tc := ⟨.hbm, 330, rfl⟩
abbrev main_v231 : Ref sig .tc := ⟨.hbm, 331, rfl⟩
abbrev main_v232 : Ref sig .tc := ⟨.hbm, 332, rfl⟩
abbrev main_cst_44 : Ref sig .tc := ⟨.hbm, 333, rfl⟩
abbrev main_v233 : Ref sig .tc := ⟨.hbm, 334, rfl⟩
abbrev main_v234 : Ref sig .tc := ⟨.hbm, 335, rfl⟩
abbrev main_cst_45 : Ref sig .tc := ⟨.hbm, 336, rfl⟩
abbrev main_v235 : Ref sig .tc := ⟨.hbm, 337, rfl⟩
abbrev main_v236 : Ref sig .tc := ⟨.hbm, 338, rfl⟩
abbrev main_v237 : Ref sig .tc := ⟨.hbm, 339, rfl⟩
abbrev main_cst_46 : Ref sig .tc := ⟨.hbm, 340, rfl⟩
abbrev main_v238 : Ref sig .tc := ⟨.hbm, 341, rfl⟩
abbrev main_v239 : Ref sig .tc := ⟨.hbm, 342, rfl⟩
abbrev main_v240 : Ref sig .tc := ⟨.hbm, 343, rfl⟩
abbrev main_cst_47 : Ref sig .tc := ⟨.hbm, 344, rfl⟩
abbrev main_call10_v0 : Ref sig .tc := ⟨.hbm, 345, rfl⟩
abbrev main_call10_v1 : Ref sig .tc := ⟨.hbm, 346, rfl⟩
abbrev main_v241 : Ref sig .tc := ⟨.hbm, 347, rfl⟩
abbrev main_c_48 : Ref sig .tc := ⟨.hbm, 348, rfl⟩
abbrev main_v242 : Ref sig .tc := ⟨.hbm, 349, rfl⟩
abbrev main_v243 : Ref sig .tc := ⟨.hbm, 350, rfl⟩
abbrev main_c_49 : Ref sig .tc := ⟨.hbm, 351, rfl⟩
abbrev main_v244 : Ref sig .tc := ⟨.hbm, 352, rfl⟩
abbrev main_v245 : Ref sig .tc := ⟨.hbm, 353, rfl⟩
abbrev main_v246 : Ref sig .tc := ⟨.hbm, 354, rfl⟩
abbrev main_v247 : Ref sig .tc := ⟨.hbm, 355, rfl⟩
abbrev main_v248 : Ref sig .tc := ⟨.hbm, 356, rfl⟩
abbrev main_v249 : Ref sig .tc := ⟨.hbm, 357, rfl⟩
abbrev main_c_50 : Ref sig .tc := ⟨.hbm, 358, rfl⟩
abbrev main_v250 : Ref sig .tc := ⟨.hbm, 359, rfl⟩
abbrev main_v251 : Ref sig .tc := ⟨.hbm, 360, rfl⟩
abbrev main_c_51 : Ref sig .tc := ⟨.hbm, 361, rfl⟩
abbrev main_v252 : Ref sig .tc := ⟨.hbm, 362, rfl⟩
abbrev main_v253 : Ref sig .tc := ⟨.hbm, 363, rfl⟩
abbrev main_v254 : Ref sig .tc := ⟨.hbm, 364, rfl⟩
abbrev main_v255 : Ref sig .tc := ⟨.hbm, 365, rfl⟩
abbrev main_v256 : Ref sig .tc := ⟨.hbm, 366, rfl⟩
abbrev main_v257 : Ref sig .tc := ⟨.hbm, 367, rfl⟩
abbrev main_v258 : Ref sig .tc := ⟨.hbm, 368, rfl⟩
abbrev main_c_52 : Ref sig .tc := ⟨.hbm, 369, rfl⟩
abbrev main_v259 : Ref sig .tc := ⟨.hbm, 370, rfl⟩
abbrev main_v260 : Ref sig .tc := ⟨.hbm, 371, rfl⟩
abbrev main_c_53 : Ref sig .tc := ⟨.hbm, 372, rfl⟩
abbrev main_v261 : Ref sig .tc := ⟨.hbm, 373, rfl⟩
abbrev main_v262 : Ref sig .tc := ⟨.hbm, 374, rfl⟩
abbrev main_v263 : Ref sig .tc := ⟨.hbm, 375, rfl⟩
abbrev main_v264 : Ref sig .tc := ⟨.hbm, 376, rfl⟩
abbrev main_v265 : Ref sig .tc := ⟨.hbm, 377, rfl⟩
abbrev main_v266 : Ref sig .tc := ⟨.hbm, 378, rfl⟩
abbrev main_v267 : Ref sig .tc := ⟨.hbm, 379, rfl⟩
abbrev main_cst_54 : Ref sig .tc := ⟨.hbm, 380, rfl⟩
abbrev main_v268 : Ref sig .tc := ⟨.hbm, 381, rfl⟩
abbrev main_v269 : Ref sig .tc := ⟨.hbm, 382, rfl⟩
abbrev main_v270 : Ref sig .tc := ⟨.hbm, 383, rfl⟩
abbrev main_v271 : Ref sig .tc := ⟨.hbm, 384, rfl⟩
abbrev main_v272 : Ref sig .tc := ⟨.hbm, 385, rfl⟩
abbrev main_v273 : Ref sig .tc := ⟨.hbm, 386, rfl⟩
abbrev main_v274 : Ref sig .tc := ⟨.hbm, 387, rfl⟩
abbrev main_v275 : Ref sig .tc := ⟨.hbm, 388, rfl⟩
abbrev main_v276 : Ref sig .tc := ⟨.hbm, 389, rfl⟩
abbrev main_v277 : Ref sig .tc := ⟨.hbm, 390, rfl⟩
abbrev main_v278 : Ref sig .tc := ⟨.hbm, 391, rfl⟩
abbrev main_v279 : Ref sig .tc := ⟨.hbm, 392, rfl⟩
abbrev main_v280 : Ref sig .tc := ⟨.hbm, 393, rfl⟩
abbrev main_v281 : Ref sig .tc := ⟨.hbm, 394, rfl⟩
abbrev main_v282 : Ref sig .tc := ⟨.hbm, 395, rfl⟩
abbrev main_cst_55 : Ref sig .tc := ⟨.hbm, 396, rfl⟩
abbrev main_v283 : Ref sig .tc := ⟨.hbm, 397, rfl⟩
abbrev main_v284 : Ref sig .tc := ⟨.hbm, 398, rfl⟩
abbrev main_cst_56 : Ref sig .tc := ⟨.hbm, 399, rfl⟩
abbrev main_v285 : Ref sig .tc := ⟨.hbm, 400, rfl⟩
abbrev main_v286 : Ref sig .tc := ⟨.hbm, 401, rfl⟩
abbrev main_v287 : Ref sig .tc := ⟨.hbm, 402, rfl⟩
abbrev main_cst_57 : Ref sig .tc := ⟨.hbm, 403, rfl⟩
abbrev main_v288 : Ref sig .tc := ⟨.hbm, 404, rfl⟩
abbrev main_v289 : Ref sig .tc := ⟨.hbm, 405, rfl⟩
abbrev main_v290 : Ref sig .tc := ⟨.hbm, 406, rfl⟩
abbrev main_cst_58 : Ref sig .tc := ⟨.hbm, 407, rfl⟩
abbrev main_call11_v0 : Ref sig .tc := ⟨.hbm, 408, rfl⟩
abbrev main_call11_v1 : Ref sig .tc := ⟨.hbm, 409, rfl⟩
abbrev main_v291 : Ref sig .tc := ⟨.hbm, 410, rfl⟩
abbrev main_c_59 : Ref sig .tc := ⟨.hbm, 411, rfl⟩
abbrev main_v292 : Ref sig .tc := ⟨.hbm, 412, rfl⟩
abbrev main_v293 : Ref sig .tc := ⟨.hbm, 413, rfl⟩
abbrev main_c_60 : Ref sig .tc := ⟨.hbm, 414, rfl⟩
abbrev main_v294 : Ref sig .tc := ⟨.hbm, 415, rfl⟩
abbrev main_v295 : Ref sig .tc := ⟨.hbm, 416, rfl⟩
abbrev main_v296 : Ref sig .tc := ⟨.hbm, 417, rfl⟩
abbrev main_v297 : Ref sig .tc := ⟨.hbm, 418, rfl⟩
abbrev main_v298 : Ref sig .tc := ⟨.hbm, 419, rfl⟩
abbrev main_v299 : Ref sig .tc := ⟨.hbm, 420, rfl⟩
abbrev main_c_61 : Ref sig .tc := ⟨.hbm, 421, rfl⟩
abbrev main_v300 : Ref sig .tc := ⟨.hbm, 422, rfl⟩
abbrev main_v301 : Ref sig .tc := ⟨.hbm, 423, rfl⟩
abbrev main_c_62 : Ref sig .tc := ⟨.hbm, 424, rfl⟩
abbrev main_v302 : Ref sig .tc := ⟨.hbm, 425, rfl⟩
abbrev main_v303 : Ref sig .tc := ⟨.hbm, 426, rfl⟩
abbrev main_v304 : Ref sig .tc := ⟨.hbm, 427, rfl⟩
abbrev main_v305 : Ref sig .tc := ⟨.hbm, 428, rfl⟩
abbrev main_v306 : Ref sig .tc := ⟨.hbm, 429, rfl⟩
abbrev main_v307 : Ref sig .tc := ⟨.hbm, 430, rfl⟩
abbrev main_v308 : Ref sig .tc := ⟨.hbm, 431, rfl⟩
abbrev main_c_63 : Ref sig .tc := ⟨.hbm, 432, rfl⟩
abbrev main_v309 : Ref sig .tc := ⟨.hbm, 433, rfl⟩
abbrev main_v310 : Ref sig .tc := ⟨.hbm, 434, rfl⟩
abbrev main_c_64 : Ref sig .tc := ⟨.hbm, 435, rfl⟩
abbrev main_v311 : Ref sig .tc := ⟨.hbm, 436, rfl⟩
abbrev main_v312 : Ref sig .tc := ⟨.hbm, 437, rfl⟩
abbrev main_v313 : Ref sig .tc := ⟨.hbm, 438, rfl⟩
abbrev main_v314 : Ref sig .tc := ⟨.hbm, 439, rfl⟩
abbrev main_v315 : Ref sig .tc := ⟨.hbm, 440, rfl⟩
abbrev main_v316 : Ref sig .tc := ⟨.hbm, 441, rfl⟩
abbrev main_v317 : Ref sig .tc := ⟨.hbm, 442, rfl⟩
abbrev main_cst_65 : Ref sig .tc := ⟨.hbm, 443, rfl⟩
abbrev main_v318 : Ref sig .tc := ⟨.hbm, 444, rfl⟩
abbrev main_v319 : Ref sig .tc := ⟨.hbm, 445, rfl⟩
abbrev main_v320 : Ref sig .tc := ⟨.hbm, 446, rfl⟩
abbrev main_v321 : Ref sig .tc := ⟨.hbm, 447, rfl⟩
abbrev main_v322 : Ref sig .tc := ⟨.hbm, 448, rfl⟩
abbrev main_v323 : Ref sig .tc := ⟨.hbm, 449, rfl⟩
abbrev main_v324 : Ref sig .tc := ⟨.hbm, 450, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x1 : S_.BroadcastsInDim S100000x1 (![] : Fin 0 → Fin S100000x1.rank)
  bcast_S100000x1_S100000x32_0_1 : S100000x1.BroadcastsInDim S100000x32 (![0, 1] : Fin 2 → Fin S100000x32.rank)
  dot_S100000x128_S128x32_S100000x32_1_0_0_1_n_n_wf : DotDims.WF S100000x128 S128x32 S100000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x1_S100000x1_1_0_0_1_n_n_wf : DotDims.WF S100000x32 S32x1 S100000x1 [1] [0] [0] [1] [] []
  dot_S100000x32_S32x32_S100000x32_1_0_0_1_n_n_wf : DotDims.WF S100000x32 S32x32 S100000x32 [1] [0] [0] [1] [] []

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf

class Facts : Prop extends Facts₀ where

variable [Facts]
-- ==== Proof.Spec.lean ====
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev Arr2 (r c : Nat) : Type := (⟨2, ![r, c]⟩ : Shape).Idx → EReal

abbrev Arr1 (n : Nat) : Type := (⟨1, ![n]⟩ : Shape).Idx → EReal

abbrev nN : Nat := 100000

def slope : EReal := Ideal.ofBits .f32 0x3C23D70A#32

/-- Entry (p, q) of the product x · w: the sum over the contracted axis. -/
def mmAt {K C : Nat} (x : Arr2 nN K) (w : Arr2 K C) (p : Fin nN) (q : Fin C) : EReal :=
  ∑ k : Fin K, x (ix2 p k) * w (ix2 k q)

def mm {K C : Nat} (x : Arr2 nN K) (w : Arr2 K C) : Arr2 nN C := fun i => mmAt x w (i 0) (i 1)

/-- max (acc + b) 0, entry by entry. -/
def relu (acc : Arr2 nN 32) (b : Arr1 32) (p : Fin nN) (k : Fin 32) : EReal :=
  max (acc (ix2 p k) + b (ix1 k)) 0

def reluArr (acc : Arr2 nN 32) (b : Arr1 32) : Arr2 nN 32 := fun i => relu acc b (i 0) (i 1)

/-- t where 0 ≤ t, slope · t elsewhere. -/
def leaky (t : EReal) : EReal := if 0 ≤ t then t else slope * t

/-- The leaky-rectified inner product of a rectified row with the attention vector. -/
def logit (acc : Arr2 nN 32) (b : Arr1 32) (a : Fin 32 → EReal) (p : Fin nN) : EReal :=
  leaky (∑ k : Fin 32, relu acc b p k * a k)

/-- What the attention reads: three accumulators, three biases, one vector. -/
structure AttIn where
  acc1 : Arr2 nN 32
  acc2 : Arr2 nN 32
  acc3 : Arr2 nN 32
  b1 : Arr1 32
  b2 : Arr1 32
  b3 : Arr1 32
  a : Fin 32 → EReal

namespace AttIn

variable (x : AttIn)

def s1 (p : Fin nN) : EReal := logit x.acc1 x.b1 x.a p
def s2 (p : Fin nN) : EReal := logit x.acc2 x.b2 x.a p
def s3 (p : Fin nN) : EReal := logit x.acc3 x.b3 x.a p

/-- The maximum of the three logits. -/
def mx (p : Fin nN) : EReal := max (max (x.s1 p) (x.s2 p)) (x.s3 p)
def c1K (p : Fin nN) : EReal := Ideal.exp (x.s1 p - x.mx p)
def c2K (p : Fin nN) : EReal := Ideal.exp (x.s2 p - x.mx p)
def c3K (p : Fin nN) : EReal := Ideal.exp (x.s3 p - x.mx p)
def sumK (p : Fin nN) : EReal := (x.c1K p + x.c2K p) + x.c3K p
def w1K (p : Fin nN) : EReal := Ideal.div (x.c1K p) (x.sumK p)
def w2K (p : Fin nN) : EReal := Ideal.div (x.c2K p) (x.sumK p)
def w3K (p : Fin nN) : EReal := Ideal.div (x.c3K p) (x.sumK p)

def hK (p : Fin nN) (k : Fin 32) : EReal :=
  (x.w1K p * relu x.acc1 x.b1 p k + x.w2K p * relu x.acc2 x.b2 p k) + x.w3K p * relu x.acc3 x.b3 p k

def hKArr : Arr2 nN 32 := fun i => x.hK (i 0) (i 1)

def wcatK : Arr2 nN 3 := fun i =>
  if (i 1).val = 0 then x.w1K (i 0) else if (i 1).val = 1 then x.w2K (i 0) else x.w3K (i 0)

def c1R (p : Fin nN) : EReal := Ideal.exp (x.s1 p)
def c2R (p : Fin nN) : EReal := Ideal.exp (x.s2 p)
def c3R (p : Fin nN) : EReal := Ideal.exp (x.s3 p)
def sumR (p : Fin nN) : EReal := (x.c1R p + x.c2R p) + x.c3R p
def w1R (p : Fin nN) : EReal := Ideal.div (x.c1R p) (x.sumR p)
def w2R (p : Fin nN) : EReal := Ideal.div (x.c2R p) (x.sumR p)
def w3R (p : Fin nN) : EReal := Ideal.div (x.c3R p) (x.sumR p)

end AttIn

/-- Entry (p, q) of S1 · Wo1 + S2 · Wo2 + S3 · Wo3 + bo. -/
def projAt (S1 S2 S3 : Arr2 nN 32) (Wo1 Wo2 Wo3 : Arr2 32 32) (bo : Arr1 32) (p : Fin nN) (q : Fin 32) : EReal :=
  ((mmAt S1 Wo1 p q + mmAt S2 Wo2 p q) + mmAt S3 Wo3 p q) + bo (ix1 q)

def proj (S1 S2 S3 : Arr2 nN 32) (Wo1 Wo2 Wo3 : Arr2 32 32) (bo : Arr1 32) : Arr2 nN 32 :=
  fun i => projAt S1 S2 S3 Wo1 Wo2 Wo3 bo (i 0) (i 1)

/-- Every entry is a real. -/
def Fin2 {r c : Nat} (x : Arr2 r c) : Prop := ∀ i, ∃ v : ℝ, x i = (v : EReal)

def Fin1 {n : Nat} (x : Arr1 n) : Prop := ∀ i, ∃ v : ℝ, x i = (v : EReal)

end Cert.Spec

end
-- ==== Proof.SpecT.lean ====
import proofs.«426271_j85796266705527_4_alg».proof.ReferenceIdeal
import proofs.«426271_j85796266705527_4_alg».proof.Proof.Spec

noncomputable section

namespace Cert.SpecT

open Idealize.ShloMosaic Idealize.ShloMosaic.ValueIdx Cert.ReferenceIdeal Cert.ReferenceIdeal.Facts₀ Cert.Spec

variable {F : FTy → Type} [FloatOps F] [Cert.ReferenceIdeal.Facts]

abbrev Ei : Type := IVec S2x1600000 32

/-- The edge list's first row with the node numbers 0 … n-1 appended: one self-loop per node. -/
def rowT (ei : Ei) : IVec S1700000 32 :=
  concatenate S1700000 0
    [⟨S1600000, shapeCast S1600000 (extractStridedSlice S1x1600000 ![0, 0] ei slices_S2x1600000_S1x1600000_0_0) shapeCasts_S1x1600000_S1600000⟩,
     ⟨S100000, iotaInDim S100000 32 0⟩] concatenates_S1600000_S100000_S1700000_d0

def colT (ei : Ei) : IVec S1700000 32 :=
  concatenate S1700000 0
    [⟨S1600000, shapeCast S1600000 (extractStridedSlice S1x1600000 ![1, 0] ei slices_S2x1600000_S1x1600000_1_0) shapeCasts_S1x1600000_S1600000⟩,
     ⟨S100000, iotaInDim S100000 32 0⟩] concatenates_S1600000_S100000_S1700000_d0

def ewT (ea : FVec F S1600000 .f32) : FVec F S1700000 .f32 :=
  concatenate S1700000 0
    [⟨S1600000, ea⟩, ⟨S100000, broadcastInDim S100000 ![] bcast_S_S100000 (constant S_ .f32 0x3F800000#32)⟩]
    concatenates_S1600000_S100000_S1700000_d0

def zeros1 : FVec F S100000 .f32 := broadcastInDim S100000 ![] bcast_S_S100000 (constant S_ .f32 0x00000000#32)

def zeros2 : FVec F S100000x32 .f32 := broadcastInDim S100000x32 ![] bcast_S_S100000x32 (constant S_ .f32 0x00000000#32)

def idxCol (ix : IVec S1700000 32) : IVec S1700000x1 32 := broadcastInDim S1700000x1 ![0] bcast_S1700000_S1700000x1_0 ix

def fixT (ix : IVec S1700000 32) : IVec S1700000 32 :=
  select (cmpi .slt ix (broadcastInDim S1700000 ![] bcast_S_S1700000 (constantI S_ 32 0#32)))
    (addi ix (broadcastInDim S1700000 ![] bcast_S_S1700000 (constantI S_ 32 100000#32))) ix

/-- The edge weights, self-loops of weight 1 included, added up at each edge's target. -/
def degT (ei : Ei) (ea : FVec F S1600000 .f32) : FVec F S100000 .f32 :=
  Host.scatterAdd scatter_S100000_S1700000x1_S1700000_n_0_0_1 zeros1 (idxCol (colT ei)) (ewT ea)

def dinvT (ei : Ei) (ea : FVec F S1600000 .f32) : FVec F S100000 .f32 :=
  select (cmpf .ogt (degT ei ea) zeros1) (Host.rsqrt (degT ei ea))
    (broadcastInDim S100000 ![] bcast_S_S100000 (constant S_ .f32 0x00000000#32))

def normT (ei : Ei) (ea : FVec F S1600000 .f32) : FVec F S1700000 .f32 :=
  mulf (mulf (Host.gather gather_S100000_S1700000x1_S1700000_n_0_n_n_0_1_1 (dinvT ei ea) (idxCol (fixT (rowT ei)))) (ewT ea))
    (Host.gather gather_S100000_S1700000x1_S1700000_n_0_n_n_0_1_1 (dinvT ei ea) (idxCol (fixT (colT ei))))

/-- Gather rows at the sources, scale by the edge's norm, add into the targets. -/
def gssT (feat : FVec F S100000x32 .f32) (ei : Ei) (nrm : FVec F S1700000 .f32) : FVec F S100000x32 .f32 :=
  Host.scatterAdd scatter_S100000x32_S1700000x1_S1700000x32_1_0_0_1 zeros2 (idxCol (colT ei))
    (mulf (broadcastInDim S1700000x32 ![0, 1] bcast_S1700000x1_S1700000x32_0_1
            (broadcastInDim S1700000x1 ![0] bcast_S1700000_S1700000x1_0 nrm))
      (Host.gather gather_S100000x32_S1700000x1_S1700000x32_1_0_n_n_0_1_132 feat (idxCol (fixT (rowT ei)))))

def biasRows (b : FVec F S32 .f32) : FVec F S100000x32 .f32 :=
  broadcastInDim S100000x32 ![0, 1] bcast_S1x32_S100000x32_0_1 (broadcastInDim S1x32 ![1] bcast_S32_S1x32_1 b)

def colRows (w : FVec F S100000x1 .f32) : FVec F S100000x32 .f32 :=
  broadcastInDim S100000x32 ![0, 1] bcast_S100000x1_S100000x32_0_1 w

section Reference

variable (x : FVec F S100000x128 .f32) (ei : Ei) (ea : FVec F S1600000 .f32) (W : FVec F S128x32 .f32) (b : FVec F S32 .f32)
  (attw : FVec F S32x1 .f32)

def embR : FVec F S100000x32 .f32 :=
  maximumf (addf (gssT (Host.dotGeneral dot_S100000x128_S128x32_S100000x32_1_0_0_1_n_n none x W) ei (normT ei ea)) (biasRows b)) zeros2

def leakyT (s : FVec F S100000x1 .f32) : FVec F S100000x1 .f32 :=
  select (cmpf .oge s (broadcastInDim S100000x1 ![] bcast_S_S100000x1 (constant S_ .f32 0x00000000#32)))
    s (mulf (broadcastInDim S100000x1 ![] bcast_S_S100000x1 (constant S_ .f32 0x3C23D70A#32)) s)

def coefR : FVec F S100000x1 .f32 :=
  Host.exp (leakyT (Host.dotGeneral dot_S100000x32_S32x1_S100000x1_1_0_0_1_n_n none (embR x ei ea W b) attw))

end Reference

/-- The 22 arguments. -/
structure Args (F : FTy → Type) where
  x1 : FVec F S100000x128 .f32
  x2 : FVec F S100000x128 .f32
  x3 : FVec F S100000x128 .f32
  ei1 : Ei
  ei2 : Ei
  ei3 : Ei
  ea1 : FVec F S1600000 .f32
  ea2 : FVec F S1600000 .f32
  ea3 : FVec F S1600000 .f32
  W1 : FVec F S128x32 .f32
  W2 : FVec F S128x32 .f32
  W3 : FVec F S128x32 .f32
  b1 : FVec F S32 .f32
  b2 : FVec F S32 .f32
  b3 : FVec F S32 .f32
  Wo1 : FVec F S32x32 .f32
  Wo2 : FVec F S32x32 .f32
  Wo3 : FVec F S32x32 .f32
  bo1 : FVec F S32 .f32
  bo2 : FVec F S32 .f32
  bo3 : FVec F S32 .f32
  attw : FVec F S32x1 .f32

namespace Args

variable (A : Args F)

def e1R : FVec F S100000x32 .f32 := embR A.x1 A.ei1 A.ea1 A.W1 A.b1
def e2R : FVec F S100000x32 .f32 := embR A.x2 A.ei2 A.ea2 A.W2 A.b2
def e3R : FVec F S100000x32 .f32 := embR A.x3 A.ei3 A.ea3 A.W3 A.b3
def c1R : FVec F S100000x1 .f32 := coefR A.x1 A.ei1 A.ea1 A.W1 A.b1 A.attw
def c2R : FVec F S100000x1 .f32 := coefR A.x2 A.ei2 A.ea2 A.W2 A.b2 A.attw
def c3R : FVec F S100000x1 .f32 := coefR A.x3 A.ei3 A.ea3 A.W3 A.b3 A.attw
def csumR : FVec F S100000x1 .f32 := addf (addf A.c1R A.c2R) A.c3R

def w1R : FVec F S100000x1 .f32 := Host.divf A.c1R A.csumR
def w2R : FVec F S100000x1 .f32 := Host.divf A.c2R A.csumR
def w3R : FVec F S100000x1 .f32 := Host.divf A.c3R A.csumR

def hR : FVec F S100000x32 .f32 :=
  addf (addf (addf zeros2 (mulf (colRows A.w1R) A.e1R)) (mulf (colRows A.w2R) A.e2R)) (mulf (colRows A.w3R) A.e3R)

def g2R (Wo : FVec F S32x32 .f32) (ei : Ei) (ea : FVec F S1600000 .f32) (bo : FVec F S32 .f32) : FVec F S100000x32 .f32 :=
  addf (gssT (Host.dotGeneral dot_S100000x32_S32x32_S100000x32_1_0_0_1_n_n none A.hR Wo) ei (normT ei ea)) (biasRows bo)

/-- The second layer projecting each branch before it propagates, the three branches summed. -/
def outR : FVec F S100000x32 .f32 :=
  addf (addf (addf zeros2 (A.g2R A.Wo1 A.ei1 A.ea1 A.bo1)) (A.g2R A.Wo2 A.ei2 A.ea2 A.bo2)) (A.g2R A.Wo3 A.ei3 A.ea3 A.bo3)

end Args

namespace Args

variable (A : Args Ideal)

def attV : Fin 32 → EReal := fun k => A.attw (ix2 k 0)

def acc1K : Arr2 nN 32 := gssT (F := Ideal) (mm (K := 128) (C := 32) A.x1 A.W1) A.ei1 (normT A.ei1 A.ea1)
def acc2K : Arr2 nN 32 := gssT (F := Ideal) (mm (K := 128) (C := 32) A.x2 A.W2) A.ei2 (normT A.ei2 A.ea2)
def acc3K : Arr2 nN 32 := gssT (F := Ideal) (mm (K := 128) (C := 32) A.x3 A.W3) A.ei3 (normT A.ei3 A.ea3)

def attIn : AttIn := ⟨A.acc1K, A.acc2K, A.acc3K, A.b1, A.b2, A.b3, A.attV⟩

def hKer : Arr2 nN 32 := A.attIn.hKArr
def S1K : Arr2 nN 32 := gssT (F := Ideal) A.hKer A.ei1 (normT A.ei1 A.ea1)
def S2K : Arr2 nN 32 := gssT (F := Ideal) A.hKer A.ei2 (normT A.ei2 A.ea2)
def S3K : Arr2 nN 32 := gssT (F := Ideal) A.hKer A.ei3 (normT A.ei3 A.ea3)

def boK : Arr1 32 := addf (F := Ideal) (addf (F := Ideal) A.bo1 A.bo2) A.bo3

/-- The second layer propagating the combined embedding first and projecting afterwards. -/
def outK : Arr2 nN 32 := proj A.S1K A.S2K A.S3K A.Wo1 A.Wo2 A.Wo3 A.boK

def w1K : FVec Ideal S100000x1 .f32 := fun i => A.attIn.w1K (i 0)
def w2K : FVec Ideal S100000x1 .f32 := fun i => A.attIn.w2K (i 0)
def w3K : FVec Ideal S100000x1 .f32 := fun i => A.attIn.w3K (i 0)

end Args

end Cert.SpecT

end
-- ==== Proof.KReadPass.lean ====
import proofs.«426271_j85796266705527_4_alg».proof.Proof.Gen.KernelIdeal.Frame
import Mathlib.Tactic.IntervalCases

noncomputable section

namespace Cert.KernelIdeal.KRead

open Cert.KernelIdeal Cert.KernelIdeal.Gen
open Idealize.ShloMosaic Idealize.ShloMosaic.TcCoe
open Idealize.SL Idealize.SL.Sem

variable {F : FTy → Type} [FloatOps F]

/-- The host operations of segment `k` of @main's sixteen; none where the segment is a kernel region. -/
def opsn : ℕ → List (HloOp τ sig (Elt F))
  | 0 => hostOps0 | 1 => hostOps0_1 | 2 => hostOps0_2 | 3 => hostOps0_3 | 4 => hostOps0_4 | 5 => hostOps0_5
  | 6 => hostOps0_6 | 8 => hostOps1 | 10 => hostOps2 | 12 => hostOps3 | 14 => hostOps4 | _ => []

/-- The buffers segment `k` writes: the results of its operations, or the region's output arrays. -/
def wrn : ℕ → List (Ref sig .tc)
  | 0 => [main_v0, main_v1, main_v2, main_v3, main_v4, main_v5, main_v6, main_cst, main_v7, main_v8, main_cst_0, main_v9,
          main_v10, main_v11, main_cst_1, main_v12, main_v13, main_v14, main_cst_2]
  | 1 => [main_call0_v0, main_call0_v1, main_v15]
  | 2 => [main_c, main_v16, main_v17, main_c_3, main_v18, main_v19, main_v20, main_v21, main_v22, main_v23, main_c_4, main_v24,
          main_v25, main_c_5, main_v26, main_v27, main_v28, main_v29, main_v30, main_v31, main_v32, main_v33, main_v34,
          main_v35, main_v36, main_v37, main_v38, main_cst_6, main_v39, main_v40, main_cst_7, main_v41, main_v42, main_v43,
          main_cst_8, main_v44, main_v45, main_v46, main_cst_9]
  | 3 => [main_call1_v0, main_call1_v1, main_v47]
  | 4 => [main_c_10, main_v48, main_v49, main_c_11, main_v50, main_v51, main_v52, main_v53, main_v54, main_v55, main_c_12,
          main_v56, main_v57, main_c_13, main_v58, main_v59, main_v60, main_v61, main_v62, main_v63, main_v64, main_v65,
          main_v66, main_v67, main_v68, main_v69, main_v70, main_cst_14, main_v71, main_v72, main_cst_15, main_v73, main_v74,
          main_v75, main_cst_16, main_v76, main_v77, main_v78, main_cst_17]
  | 5 => [main_call2_v0, main_call2_v1, main_v79]
  | 6 => [main_c_18, main_v80, main_v81, main_c_19, main_v82, main_v83, main_v84, main_v85, main_v86, main_v87, main_c_20,
          main_v88, main_v89, main_c_21, main_v90, main_v91, main_v92, main_v93, main_v94, main_v95]
  | 7 => [main_v96]
  | 8 => [main_v97, main_c_22, main_v98, main_v99, main_c_23, main_v100, main_v101, main_v102, main_v103, main_v104, main_v105,
          main_v106, main_cst_24, main_v107, main_v108, main_v109]
  | 9 => [main_v110]
  | 10 => [main_v111, main_c_25, main_v112, main_v113, main_c_26, main_v114, main_v115, main_v116, main_v117, main_v118,
           main_v119, main_v120, main_cst_27, main_v121, main_v122, main_v123]
  | 11 => [main_v124]
  | 12 => [main_v125, main_c_28, main_v126, main_v127, main_c_29, main_v128, main_v129, main_v130, main_v131, main_v132,
           main_v133, main_v134, main_cst_30, main_v135, main_v136, main_v137, main_v138]
  | 13 => [main_v139_0, main_v139_1]
  | 14 => [main_v140, main_v141, main_v142, main_v143, main_c_31, main_v144, main_v145, main_c_32, main_v146, main_v147,
           main_v148, main_v149, main_v150, main_v151, main_v152, main_cst_33, main_v153, main_v154, main_v155, main_v156,
           main_c_34, main_v157, main_v158, main_c_35, main_v159, main_v160, main_v161, main_v162, main_v163, main_v164,
           main_v165, main_cst_36, main_v166, main_v167, main_v168, main_v169, main_c_37, main_v170, main_v171, main_c_38,
           main_v172, main_v173, main_v174, main_v175, main_v176, main_v177, main_v178, main_cst_39, main_v179, main_v180,
           main_v181, main_v182, main_v183]
  | 15 => [main_v184]
  | _ => []

-- Every operation writes its one result buffer, and that buffer is on the segment's list.
theorem wr_sub (k : ℕ) (hk : k < 16) :
    (opsn (F := F) k).Forall fun op => op.writes ⊆ ((wrn k).map (Proc.devRef (τ := τ) .tc)).toFinset := by
  interval_cases k <;> first
    | exact trivial
    | (simp only [opsn, hostOps0, hostOps0_1, hostOps0_2, hostOps0_3, hostOps0_4, hostOps0_5, hostOps0_6, hostOps1, hostOps2,
        hostOps3, hostOps4, List.Forall, StableHlo.nullary_writes, StableHlo.unary_writes, StableHlo.binary_writes,
        StableHlo.ternary_writes, StableHlo.reshape_writes, Finset.singleton_subset_iff, List.mem_toFinset]
       repeat' apply And.intro
       all_goals exact List.mem_map_of_mem (by decide))

theorem host (k : ℕ) (X : Valuation τ sig (Elt F)) {r : Ref sig .tc} (h : r ∉ wrn k) (hk : k < 16 := by decide) :
    StableHlo.after (opsn k) X (Proc.devRef .tc r) = X (Proc.devRef .tc r) :=
  StableHlo.after_of_writes_sub _ X (wr_sub k hk) h

-- By cases on `r`: an array of the region that is not an output is an input (`hin`); otherwise `r` is no array of it (`hne`).
theorem keep_of {W : ℕ} (arr : Fin W → Ref sig .tc) (out : Fin W → Bool) (X Y : Valuation τ sig (Elt F))
    (hin : ∀ w, out w = false → Y (Proc.devRef .tc (arr w)) = X (Proc.devRef .tc (arr w)))
    (hne : ∀ b, (∀ w, arr w ≠ b) → Y (Proc.devRef .tc b) = X (Proc.devRef .tc b))
    (outs : List (Ref sig .tc)) (hout : ∀ w, out w = true → arr w ∈ outs) {r : Ref sig .tc} (h : r ∉ outs) :
    Y (Proc.devRef .tc r) = X (Proc.devRef .tc r) := by
  by_cases hr : ∃ w, arr w = r
  · obtain ⟨w, rfl⟩ := hr
    exact hin w (Bool.eq_false_iff.mpr fun hb => h (hout w hb))
  · exact hne r fun w e => hr ⟨w, e⟩

end Cert.KernelIdeal.KRead

end
-- ==== Proof.KReadCarry.lean ====
import proofs.«426271_j85796266705527_4_alg».proof.Proof.KReadPass

noncomputable section

namespace Cert.KernelIdeal.KRead

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- What every buffer holds once the first `k` of the sixteen segments have run: `Wn 0` is the launch memory, `Wn 16` the final one. -/
def Wn : ℕ → Dev nD → Valuation τ sig (Elt F)
  | 0 => W0 m ρ | 1 => W1 m ρ | 2 => W2 m ρ | 3 => W3 m ρ | 4 => W4 m ρ | 5 => W5 m ρ | 6 => W6 m ρ | 7 => W7 m ρ
  | 8 => W8 m ρ | 9 => W9 m ρ | 10 => W10 m ρ | 11 => W11 m ρ | 12 => W12 m ρ | 13 => W13 m ρ | 14 => W14 m ρ
  | 15 => W15 m ρ | _ => W16 m ρ

-- One segment carries every buffer it does not write.
theorem step (c : Dev nD) (r : Ref sig .tc) : ∀ k, k < 16 → r ∉ wrn k →
    Wn m ρ (k + 1) c (Proc.devRef .tc r) = Wn m ρ k c (Proc.devRef .tc r)
  | 0, _, h => host 0 _ h
  | 1, _, h => host 1 _ h
  | 2, _, h => host 2 _ h
  | 3, _, h => host 3 _ h
  | 4, _, h => host 4 _ h
  | 5, _, h => host 5 _ h
  | 6, _, h => host 6 _ h
  | 7, _, h => keep_of (Pipeline.arrRef spec0) (fun w => (cfg0.win w).isOut) _ _
      (fun w hw => (W8_arr m ρ c w).trans (((dat0 (V7 m ρ) c).arrAt_in w hw _).trans (A_eq0 (V7 m ρ) c w)))
      (W8_of_ne m ρ c) _ (by decide) h
  | 8, _, h => host 8 _ h
  | 9, _, h => keep_of (Pipeline.arrRef spec1) (fun w => (cfg1.win w).isOut) _ _
      (fun w hw => (W10_arr m ρ c w).trans (((dat1 (V9 m ρ) c).arrAt_in w hw _).trans (A_eq1 (V9 m ρ) c w)))
      (W10_of_ne m ρ c) _ (by decide) h
  | 10, _, h => host 10 _ h
  | 11, _, h => keep_of (Pipeline.arrRef spec2) (fun w => (cfg2.win w).isOut) _ _
      (fun w hw => (W12_arr m ρ c w).trans (((dat2 (V11 m ρ) c).arrAt_in w hw _).trans (A_eq2 (V11 m ρ) c w)))
      (W12_of_ne m ρ c) _ (by decide) h
  | 12, _, h => host 12 _ h
  | 13, _, h => keep_of (Pipeline.arrRef spec3) (fun w => (cfg3.win w).isOut) _ _
      (fun w hw => (W14_arr m ρ c w).trans (((dat3 (V13 m ρ) c).arrAt_in w hw _).trans (A_eq3 (V13 m ρ) c w)))
      (W14_of_ne m ρ c) _ (by decide) h
  | 14, _, h => host 14 _ h
  | 15, _, h => keep_of (Pipeline.arrRef spec4) (fun w => (cfg4.win w).isOut) _ _
      (fun w hw => (W16_arr m ρ c w).trans (((dat4 (V15 m ρ) c).arrAt_in w hw _).trans (A_eq4 (V15 m ρ) c w)))
      (W16_of_ne m ρ c) _ (by decide) h
  | k + 16, hk, _ => absurd hk (by omega)

-- A buffer no segment from `j` on writes holds at every later boundary what it held at boundary `j`, by induction on `k`.
theorem pass (c : Dev nD) (r : Ref sig .tc) (j k : ℕ) (hjk : j ≤ k := by decide) (hk : k ≤ 16 := by decide)
    (h : ∀ i : Fin 16, j ≤ i.val → r ∉ wrn i.val := by decide) :
    Wn m ρ k c (Proc.devRef .tc r) = Wn m ρ j c (Proc.devRef .tc r) := by
  induction k, hjk using Nat.le_induction with
  | base => rfl
  | succ n hn ih => exact (step m ρ c r n (by omega) (h ⟨n, by omega⟩ hn)).trans (ih (by omega))

end Cert.KernelIdeal.KRead

end
-- ==== Proof.KReadOps.lean ====
import proofs.«426271_j85796266705527_4_alg».proof.Proof.Gen.KernelIdeal.Frame
import proofs.«426271_j85796266705527_4_alg».proof.Proof.Gen.ReferenceIdeal
import proofs.«426271_j85796266705527_4_alg».proof.Proof.SpecT

set_option maxRecDepth 16384

noncomputable section

namespace Cert.SpecK

open Idealize.ShloMosaic Cert.ReferenceIdeal Cert.ReferenceIdeal.Facts₀ Cert.SpecT

/-- Selection by the mask `pos` between the vector `rs` and the scalar `z` repeated for every node. -/
def dinvOf (pos : IVec S100000 1) (rs : FVec Ideal S100000 .f32) (z : FVec Ideal S_ .f32) : FVec Ideal S100000 .f32 :=
  select pos rs (broadcastInDim S100000 ![] bcast_S_S100000 z)

end Cert.SpecK

namespace Cert.KernelIdeal.KRead

open Cert.KernelIdeal Cert.KernelIdeal.Gen
open Idealize.ShloMosaic Idealize.ShloMosaic.TcCoe
open Idealize.SL Idealize.SL.Sem

/-- A vector over the 1,600,000 edges followed by a vector over the 100,000 nodes, as one vector of 1,700,000 entries. -/
def cat2 {α : Type} (a : S1600000.Idx → α) (b : S100000.Idx → α) : S1700000.Idx → α :=
  concatenate S1700000 0 [⟨S1600000, a⟩, ⟨S100000, b⟩] Facts₀.concatenates_S1600000_S100000_S1700000_d0

theorem cat2_eq {α : Type} (a : S1600000.Idx → α) (b : S100000.Idx → α) :
    concatenate S1700000 0 [⟨S1600000, a⟩, ⟨S100000, b⟩] Facts₀.concatenates_S1600000_S100000_S1700000_d0 = cat2 a b := rfl

/-- Evaluates `StableHlo.after ops W` at one buffer with the library's result equations, deciding which buffer is which. -/
macro "after_pass" : tactic =>
  `(tactic| (simp (disch := decide) only [StableHlo.after_cons, StableHlo.after_nil,
      StableHlo.nullary_result', StableHlo.unary_result', StableHlo.binary_result', StableHlo.ternary_result', StableHlo.reshape_result',
      StableHlo.nullary_result_ne', StableHlo.unary_result_ne', StableHlo.binary_result_ne', StableHlo.ternary_result_ne', StableHlo.reshape_result_ne',
      cat2_eq]))

variable (W : Valuation τ sig (Elt Ideal))

-- Each branch's edge plumbing, read one buffer at a time from the contents its stretch finds.
theorem row1_of (ei : Cert.SpecT.Ei) (hi : (W (Proc.devRef .tc main_arg3)) = ei) : StableHlo.after (hostOps0 (F := Ideal)) W (Proc.devRef .tc main_v5) = Cert.SpecT.rowT ei := by
  subst hi; simp only [hostOps0]; after_pass; rfl
theorem col1_of (ei : Cert.SpecT.Ei) (hi : (W (Proc.devRef .tc main_arg3)) = ei) : StableHlo.after (hostOps0 (F := Ideal)) W (Proc.devRef .tc main_v6) = Cert.SpecT.colT ei := by
  subst hi; simp only [hostOps0]; after_pass; rfl
theorem ew1_of (ea : FVec Ideal Cert.ReferenceIdeal.S1600000 .f32) (ha : (W (Proc.devRef .tc main_arg6)) = ea) : StableHlo.after (hostOps0 (F := Ideal)) W (Proc.devRef .tc main_v8) = Cert.SpecT.ewT (F := Ideal) ea := by
  subst ha; simp only [hostOps0]; after_pass; rfl
theorem pos1_of (ei : Cert.SpecT.Ei) (ea : FVec Ideal Cert.ReferenceIdeal.S1600000 .f32) (hi : (W (Proc.devRef .tc main_arg3)) = ei) (ha : (W (Proc.devRef .tc main_arg6)) = ea) :
    StableHlo.after (hostOps0 (F := Ideal)) W (Proc.devRef .tc main_v13) = cmpf .ogt (Cert.SpecT.degT (F := Ideal) ei ea) (Cert.SpecT.zeros1 (F := Ideal)) := by
  subst hi ha; simp only [hostOps0]; after_pass; rfl
theorem rs1_of (ei : Cert.SpecT.Ei) (ea : FVec Ideal Cert.ReferenceIdeal.S1600000 .f32) (hi : (W (Proc.devRef .tc main_arg3)) = ei) (ha : (W (Proc.devRef .tc main_arg6)) = ea) : StableHlo.after (hostOps0 (F := Ideal)) W (Proc.devRef .tc main_v14) = Host.rsqrt (Cert.SpecT.degT (F := Ideal) ei ea) := by
  subst hi ha; simp only [hostOps0]; after_pass; rfl
theorem z1_of : StableHlo.after (hostOps0 (F := Ideal)) W (Proc.devRef .tc main_cst_2) = constant (F := Ideal) Cert.ReferenceIdeal.S_ .f32 0x00000000#32 := by
  simp only [hostOps0]; after_pass
theorem dinv1_of (ei : Cert.SpecT.Ei) (ea : FVec Ideal Cert.ReferenceIdeal.S1600000 .f32) (hp : (W (Proc.devRef .tc main_v13)) = cmpf .ogt (Cert.SpecT.degT (F := Ideal) ei ea) (Cert.SpecT.zeros1 (F := Ideal)))
    (hs : (W (Proc.devRef .tc main_v14)) = Host.rsqrt (Cert.SpecT.degT (F := Ideal) ei ea)) (hz : (W (Proc.devRef .tc main_cst_2)) = constant (F := Ideal) Cert.ReferenceIdeal.S_ .f32 0x00000000#32) :
    StableHlo.after (hostOps0_1 (F := Ideal)) W (Proc.devRef .tc main_v15) = Cert.SpecT.dinvT (F := Ideal) ei ea := by
  refine (show _ = Cert.SpecK.dinvOf (W (Proc.devRef .tc main_v13)) (W (Proc.devRef .tc main_v14)) (W (Proc.devRef .tc main_cst_2)) from by
    simp only [hostOps0_1]; after_pass; rfl).trans ?_
  rw [hp, hs, hz]; rfl
theorem norm1_of (ei : Cert.SpecT.Ei) (ea : FVec Ideal Cert.ReferenceIdeal.S1600000 .f32) (hd : (W (Proc.devRef .tc main_v15)) = Cert.SpecT.dinvT (F := Ideal) ei ea)
    (hr : (W (Proc.devRef .tc main_v5)) = Cert.SpecT.rowT ei) (hc : (W (Proc.devRef .tc main_v6)) = Cert.SpecT.colT ei) (hw : (W (Proc.devRef .tc main_v8)) = Cert.SpecT.ewT (F := Ideal) ea) :
    StableHlo.after (hostOps0_2 (F := Ideal)) W (Proc.devRef .tc main_v31) = Cert.SpecT.normT (F := Ideal) ei ea := by
  simp only [hostOps0_2]; after_pass; rw [hd, hr, hc, hw]; rfl
theorem row2_of (ei : Cert.SpecT.Ei) (hi : (W (Proc.devRef .tc main_arg4)) = ei) : StableHlo.after (hostOps0_2 (F := Ideal)) W (Proc.devRef .tc main_v37) = Cert.SpecT.rowT ei := by
  subst hi; simp only [hostOps0_2]; after_pass; rfl
theorem col2_of (ei : Cert.SpecT.Ei) (hi : (W (Proc.devRef .tc main_arg4)) = ei) : StableHlo.after (hostOps0_2 (F := Ideal)) W (Proc.devRef .tc main_v38) = Cert.SpecT.colT ei := by
  subst hi; simp only [hostOps0_2]; after_pass; rfl
theorem ew2_of (ea : FVec Ideal Cert.ReferenceIdeal.S1600000 .f32) (ha : (W (Proc.devRef .tc main_arg7)) = ea) : StableHlo.after (hostOps0_2 (F := Ideal)) W (Proc.devRef .tc main_v40) = Cert.SpecT.ewT (F := Ideal) ea := by
  subst ha; simp only [hostOps0_2]; after_pass; rfl
theorem pos2_of (ei : Cert.SpecT.Ei) (ea : FVec Ideal Cert.ReferenceIdeal.S1600000 .f32) (hi : (W (Proc.devRef .tc main_arg4)) = ei) (ha : (W (Proc.devRef .tc main_arg7)) = ea) :
    StableHlo.after (hostOps0_2 (F := Ideal)) W (Proc.devRef .tc main_v45) = cmpf .ogt (Cert.SpecT.degT (F := Ideal) ei ea) (Cert.SpecT.zeros1 (F := Ideal)) := by
  subst hi ha; simp only [hostOps0_2]; after_pass; rfl
theorem rs2_of (ei : Cert.SpecT.Ei) (ea : FVec Ideal Cert.ReferenceIdeal.S1600000 .f32) (hi : (W (Proc.devRef .tc main_arg4)) = ei) (ha : (W (Proc.devRef .tc main_arg7)) = ea) : StableHlo.after (hostOps0_2 (F := Ideal)) W (Proc.devRef .tc main_v46) = Host.rsqrt (Cert.SpecT.degT (F := Ideal) ei ea) := by
  subst hi ha; simp only [hostOps0_2]; after_pass; rfl
theorem z2_of : StableHlo.after (hostOps0_2 (F := Ideal)) W (Proc.devRef .tc main_cst_9) = constant (F := Ideal) Cert.ReferenceIdeal.S_ .f32 0x00000000#32 := by
  simp only [hostOps0_2]; after_pass
theorem dinv2_of (ei : Cert.SpecT.Ei) (ea : FVec Ideal Cert.ReferenceIdeal.S1600000 .f32) (hp : (W (Proc.devRef .tc main_v45)) = cmpf .ogt (Cert.SpecT.degT (F := Ideal) ei ea) (Cert.SpecT.zeros1 (F := Ideal)))
    (hs : (W (Proc.devRef .tc main_v46)) = Host.rsqrt (Cert.SpecT.degT (F := Ideal) ei ea)) (hz : (W (Proc.devRef .tc main_cst_9)) = constant (F := Ideal) Cert.ReferenceIdeal.S_ .f32 0x00000000#32) :
    StableHlo.after (hostOps0_3 (F := Ideal)) W (Proc.devRef .tc main_v47) = Cert.SpecT.dinvT (F := Ideal) ei ea := by
  refine (show _ = Cert.SpecK.dinvOf (W (Proc.devRef .tc main_v45)) (W (Proc.devRef .tc main_v46)) (W (Proc.devRef .tc main_cst_9)) from by
    simp only [hostOps0_3]; after_pass; rfl).trans ?_
  rw [hp, hs, hz]; rfl
theorem norm2_of (ei : Cert.SpecT.Ei) (ea : FVec Ideal Cert.ReferenceIdeal.S1600000 .f32) (hd : (W (Proc.devRef .tc main_v47)) = Cert.SpecT.dinvT (F := Ideal) ei ea)
    (hr : (W (Proc.devRef .tc main_v37)) = Cert.SpecT.rowT ei) (hc : (W (Proc.devRef .tc main_v38)) = Cert.SpecT.colT ei) (hw : (W (Proc.devRef .tc main_v40)) = Cert.SpecT.ewT (F := Ideal) ea) :
    StableHlo.after (hostOps0_4 (F := Ideal)) W (Proc.devRef .tc main_v63) = Cert.SpecT.normT (F := Ideal) ei ea := by
  simp only [hostOps0_4]; after_pass; rw [hd, hr, hc, hw]; rfl
theorem row3_of (ei : Cert.SpecT.Ei) (hi : (W (Proc.devRef .tc main_arg5)) = ei) : StableHlo.after (hostOps0_4 (F := Ideal)) W (Proc.devRef .tc main_v69) = Cert.SpecT.rowT ei := by
  subst hi; simp only [hostOps0_4]; after_pass; rfl
theorem col3_of (ei : Cert.SpecT.Ei) (hi : (W (Proc.devRef .tc main_arg5)) = ei) : StableHlo.after (hostOps0_4 (F := Ideal)) W (Proc.devRef .tc main_v70) = Cert.SpecT.colT ei := by
  subst hi; simp only [hostOps0_4]; after_pass; rfl
theorem ew3_of (ea : FVec Ideal Cert.ReferenceIdeal.S1600000 .f32) (ha : (W (Proc.devRef .tc main_arg8)) = ea) : StableHlo.after (hostOps0_4 (F := Ideal)) W (Proc.devRef .tc main_v72) = Cert.SpecT.ewT (F := Ideal) ea := by
  subst ha; simp only [hostOps0_4]; after_pass; rfl
theorem pos3_of (ei : Cert.SpecT.Ei) (ea : FVec Ideal Cert.ReferenceIdeal.S1600000 .f32) (hi : (W (Proc.devRef .tc main_arg5)) = ei) (ha : (W (Proc.devRef .tc main_arg8)) = ea) :
    StableHlo.after (hostOps0_4 (F := Ideal)) W (Proc.devRef .tc main_v77) = cmpf .ogt (Cert.SpecT.degT (F := Ideal) ei ea) (Cert.SpecT.zeros1 (F := Ideal)) := by
  subst hi ha; simp only [hostOps0_4]; after_pass; rfl
theorem rs3_of (ei : Cert.SpecT.Ei) (ea : FVec Ideal Cert.ReferenceIdeal.S1600000 .f32) (hi : (W (Proc.devRef .tc main_arg5)) = ei) (ha : (W (Proc.devRef .tc main_arg8)) = ea) : StableHlo.after (hostOps0_4 (F := Ideal)) W (Proc.devRef .tc main_v78) = Host.rsqrt (Cert.SpecT.degT (F := Ideal) ei ea) := by
  subst hi ha; simp only [hostOps0_4]; after_pass; rfl
theorem z3_of : StableHlo.after (hostOps0_4 (F := Ideal)) W (Proc.devRef .tc main_cst_17) = constant (F := Ideal) Cert.ReferenceIdeal.S_ .f32 0x00000000#32 := by
  simp only [hostOps0_4]; after_pass
theorem dinv3_of (ei : Cert.SpecT.Ei) (ea : FVec Ideal Cert.ReferenceIdeal.S1600000 .f32) (hp : (W (Proc.devRef .tc main_v77)) = cmpf .ogt (Cert.SpecT.degT (F := Ideal) ei ea) (Cert.SpecT.zeros1 (F := Ideal)))
    (hs : (W (Proc.devRef .tc main_v78)) = Host.rsqrt (Cert.SpecT.degT (F := Ideal) ei ea)) (hz : (W (Proc.devRef .tc main_cst_17)) = constant (F := Ideal) Cert.ReferenceIdeal.S_ .f32 0x00000000#32) :
    StableHlo.after (hostOps0_5 (F := Ideal)) W (Proc.devRef .tc main_v79) = Cert.SpecT.dinvT (F := Ideal) ei ea := by
  refine (show _ = Cert.SpecK.dinvOf (W (Proc.devRef .tc main_v77)) (W (Proc.devRef .tc main_v78)) (W (Proc.devRef .tc main_cst_17)) from by
    simp only [hostOps0_5]; after_pass; rfl).trans ?_
  rw [hp, hs, hz]; rfl
theorem norm3_of (ei : Cert.SpecT.Ei) (ea : FVec Ideal Cert.ReferenceIdeal.S1600000 .f32) (hd : (W (Proc.devRef .tc main_v79)) = Cert.SpecT.dinvT (F := Ideal) ei ea)
    (hr : (W (Proc.devRef .tc main_v69)) = Cert.SpecT.rowT ei) (hc : (W (Proc.devRef .tc main_v70)) = Cert.SpecT.colT ei) (hw : (W (Proc.devRef .tc main_v72)) = Cert.SpecT.ewT (F := Ideal) ea) :
    StableHlo.after (hostOps0_6 (F := Ideal)) W (Proc.devRef .tc main_v95) = Cert.SpecT.normT (F := Ideal) ei ea := by
  simp only [hostOps0_6]; after_pass; rw [hd, hr, hc, hw]; rfl
-- Gather the source rows, scale by the edge norms, add into the target rows: once per branch and layer.
theorem gss1_of (ei : Cert.SpecT.Ei) (hr : (W (Proc.devRef .tc main_v5)) = Cert.SpecT.rowT ei) (hc : (W (Proc.devRef .tc main_v6)) = Cert.SpecT.colT ei) :
    StableHlo.after (hostOps1 (F := Ideal)) W (Proc.devRef .tc main_v109) = Cert.SpecT.gssT (F := Ideal) (W (Proc.devRef .tc main_v96)) ei (W (Proc.devRef .tc main_v31)) := by
  simp only [hostOps1]; after_pass; rw [hr, hc]; rfl
theorem gss2_of (ei : Cert.SpecT.Ei) (hr : (W (Proc.devRef .tc main_v37)) = Cert.SpecT.rowT ei) (hc : (W (Proc.devRef .tc main_v38)) = Cert.SpecT.colT ei) :
    StableHlo.after (hostOps2 (F := Ideal)) W (Proc.devRef .tc main_v123) = Cert.SpecT.gssT (F := Ideal) (W (Proc.devRef .tc main_v110)) ei (W (Proc.devRef .tc main_v63)) := by
  simp only [hostOps2]; after_pass; rw [hr, hc]; rfl
theorem gss3_of (ei : Cert.SpecT.Ei) (hr : (W (Proc.devRef .tc main_v69)) = Cert.SpecT.rowT ei) (hc : (W (Proc.devRef .tc main_v70)) = Cert.SpecT.colT ei) :
    StableHlo.after (hostOps3 (F := Ideal)) W (Proc.devRef .tc main_v137) = Cert.SpecT.gssT (F := Ideal) (W (Proc.devRef .tc main_v124)) ei (W (Proc.devRef .tc main_v95)) := by
  simp only [hostOps3]; after_pass; rw [hr, hc]; rfl
theorem gssS1_of (ei : Cert.SpecT.Ei) (hr : (W (Proc.devRef .tc main_v5)) = Cert.SpecT.rowT ei) (hc : (W (Proc.devRef .tc main_v6)) = Cert.SpecT.colT ei) :
    StableHlo.after (hostOps4 (F := Ideal)) W (Proc.devRef .tc main_v155) = Cert.SpecT.gssT (F := Ideal) (W (Proc.devRef .tc main_v139_0)) ei (W (Proc.devRef .tc main_v31)) := by
  simp only [hostOps4]; after_pass; rw [hr, hc]; rfl
theorem gssS2_of (ei : Cert.SpecT.Ei) (hr : (W (Proc.devRef .tc main_v37)) = Cert.SpecT.rowT ei) (hc : (W (Proc.devRef .tc main_v38)) = Cert.SpecT.colT ei) :
    StableHlo.after (hostOps4 (F := Ideal)) W (Proc.devRef .tc main_v168) = Cert.SpecT.gssT (F := Ideal) (W (Proc.devRef .tc main_v139_0)) ei (W (Proc.devRef .tc main_v63)) := by
  simp only [hostOps4]; after_pass; rw [hr, hc]; rfl
theorem gssS3_of (ei : Cert.SpecT.Ei) (hr : (W (Proc.devRef .tc main_v69)) = Cert.SpecT.rowT ei) (hc : (W (Proc.devRef .tc main_v70)) = Cert.SpecT.colT ei) :
    StableHlo.after (hostOps4 (F := Ideal)) W (Proc.devRef .tc main_v181) = Cert.SpecT.gssT (F := Ideal) (W (Proc.devRef .tc main_v139_0)) ei (W (Proc.devRef .tc main_v95)) := by
  simp only [hostOps4]; after_pass; rw [hr, hc]; rfl
theorem row138_of : StableHlo.after (hostOps3 (F := Ideal)) W (Proc.devRef .tc main_v138)
    = shapeCast Cert.ReferenceIdeal.S1x32 (W (Proc.devRef .tc main_arg21)) Cert.KernelIdeal.Facts₀.shapeCasts_S32x1_S1x32 := by
  simp only [hostOps3]; after_pass; rfl
theorem wcol0_of : StableHlo.after (hostOps4 (F := Ideal)) W (Proc.devRef .tc main_v140)
    = extractStridedSlice Cert.ReferenceIdeal.S100000x1 ![0, 0] (W (Proc.devRef .tc main_v139_1)) Cert.KernelIdeal.Facts₀.slices_S100000x3_S100000x1_0_0 := by
  simp only [hostOps4]; after_pass
theorem wcol1_of : StableHlo.after (hostOps4 (F := Ideal)) W (Proc.devRef .tc main_v141)
    = extractStridedSlice Cert.ReferenceIdeal.S100000x1 ![0, 1] (W (Proc.devRef .tc main_v139_1)) Cert.KernelIdeal.Facts₀.slices_S100000x3_S100000x1_0_1 := by
  simp only [hostOps4]; after_pass
theorem wcol2_of : StableHlo.after (hostOps4 (F := Ideal)) W (Proc.devRef .tc main_v142)
    = extractStridedSlice Cert.ReferenceIdeal.S100000x1 ![0, 2] (W (Proc.devRef .tc main_v139_1)) Cert.KernelIdeal.Facts₀.slices_S100000x3_S100000x1_0_2 := by
  simp only [hostOps4]; after_pass
theorem bo_of : StableHlo.after (hostOps4 (F := Ideal)) W (Proc.devRef .tc main_v183)
    = addf (F := Ideal) (φ := .f32) (addf (F := Ideal) (φ := .f32) (W (Proc.devRef .tc main_arg18)) (W (Proc.devRef .tc main_arg19))) (W (Proc.devRef .tc main_arg20)) := by
  simp only [hostOps4]; after_pass

end Cert.KernelIdeal.KRead

end
-- ==== Proof.KReg0.lean ====
import proofs.«426271_j85796266705527_4_alg».proof.Proof.Gen.KernelIdeal.Frame
import proofs.«426271_j85796266705527_4_alg».proof.Proof.Spec
import Idealize.ShloMosaic.Lib.StackMember

namespace Cert.KernelIdeal.KReg0

open Idealize.ShloMosaic Idealize.ShloMosaic.TcCoe Idealize.ShloMosaic.ValueIdx
open Cert.KernelIdeal Cert.KernelIdeal.Gen Cert.Spec

/-- Row block `b` of the left operand and of the result, block 0 on every other axis. -/
abbrev RowTiled (i0 i1 i2 : Fin 2 → Nat) (b : Nat) : Prop :=
  i0 0 = b ∧ i0 1 = 0 ∧ i1 0 = 0 ∧ i1 1 = 0 ∧ i2 0 = b ∧ i2 1 = 0

/-- From a zero accumulator, entry `(p, q)` of the product is the sum over the contracted axis. -/
theorem pay_apply (x0 : FVec Ideal S10000x128 .f32) (x1 : FVec Ideal S128x32 .f32) (p : Fin 10000) (q : Fin 32) :
    matmul dot_S10000x128_S128x32_S10000x32_1_0_0_1_n_n none x0 x1 (constant S10000x32 .f32 0x00000000#32) (ix2 p q)
      = ∑ k : Fin 128, x0 (ix2 p k) * x1 (ix2 k q) :=
  (congrFun (matmul_zero_eq_dotGeneral _ none x0 x1) _).trans (StackMember.dotGeneral_plain_apply none x0 x1 p q)

theorem zero_offsets : (![0, 0] : Fin 2 → Nat) = fun _ => 0 := funext fun a => by fin_cases a <;> rfl

/-- One piece over the whole block is the block's contents, and a whole rectangle reads the whole operand. -/
theorem canon_pay (pay : Vec Ideal S10000x128 .f32 → Vec Ideal S128x32 .f32 → FVec Ideal S10000x32 .f32)
    (x0 : Vec Ideal S10000x128 .f32) (x1 : Vec Ideal S128x32 .f32) :
    (View.canon [⟨r0_2, pay (View.ld x0 r0_0) (View.ld x1 r0_1)⟩] : Vec Ideal S10000x32 .f32) = pay x0 x1 := by
  rw [View.canon_unit_zero zero_offsets, View.ld_unit_zero zero_offsets, View.ld_unit_zero zero_offsets]

/-- Row block `b` of `X` times `W` is row block `b` of `X · W`: both sit at rows `10000 b + p`, and `W` is read whole. -/
theorem mm_block (X : Arr2 nN 128) (W : Arr2 128 32)
    {e0 : S10000x128.Idx → S100000x128.Idx} {e1 : S128x32.Idx → S128x32.Idx} {e2 : S10000x32.Idx → S100000x32.Idx}
    {i0 i1 i2 : Fin 2 → Nat} {b : Nat} (hi : RowTiled i0 i1 i2 b)
    (h0 : ∀ y a, (e0 y a : Nat) = i0 a * S10000x128.size a + y a)
    (h1 : ∀ y a, (e1 y a : Nat) = i1 a * S128x32.size a + y a)
    (h2 : ∀ y a, (e2 y a : Nat) = i2 a * S10000x32.size a + y a) :
    matmul (F := Ideal) (φ₁ := .f32) (φ₂ := .f32) dot_S10000x128_S128x32_S10000x32_1_0_0_1_n_n none
        (fun y => X (e0 y)) (fun y => W (e1 y)) (constant S10000x32 .f32 0x00000000#32)
      = fun y => mm X W (e2 y) := by
  obtain ⟨a00, a01, a10, a11, a20, a21⟩ := hi
  funext j
  obtain ⟨p, q, rfl⟩ : ∃ (p : Fin 10000) (q : Fin 32), j = ix2 p q := ⟨j 0, j 1, eq_ix2 j⟩
  rw [pay_apply]
  unfold mm mmAt
  refine Finset.sum_congr rfl fun k _ => ?_
  have f00 : (e0 (ix2 p k) 0 : Nat) = i0 0 * 10000 + p := h0 _ 0
  have f01 : (e0 (ix2 p k) 1 : Nat) = i0 1 * 128 + k := h0 _ 1
  have f10 : (e1 (ix2 k q) 0 : Nat) = i1 0 * 128 + k := h1 _ 0
  have f11 : (e1 (ix2 k q) 1 : Nat) = i1 1 * 32 + q := h1 _ 1
  have f20 : (e2 (ix2 p q) 0 : Nat) = i2 0 * 10000 + p := h2 _ 0
  have f21 : (e2 (ix2 p q) 1 : Nat) = i2 1 * 32 + q := h2 _ 1
  rw [eq_ix2 (e0 _), eq_ix2 (e1 _), show e0 (ix2 p k) 0 = e2 (ix2 p q) 0 from Fin.ext (by omega),
    show e0 (ix2 p k) 1 = k from Fin.ext (by omega), show e1 (ix2 k q) 0 = k from Fin.ext (by omega),
    show e1 (ix2 k q) 1 = e2 (ix2 p q) 1 from Fin.ext (by omega)]
  rfl

/-- Row `r` lies in row block `r / 10000`: ten blocks of 10000 rows tile 100000 rows. -/
theorem cover_rows {n : Nat} (hn : n = 10) {i0 i1 i2 : Fin n → Fin 2 → Nat}
    (h : ∀ t, RowTiled (i0 t) (i1 t) (i2 t) t.val) (i : S100000x32.Idx) :
    ∃ t : Fin n, ∀ a, i2 t a * S10000x32.size a ≤ i a ∧ (i a : Nat) < i2 t a * S10000x32.size a + S10000x32.size a := by
  have hi0 : (i 0).val < 100000 := (i 0).isLt
  have hi1 : (i 1).val < 32 := (i 1).isLt
  let t : Fin n := ⟨(i 0).val / 10000, by omega⟩
  obtain ⟨-, -, -, -, e0, e1⟩ := h t
  have ht : t.val = (i 0).val / 10000 := rfl
  refine ⟨t, fun a => ?_⟩
  match a with
  | ⟨0, _⟩ => show i2 t 0 * 10000 ≤ (i 0).val ∧ (i 0).val < i2 t 0 * 10000 + 10000; omega
  | ⟨1, _⟩ => show i2 t 1 * 32 ≤ (i 1).val ∧ (i 1).val < i2 t 1 * 32 + 32; omega

/-- Point `t` works on row block `t`. -/
theorem block_indices : ∀ t : Fin cfg0.N, RowTiled (win0_0.index t) (win0_1.index t) (win0_2.index t) t.val :=
  (by decide +kernel : ∀ t : Fin grid0.N, _)

/-- Each point writes its row block of the product, and the ten blocks tile the result. -/
theorem final (V : (c : Dev nD) → (b : Ref sig .tc) → Buf (Elt Ideal) ((c : Thread nD τ).loc b)) (c : Dev nD) :
    (dat0 (F := Ideal) V c).arrAt 2 cfg0.N
      = Cert.Spec.mm (K := 128) (C := 32) (V c (Pipeline.arrRef spec0 0)) (V c (Pipeline.arrRef spec0 1)) := by
  refine (dat0 (F := Ideal) V c).arrAt_eq_of_cover 2 _ (fun t _ => ?_) fun i => ?_
  · rw [Pipeline.Dat.flushed, after0_2]
    exact (canon_pay k0_pay1 _ _).trans (mm_block _ _ (block_indices t)
      (win0_0.rect_emb_val t) (win0_1.rect_emb_val t) (win0_2.rect_emb_val t))
  · obtain ⟨t, ht⟩ := cover_rows N_0 block_indices i
    refine ⟨t, flush0_2 t, ?_⟩
    show i ∈ ((View.whole (Pipeline.arrRef spec0 2)).slice (win0_2.rect t)).set
    rw [View.set_slice_whole]; exact Rect.mem_set_unit.mpr ht

end Cert.KernelIdeal.KReg0
-- ==== Proof.KReg1.lean ====
import proofs.«426271_j85796266705527_4_alg».proof.Proof.KReg0

namespace Cert.KernelIdeal.KReg1

open Idealize.ShloMosaic Idealize.ShloMosaic.TcCoe Cert.KernelIdeal Cert.KernelIdeal.Gen

/-- Point `t` works on row block `t`. -/
theorem block_indices : ∀ t : Fin cfg1.N, KReg0.RowTiled (win1_0.index t) (win1_1.index t) (win1_2.index t) t.val :=
  (by decide +kernel : ∀ t : Fin grid1.N, _)

/-- Each point writes its row block of the product, and the ten blocks tile the result. -/
theorem final (V : (c : Dev nD) → (b : Ref sig .tc) → Buf (Elt Ideal) ((c : Thread nD τ).loc b)) (c : Dev nD) :
    (dat1 (F := Ideal) V c).arrAt 2 cfg1.N
      = Cert.Spec.mm (K := 128) (C := 32) (V c (Pipeline.arrRef spec1 0)) (V c (Pipeline.arrRef spec1 1)) := by
  refine (dat1 (F := Ideal) V c).arrAt_eq_of_cover 2 _ (fun t _ => ?_) fun i => ?_
  · rw [Pipeline.Dat.flushed, after1_2]
    exact (KReg0.canon_pay k1_pay1 _ _).trans (KReg0.mm_block _ _ (block_indices t)
      (win1_0.rect_emb_val t) (win1_1.rect_emb_val t) (win1_2.rect_emb_val t))
  · obtain ⟨t, ht⟩ := KReg0.cover_rows N_1 block_indices i
    refine ⟨t, flush1_2 t, ?_⟩
    show i ∈ ((View.whole (Pipeline.arrRef spec1 2)).slice (win1_2.rect t)).set
    rw [View.set_slice_whole]; exact Rect.mem_set_unit.mpr ht

end Cert.KernelIdeal.KReg1
-- ==== Proof.KReg2.lean ====
import proofs.«426271_j85796266705527_4_alg».proof.Proof.KReg0

namespace Cert.KernelIdeal.KReg2

open Idealize.ShloMosaic Idealize.ShloMosaic.TcCoe Cert.KernelIdeal Cert.KernelIdeal.Gen

/-- Point `t` works on row block `t`. -/
theorem block_indices : ∀ t : Fin cfg2.N, KReg0.RowTiled (win2_0.index t) (win2_1.index t) (win2_2.index t) t.val :=
  (by decide +kernel : ∀ t : Fin grid2.N, _)

/-- Each point writes its row block of the product, and the ten blocks tile the result. -/
theorem final (V : (c : Dev nD) → (b : Ref sig .tc) → Buf (Elt Ideal) ((c : Thread nD τ).loc b)) (c : Dev nD) :
    (dat2 (F := Ideal) V c).arrAt 2 cfg2.N
      = Cert.Spec.mm (K := 128) (C := 32) (V c (Pipeline.arrRef spec2 0)) (V c (Pipeline.arrRef spec2 1)) := by
  refine (dat2 (F := Ideal) V c).arrAt_eq_of_cover 2 _ (fun t _ => ?_) fun i => ?_
  · rw [Pipeline.Dat.flushed, after2_2]
    exact (KReg0.canon_pay k2_pay1 _ _).trans (KReg0.mm_block _ _ (block_indices t)
      (win2_0.rect_emb_val t) (win2_1.rect_emb_val t) (win2_2.rect_emb_val t))
  · obtain ⟨t, ht⟩ := KReg0.cover_rows N_2 block_indices i
    refine ⟨t, flush2_2 t, ?_⟩
    show i ∈ ((View.whole (Pipeline.arrRef spec2 2)).slice (win2_2.rect t)).set
    rw [View.set_slice_whole]; exact Rect.mem_set_unit.mpr ht

end Cert.KernelIdeal.KReg2
-- ==== Proof.KReg3a.lean ====
import proofs.«426271_j85796266705527_4_alg».proof.Proof.Gen.KernelIdeal.Frame
import proofs.«426271_j85796266705527_4_alg».proof.Proof.Spec
import Idealize.ShloMosaic.Lib.Pipeline.Value
import Idealize.ShloMosaic.Lib.ValueLayout

noncomputable section

namespace Cert.KernelIdeal.KReg3

open Idealize.ShloMosaic Idealize.ShloMosaic.TcCoe Idealize.ShloMosaic.Tactic
open Idealize.ShloMosaic.ValueIdx
open Idealize.SL.Sem
open Idealize.ShloMosaic.Pipeline (Dat Cfg Window)
open Cert.KernelIdeal Cert.KernelIdeal.Gen Cert.Spec

/-- Both row-major positions are `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_two, Shape.rowMajor_val_one]
    show i.val = i.val * 1 + u.val
    omega)

/-- The column's unit axis is read at 0, its row axis at the row. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ => show p.val = if a = 1 then 0 else p.val; split <;> omega
  | ⟨1, _⟩ => rfl

theorem exp_apply {s : Shape} {φ : FTy} (a : FVec Ideal s φ) (i : s.Idx) : exp a i = Ideal.exp (a i) := rfl

theorem relu_at (v0 : Vec Ideal S2000x32 .f32) (v2 : Vec Ideal S32 .f32) (q : Fin 2000) (k : Fin 32) :
    k3_pay12 (F := Ideal) v0 v2 (ix2 q k) = max (v0 (ix2 q k) + v2 (ix1 k)) 0 := by
  unfold k3_pay12
  simp only [maximumf_apply, addf_apply, broadcast_apply, shapeCast_self]
  rw [broadcastTo_1b_ab_apply, shapeCast_a_1a_apply]
  show max _ (Ideal.ofBits .f32 0x00000000#32) = _
  rw [Ideal.ofBits_zero_f32]

theorem att15_eq (v : Vec Ideal S1x32 .f32) : k3_pay15 (F := Ideal) v = v := by
  unfold k3_pay15; exact shapeCast_self _ _

/-- Summing the products along a row gives the row's dot product with `a`. -/
theorem dot_at (e : FVec Ideal S2000x32 .f32) (a : FVec Ideal S1x32 .f32) (q : Fin 2000) (u : Fin 1) :
    shapeCast S2000x1 (multiReduction .add [1] S2000 (mulf e (broadcastTo S2000x32 a broadcasts_S1x32_S2000x32)) 0x00000000#32 reduces_S2000x32_S2000 (.inl rfl) rfl) shapeCasts_S2000_S2000x1 (ix2 q u)
      = ∑ k : Fin 32, e (ix2 q k) * a (ix2 (0 : Fin 1) k) := by
  refine (shapeCast_a_a1_apply _ _ q u).trans ?_
  refine (Ideal.multiReduction_add_single _ _ reduces_S2000x32_S2000 _ _ (ix1 q)).trans ?_
  show ∑ k : Fin 32, _ = _
  refine Finset.sum_congr rfl fun k _ => ?_
  have hl : reduces_S2000x32_S2000.lift (ix1 q) k = ix2 q k :=
    funext fun a => Fin.ext (by match a with | ⟨0, _⟩ => rfl | ⟨1, _⟩ => rfl)
  rw [hl, mulf_apply, broadcastTo_1b_ab_apply]

theorem leaky_sel (t z : EReal) (hz : z = 0) :
    Scalar.select (FloatOps.cmpf (F := Ideal) (φ := .f32) .oge t z) t (Ideal.ofBits .f32 0x3C23D70A#32 * t) = leaky t := by
  subst hz
  unfold Cert.Spec.leaky Cert.Spec.slope Scalar.select
  rw [Ideal.cmpf_def]
  unfold Ideal.cmp
  by_cases h : (0 : EReal) ≤ t
  · simp [h]
  · simp [h]

/-- A logit is `leaky` of that dot product: the select tests its sign. -/
theorem logit_at (e : FVec Ideal S2000x32 .f32) (a : FVec Ideal S1x32 .f32) (q : Fin 2000) (u : Fin 1) :
    k3_pay2 (F := Ideal) e a (ix2 q u) = leaky (∑ k : Fin 32, e (ix2 q k) * a (ix2 (0 : Fin 1) k)) := by
  unfold k3_pay2
  simp only [select_apply, cmpf_apply, mulf_apply, broadcast_apply]
  rw [dot_at]
  exact leaky_sel _ _ Ideal.ofBits_zero_f32

section Branch

variable {acc : Arr2 nN 32} {b : Arr1 32} {a : Fin 32 → EReal} {p : Fin nN} {q : Fin 2000}
  {x : Vec Ideal S2000x32 .f32} {y : Vec Ideal S32 .f32} {z : Vec Ideal S1x32 .f32}
  {e : S2000x32.Idx → S100000x32.Idx} {e3 : S32.Idx → S32.Idx}
  (Hx : ∀ i, x i = acc (e i)) (Hy : ∀ i, y i = b (e3 i)) (he : ∀ k : Fin 32, e (ix2 q k) = ix2 p k) (he3 : ∀ i, e3 i = i)
  (Hz : ∀ k : Fin 32, z (ix2 (0 : Fin 1) k) = a k)
include Hx Hy he he3

/-- One branch's embedding at block row `q`, the blocks being the arrays read through embeddings that send it to node row `p`. -/
theorem e_at (k : Fin 32) : k3_pay12 (F := Ideal) x y (ix2 q k) = relu acc b p k := by
  rw [relu_at, Hx, Hy, he, he3]; rfl

include Hz

/-- One branch's logit there. -/
theorem s_at (u : Fin 1) : k3_pay2 (F := Ideal) (k3_pay12 x y) (k3_pay15 z) (ix2 q u) = logit acc b a p := by
  rw [logit_at]
  simp only [e_at Hx Hy he he3, att15_eq, Hz]
  rfl

end Branch

/-- The later stages' operands at block row `q` hold node row `p`'s three embeddings and three logits. -/
structure Row (X : AttIn) (p : Fin nN) (q : Fin 2000) (v7 v15 v23 : FVec Ideal S2000x32 .f32) (v25 : FVec Ideal S1x32 .f32)
    (v34 v38 v39 : FVec Ideal S2000x1 .f32) : Prop where
  e1 : ∀ k : Fin 32, v7 (ix2 q k) = relu X.acc1 X.b1 p k
  e2 : ∀ k : Fin 32, v15 (ix2 q k) = relu X.acc2 X.b2 p k
  e3 : ∀ k : Fin 32, v23 (ix2 q k) = relu X.acc3 X.b3 p k
  s1 : ∀ u : Fin 1, v34 (ix2 q u) = X.s1 p
  s2 : ∀ u : Fin 1, k3_pay1 (F := Ideal) v38 v39 (ix2 q u) = X.s2 p
  s3 : ∀ u : Fin 1, k3_pay2 (F := Ideal) v23 v25 (ix2 q u) = X.s3 p

section RowStages

variable {X : AttIn} {p : Fin nN} {q : Fin 2000} {v7 v15 v23 : FVec Ideal S2000x32 .f32} {v25 : FVec Ideal S1x32 .f32}
  {v34 v38 v39 : FVec Ideal S2000x1 .f32} (R : Row X p q v7 v15 v23 v25 v34 v38 v39)
include R

/-- The three weights are one function of the three logits. -/
theorem w_at (u : Fin 1) : k3_pay8 (F := Ideal) v23 v25 v34 v38 v39 (ix2 q u) = X.w1K p
    ∧ k3_pay9 (F := Ideal) v23 v25 v34 v38 v39 (ix2 q u) = X.w2K p
    ∧ k3_pay10 (F := Ideal) v23 v25 v34 v38 v39 (ix2 q u) = X.w3K p := by
  unfold k3_pay8 k3_pay9 k3_pay10 k3_pay7 k3_pay4 k3_pay5 k3_pay6 k3_pay3
  simp only [divf_apply, addf_apply, subf_apply, exp_apply, maximumf_apply, R.s1 u, R.s2 u, R.s3 u]
  exact ⟨rfl, rfl, rfl⟩

theorem h_at (k : Fin 32) : k3_pay11 (F := Ideal) v7 v15 v23 v25 v34 v38 v39 (ix2 q k) = X.hK p k := by
  obtain ⟨h1, h2, h3⟩ := w_at R 0
  unfold k3_pay11
  simp only [addf_apply, mulf_apply]
  rw [broadcastTo_a1_ab_apply, broadcastTo_a1_ab_apply, broadcastTo_a1_ab_apply, h1, h2, h3, R.e1 k, R.e2 k, R.e3 k]
  rfl

end RowStages

theorem hz2 : (![0, 0] : Fin 2 → Nat) = fun _ => 0 := funext fun a => by fin_cases a <;> rfl
theorem hz1 : (![0] : Fin 1 → Nat) = fun _ => 0 := funext fun a => by fin_cases a; rfl

/-- The array whose column `j` is the `j`-th of three given columns. -/
def colsOf (P0 P1 P2 : FVec Ideal S2000x1 .f32) (y : S2000x3.Idx) : Elt Ideal .f32 :=
  (if (y 1).val = 0 then P0 else if (y 1).val = 1 then P1 else P2) (ix2 ⟨(y 0).val, idx2_lt0 y⟩ 0)

/-- A column stored at column offset `j` lands on column `j`, row for row. -/
theorem col_emb (P0 P1 P2 : FVec Ideal S2000x1 .f32) (j : ℕ) (inb) (x : S2000x1.Idx) :
    (if j = 0 then P0 else if j = 1 then P1 else P2) x
      = colsOf P0 P1 P2 ((Rect.unit (s := S2000x3) ![0, j] S2000x1.size inb).emb x) := by
  have hx : (x 1).val < 1 := (x 1).isLt
  have e1 : ((Rect.unit (s := S2000x3) ![0, j] S2000x1.size inb).emb x 1).val = j := by
    show j + 1 * (x 1).val = j; omega
  unfold colsOf
  rw [e1]
  exact congrArg _ (Shape.idx_ext₂ (by show (x 0).val = 0 + 1 * (x 0).val; omega) (by show (x 1).val = 0; omega))

theorem canon_cols (P0 P1 P2 : FVec Ideal S2000x1 .f32) (y : S2000x3.Idx) :
    View.canon ([⟨r3_5, P2⟩, ⟨r3_4, P1⟩, ⟨r3_3, P0⟩] : List (View.Piece (Elt Ideal) S2000x3 .f32)) y = colsOf P0 P1 P2 y := by
  refine View.canon_apply_of_pieces (Val := Elt Ideal) (colsOf P0 P1 P2) _ ?_ y (cover3_8 _ _ _ y)
  intro pc hpc x
  rcases List.mem_cons.mp hpc with rfl | hpc
  · exact col_emb P0 P1 P2 2 inb_S2000x3_S2000x1_0_2 x
  rcases List.mem_cons.mp hpc with rfl | hpc
  · exact col_emb P0 P1 P2 1 inb_S2000x3_S2000x1_0_1 x
  rcases List.mem_cons.mp hpc with rfl | hpc
  · exact col_emb P0 P1 P2 0 inb_S2000x3_S2000x1_0_0 x
  nomatch hpc

/-- The body's operands over input blocks whose row `q` holds node row `p`. -/
abbrev RowOf (X : AttIn) (p : Fin nN) (q : Fin 2000) (x0 x1 x2 : Vec Ideal S2000x32 .f32) (x3 x4 x5 : Vec Ideal S32 .f32)
    (x6 : Vec Ideal S1x32 .f32) : Prop :=
  Row X p q (k3_pay12 (F := Ideal) x0 x3) (k3_pay13 (F := Ideal) x1 x4) (k3_pay14 (F := Ideal) x2 x5) (k3_pay15 (F := Ideal) x6)
    (k3_pay16 (F := Ideal) x0 x3 x6) (k3_pay17 (F := Ideal) x1 x4 x6) (k3_pay18 (F := Ideal))

section Block

variable {X : AttIn} {p : Fin nN} {q : Fin 2000} {x0 x1 x2 : Vec Ideal S2000x32 .f32} {x3 x4 x5 : Vec Ideal S32 .f32}
  {x6 : Vec Ideal S1x32 .f32}

/-- Each branch's embedding and logit is the first branch's function of its own blocks. -/
theorem row_of {e : S2000x32.Idx → S100000x32.Idx} {e3 : S32.Idx → S32.Idx}
    (H0 : ∀ i, x0 i = X.acc1 (e i)) (H1 : ∀ i, x1 i = X.acc2 (e i)) (H2 : ∀ i, x2 i = X.acc3 (e i))
    (H3 : ∀ i, x3 i = X.b1 (e3 i)) (H4 : ∀ i, x4 i = X.b2 (e3 i)) (H5 : ∀ i, x5 i = X.b3 (e3 i))
    (H6 : ∀ k : Fin 32, x6 (ix2 (0 : Fin 1) k) = X.a k) (he : ∀ k : Fin 32, e (ix2 q k) = ix2 p k) (he3 : ∀ i, e3 i = i) :
    RowOf X p q x0 x1 x2 x3 x4 x5 x6 :=
  ⟨e_at H0 H3 he he3, e_at H1 H4 he he3, e_at H2 H5 he he3, s_at H0 H3 he he3 H6, s_at H1 H4 he he3 H6, s_at H2 H5 he he3 H6⟩

variable (R : RowOf X p q x0 x1 x2 x3 x4 x5 x6)
include R

theorem out7_at (k : Fin 32) : out3_7 (F := Ideal) x0 x1 x2 x3 x4 x5 x6 (ix2 q k) = X.hKArr (ix2 p k) := by
  unfold out3_7
  rw [View.canon_unit_zero hz2]
  simp only [View.ld_unit_zero (S := S2000x32) hz2, View.ld_unit_zero (S := S32) hz1, View.ld_unit_zero (S := S1x32) hz2]
  exact h_at R k

theorem out8_at (j : Fin 3) : out3_8 (F := Ideal) x0 x1 x2 x3 x4 x5 x6 (ix2 q j) = X.wcatK (ix2 p j) := by
  obtain ⟨h1, h2, h3⟩ := w_at R 0
  unfold out3_8
  simp only [View.ld_unit_zero (S := S2000x32) hz2, View.ld_unit_zero (S := S32) hz1, View.ld_unit_zero (S := S1x32) hz2]
  rw [canon_cols]
  fin_cases j
  · exact h1
  · exact h2
  · exact h3

end Block

end Cert.KernelIdeal.KReg3

end
-- ==== Proof.KReg3b.lean ====
import proofs.«426271_j85796266705527_4_alg».proof.Proof.Gen.KernelIdeal.Frame
import proofs.«426271_j85796266705527_4_alg».proof.Proof.Spec

noncomputable section

namespace Cert.KernelIdeal.KReg3

open Idealize.ShloMosaic Idealize.ShloMosaic.TcCoe Idealize.ShloMosaic.Tactic
open Idealize.ShloMosaic.ValueIdx
open Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-- The seven arrays the region reads, as the attention's input record. -/
noncomputable def attInOf (c : Dev nD) : Cert.Spec.AttIn :=
  ⟨V c (Pipeline.arrRef spec3 0), V c (Pipeline.arrRef spec3 1), V c (Pipeline.arrRef spec3 2), V c (Pipeline.arrRef spec3 3),
   V c (Pipeline.arrRef spec3 4), V c (Pipeline.arrRef spec3 5),
   fun k => (V c (Pipeline.arrRef spec3 6) : Cert.Spec.Arr2 1 32) (ix2 0 k)⟩

/-- The row-blocked windows share one index map: row block `t` at grid point `t`. -/
theorem idx7 : ∀ t : Fin cfg3.N, win3_7.index t (0 : Fin 2) = t.val :=
  (by decide +kernel : ∀ t : Fin grid3.N, _)

theorem t_lt (t : Fin cfg3.N) : t.val < 50 := lt_of_lt_of_eq t.isLt N_3

end Cert.KernelIdeal.KReg3

end
-- ==== Proof.KReg3.lean ====
import proofs.«426271_j85796266705527_4_alg».proof.Proof.KReg3a
import proofs.«426271_j85796266705527_4_alg».proof.Proof.KReg3b

noncomputable section

namespace Cert.KernelIdeal.KReg3

open Idealize.ShloMosaic Idealize.ShloMosaic.TcCoe Idealize.ShloMosaic.Tactic
open Idealize.ShloMosaic.ValueIdx
open Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-- The index map is `t ↦ (t, 0)` and a block has 2000 rows. -/
theorem emb7 (t : Fin cfg3.N) (y : S2000x32.Idx) (i : S100000x32.Idx) (h0 : (i 0).val = 2000 * t.val + (y 0).val)
    (h1 : (i 1).val = (y 1).val) : ((cfg3.win 7).blk t).view.emb y = i :=
  Shape.idx_ext₂ (by show win3_7.index t (0 : Fin 2) * 2000 + 1 * (y 0).val = _; rw [idx7 t]; omega)
    (by show 0 * 32 + 1 * (y 1).val = _; omega)

theorem emb8 (t : Fin cfg3.N) (y : S2000x3.Idx) (i : S100000x3.Idx) (h0 : (i 0).val = 2000 * t.val + (y 0).val)
    (h1 : (i 1).val = (y 1).val) : ((cfg3.win 8).blk t).view.emb y = i :=
  Shape.idx_ext₂ (by show win3_7.index t (0 : Fin 2) * 2000 + 1 * (y 0).val = _; rw [idx7 t]; omega)
    (by show 0 * 3 + 1 * (y 1).val = _; omega)

theorem emb3 (t : Fin cfg3.N) (y : S32.Idx) : ((cfg3.win 3).blk t).view.emb y = y :=
  funext fun a => Fin.ext (by match a with | ⟨0, _⟩ => show 0 * 32 + 1 * (y 0).val = (y 0).val; omega)

theorem emb6 (t : Fin cfg3.N) (y : S1x32.Idx) : ((cfg3.win 6).blk t).view.emb y = y :=
  Shape.idx_ext₂ (by show 0 * 1 + 1 * (y 0).val = _; omega) (by show 0 * 32 + 1 * (y 1).val = _; omega)

/-- The input blocks at point `t` are the arrays read through these embeddings; the three accumulators' windows share one. -/
theorem row3 (c : Dev nD) (t : Fin cfg3.N) (q : Fin 2000) (p : Fin nN) (hp : p.val = 2000 * t.val + q.val) :
    RowOf (attInOf V c) p q (iblk3 V c 0 t) (iblk3 V c 1 t) (iblk3 V c 2 t) (iblk3 V c 3 t) (iblk3 V c 4 t) (iblk3 V c 5 t) (iblk3 V c 6 t) :=
  row_of (e := ((cfg3.win 7).blk t).view.emb) (e3 := ((cfg3.win 3).blk t).view.emb)
    (fun _ => rfl) (fun _ => rfl) (fun _ => rfl) (fun _ => rfl) (fun _ => rfl) (fun _ => rfl)
    (fun k => congrArg (V c (Pipeline.arrRef spec3 6) : Arr2 1 32) (emb6 t (ix2 0 k))) (fun k => emb7 t _ _ hp rfl) (emb3 t)

theorem row_lt (t : Fin cfg3.N) (q : Fin 2000) : 2000 * t.val + q.val < nN := by
  have := t_lt t
  have := q.isLt
  show _ < 100000
  omega

theorem tOf_lt {n : ℕ} (h : n < 100000) : n / 2000 < cfg3.N := by
  rw [show cfg3.N = 50 from N_3]; omega

theorem flushed7_eq (c : Dev nD) (t : Fin cfg3.N) :
    (dat3 (F := Ideal) V c).flushed 7 t = ((cfg3.win 7).blk t).view.read (Elt Ideal) ((attInOf V c).hKArr) := by
  show (cfg3.win 7).cut (grid3.coords t) ((dat3 (F := Ideal) V c).after 7 t) = _
  rw [after3_7]
  funext j
  obtain ⟨q, k, rfl⟩ : ∃ (q : Fin 2000) (k : Fin 32), j = ix2 q k := ⟨j 0, j 1, eq_ix2 j⟩
  exact (out7_at (row3 V c t q ⟨_, row_lt t q⟩ rfl) k).trans
    (congrArg (attInOf V c).hKArr (emb7 t (ix2 q k) (ix2 ⟨_, row_lt t q⟩ k) rfl rfl).symm)

/-- Row `r` lies in block `r / 2000`, at row `r % 2000` of it. -/
theorem mem7 (t : Fin cfg3.N) (i : S100000x32.Idx) (h : (i 0).val / 2000 = t.val) : i ∈ ((cfg3.win 7).blk t).view.set :=
  emb7 t (ix2 ⟨(i 0).val % 2000, Nat.mod_lt _ (by decide)⟩ (i 1)) i
    (by show (i 0).val = 2000 * t.val + (i 0).val % 2000; omega) rfl ▸ View.emb_mem_set _ _

theorem final_h (c : Dev nD) : (dat3 (F := Ideal) V c).arrAt 7 cfg3.N = (attInOf V c).hKArr :=
  (dat3 (F := Ideal) V c).arrAt_eq_of_cover 7 ((attInOf V c).hKArr) (fun t _ => flushed7_eq V c t) fun i =>
    ⟨⟨_, tOf_lt (i 0).isLt⟩, flush3_7 _, mem7 _ i rfl⟩

theorem flushed8_eq (c : Dev nD) (t : Fin cfg3.N) :
    (dat3 (F := Ideal) V c).flushed 8 t = ((cfg3.win 8).blk t).view.read (Elt Ideal) ((attInOf V c).wcatK) := by
  show (cfg3.win 8).cut (grid3.coords t) ((dat3 (F := Ideal) V c).after 8 t) = _
  rw [after3_8]
  funext j
  obtain ⟨q, k, rfl⟩ : ∃ (q : Fin 2000) (k : Fin 3), j = ix2 q k := ⟨j 0, j 1, eq_ix2 j⟩
  exact (out8_at (row3 V c t q ⟨_, row_lt t q⟩ rfl) k).trans
    (congrArg (attInOf V c).wcatK (emb8 t (ix2 q k) (ix2 ⟨_, row_lt t q⟩ k) rfl rfl).symm)

theorem mem8 (t : Fin cfg3.N) (i : S100000x3.Idx) (h : (i 0).val / 2000 = t.val) : i ∈ ((cfg3.win 8).blk t).view.set :=
  emb8 t (ix2 ⟨(i 0).val % 2000, Nat.mod_lt _ (by decide)⟩ (i 1)) i
    (by show (i 0).val = 2000 * t.val + (i 0).val % 2000; omega) rfl ▸ View.emb_mem_set _ _

theorem final_w (c : Dev nD) : (dat3 (F := Ideal) V c).arrAt 8 cfg3.N = (attInOf V c).wcatK :=
  (dat3 (F := Ideal) V c).arrAt_eq_of_cover 8 ((attInOf V c).wcatK) (fun t _ => flushed8_eq V c t) fun i =>
    ⟨⟨_, tOf_lt (i 0).isLt⟩, flush3_8 _, mem8 _ i rfl⟩

end Cert.KernelIdeal.KReg3

end
-- ==== Proof.KReg4.lean ====
import proofs.«426271_j85796266705527_4_alg».proof.Proof.Gen.KernelIdeal.Frame
import proofs.«426271_j85796266705527_4_alg».proof.Proof.Spec
import Idealize.ShloMosaic.Lib.Pipeline.Value
import Idealize.ShloMosaic.Lib.ValueLayout

noncomputable section

namespace Cert.KernelIdeal.KReg4

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.Spec

theorem lhs_dot_0 (i : S5000x32.Idx) (q : dot_S5000x32_S32x32_S5000x32_1_0_0_1_n_n.contr.Idx) :
    (dot_S5000x32_S32x32_S5000x32_1_0_0_1_n_n.lhsIdx i q 0).val = (i 0).val := by
  unfold DotDims.lhsIdx
  rw [dif_neg (show ¬(0 : Fin S5000x32.rank) ∈ dot_S5000x32_S32x32_S5000x32_1_0_0_1_n_n.lhsBatch by decide), dif_pos (show (0 : Fin S5000x32.rank) ∈ dot_S5000x32_S32x32_S5000x32_1_0_0_1_n_n.lhsNonContracting by decide)]
  rfl

theorem rhs_dot_1 (i : S5000x32.Idx) (q : dot_S5000x32_S32x32_S5000x32_1_0_0_1_n_n.contr.Idx) :
    (dot_S5000x32_S32x32_S5000x32_1_0_0_1_n_n.rhsIdx i q 1).val = (i 1).val := by
  unfold DotDims.rhsIdx
  rw [dif_neg (show ¬(1 : Fin S32x32.rank) ∈ dot_S5000x32_S32x32_S5000x32_1_0_0_1_n_n.rhsBatch by decide), dif_pos (show (1 : Fin S32x32.rank) ∈ dot_S5000x32_S32x32_S5000x32_1_0_0_1_n_n.rhsNonContracting by decide)]
  rfl

/-- The product into the zero splat is the sum over the one contracted axis, re-indexed by its coordinate. -/
theorem mm_apply (x : FVec Ideal S5000x32 .f32) (w : FVec Ideal S32x32 .f32) (r : Fin 5000) (q : Fin 32) :
    matmul dot_S5000x32_S32x32_S5000x32_1_0_0_1_n_n none x w (constant (F := Ideal) S5000x32 .f32 0x00000000#32) (ix2 r q)
      = ∑ k : Fin 32, x (ix2 r k) * w (ix2 k q) := by
  simp only [matmul]
  rw [Ideal.matmul_constant_zero_apply, ← Equiv.sum_comp (contrEquiv1 dot_S5000x32_S32x32_S5000x32_1_0_0_1_n_n 32 rfl rfl).symm]
  refine Finset.sum_congr rfl fun k _ => ?_
  have hk := contrEquiv1_symm_val dot_S5000x32_S32x32_S5000x32_1_0_0_1_n_n 32 rfl rfl k
  rw [show dot_S5000x32_S32x32_S5000x32_1_0_0_1_n_n.lhsIdx (ix2 r q) ((contrEquiv1 dot_S5000x32_S32x32_S5000x32_1_0_0_1_n_n 32 rfl rfl).symm k) = ix2 r k from
      Shape.idx_ext₂ (lhs_dot_0 _ _) ((dot_S5000x32_S32x32_S5000x32_1_0_0_1_n_n.lhsIdx_val_of_single rfl _ _).trans hk),
    show dot_S5000x32_S32x32_S5000x32_1_0_0_1_n_n.rhsIdx (ix2 r q) ((contrEquiv1 dot_S5000x32_S32x32_S5000x32_1_0_0_1_n_n 32 rfl rfl).symm k) = ix2 k q from
      Shape.idx_ext₂ ((dot_S5000x32_S32x32_S5000x32_1_0_0_1_n_n.rhsIdx_val_of_single rfl _ _).trans hk) (rhs_dot_1 _ _)]

/-- With block row `r` read from node row `p`, the body's sums are the projection's at `p`, term for term. -/
theorem blk_eq {S1 S2 S3 : Arr2 nN 32} {W1 W2 W3 : Arr2 32 32} {bo : Arr1 32}
    {x0 x1 x2 : FVec Ideal S5000x32 .f32} {w0 w1 w2 : FVec Ideal S32x32 .f32} {b : FVec Ideal S32 .f32}
    {e : S5000x32.Idx → S100000x32.Idx} {e3 : S32x32.Idx → S32x32.Idx} {e6 : S32.Idx → S32.Idx}
    (h0 : ∀ y, x0 y = S1 (e y)) (h1 : ∀ y, x1 y = S2 (e y)) (h2 : ∀ y, x2 y = S3 (e y))
    (hw0 : ∀ y, w0 y = W1 (e3 y)) (hw1 : ∀ y, w1 y = W2 (e3 y)) (hw2 : ∀ y, w2 y = W3 (e3 y)) (hb : ∀ y, b y = bo (e6 y))
    (he3 : ∀ y, e3 y = y) (he6 : ∀ y, e6 y = y) {r : Fin 5000} {p : Fin nN} (he : ∀ k : Fin 32, e (ix2 r k) = ix2 p k) (q : Fin 32) :
    k4_pay1 (F := Ideal) x0 w0 x1 w1 x2 w2 b (ix2 r q) = proj S1 S2 S3 W1 W2 W3 bo (e (ix2 r q)) := by
  unfold k4_pay1
  simp only [shapeCast_self]
  rw [addf_apply, addf_apply, addf_apply, mm_apply, mm_apply, mm_apply, broadcastTo_1b_ab_apply, shapeCast_a_1a_apply]
  simp only [h0, h1, h2, hw0, hw1, hw2, hb, he3, he6, he]
  rfl

theorem hz2 : (![0, 0] : Fin 2 → Nat) = fun _ => 0 := funext fun a => by fin_cases a <;> rfl
theorem hz1 : (![0] : Fin 1 → Nat) = fun _ => 0 := funext fun a => by fin_cases a <;> rfl

theorem idx7 : ∀ t : Fin cfg4.N, win4_7.index t (0 : Fin 2) = t.val :=
  (by decide +kernel : ∀ t : Fin grid4.N, _)

variable (V : (c : Dev nD) → (b : Ref sig .tc) → Buf (Elt Ideal) ((c : Thread nD τ).loc b))

abbrev G (c : Dev nD) : Arr2 nN 32 :=
  Cert.Spec.proj (V c (Pipeline.arrRef spec4 0)) (V c (Pipeline.arrRef spec4 1)) (V c (Pipeline.arrRef spec4 2))
    (V c (Pipeline.arrRef spec4 3)) (V c (Pipeline.arrRef spec4 4)) (V c (Pipeline.arrRef spec4 5)) (V c (Pipeline.arrRef spec4 6))

/-- The index map is `t ↦ (t, 0)` and a block has 5000 rows. -/
theorem emb7 (t : Fin cfg4.N) (y : S5000x32.Idx) (i : S100000x32.Idx) (h0 : (i 0).val = t.val * 5000 + (y 0).val)
    (h1 : (i 1).val = (y 1).val) : ((cfg4.win 7).blk t).view.emb y = i :=
  Shape.idx_ext₂ (by show win4_7.index t (0 : Fin 2) * 5000 + 1 * (y 0).val = _; rw [idx7 t]; omega)
    (by show 0 * 32 + 1 * (y 1).val = _; omega)

theorem emb3 (t : Fin cfg4.N) (y : S32x32.Idx) : ((cfg4.win 3).blk t).view.emb y = y :=
  Shape.idx_ext₂ (by show 0 * 32 + 1 * (y 0).val = _; omega) (by show 0 * 32 + 1 * (y 1).val = _; omega)

theorem emb6 (t : Fin cfg4.N) (y : S32.Idx) : ((cfg4.win 6).blk t).view.emb y = y :=
  funext fun a => Fin.ext (by match a with | ⟨0, _⟩ => show 0 * 32 + 1 * (y 0).val = (y 0).val; omega)

theorem flushed_eq (c : Dev nD) (t : Fin cfg4.N) :
    (dat4 (F := Ideal) V c).flushed 7 t = ((cfg4.win 7).blk t).view.read (Elt Ideal) (G V c) := by
  show (cfg4.win 7).cut (grid4.coords t) ((dat4 (F := Ideal) V c).after 7 t) = _
  rw [after4_7]
  unfold out4_7
  rw [View.canon_unit_zero hz2]
  simp only [View.ld_unit_zero (S := S5000x32) hz2, View.ld_unit_zero (S := S32x32) hz2, View.ld_unit_zero (S := S32) hz1]
  funext j
  obtain ⟨r, q, rfl⟩ : ∃ (r : Fin 5000) (q : Fin 32), j = ix2 r q := ⟨j 0, j 1, eq_ix2 j⟩
  have hp : t.val * 5000 + r.val < nN := by
    have := lt_of_lt_of_eq t.isLt N_4
    have := r.isLt
    show _ < 100000
    omega
  exact blk_eq (e := ((cfg4.win 7).blk t).view.emb) (e3 := ((cfg4.win 3).blk t).view.emb) (e6 := ((cfg4.win 6).blk t).view.emb)
    (p := ⟨_, hp⟩) (fun _ => rfl) (fun _ => rfl) (fun _ => rfl) (fun _ => rfl) (fun _ => rfl) (fun _ => rfl) (fun _ => rfl)
    (emb3 t) (emb6 t) (fun k => emb7 t _ _ rfl rfl) q

/-- Row `r` lies in block `r / 5000`, at row `r % 5000` of it. -/
theorem mem7 (t : Fin cfg4.N) (i : S100000x32.Idx) (h : (i 0).val / 5000 = t.val) : i ∈ ((cfg4.win 7).blk t).view.set :=
  emb7 t (ix2 ⟨(i 0).val % 5000, Nat.mod_lt _ (by decide)⟩ (i 1)) i
    (by show (i 0).val = t.val * 5000 + (i 0).val % 5000; omega) rfl ▸ View.emb_mem_set _ _

theorem final (c : Dev nD) :
    (dat4 (F := Ideal) V c).arrAt 7 cfg4.N
      = Cert.Spec.proj (V c (Pipeline.arrRef spec4 0)) (V c (Pipeline.arrRef spec4 1)) (V c (Pipeline.arrRef spec4 2))
          (V c (Pipeline.arrRef spec4 3)) (V c (Pipeline.arrRef spec4 4)) (V c (Pipeline.arrRef spec4 5)) (V c (Pipeline.arrRef spec4 6)) :=
  (dat4 (F := Ideal) V c).arrAt_eq_of_cover 7 (G V c) (fun t _ => flushed_eq V c t) fun i => by
    have h0 : (i 0).val < 100000 := (i 0).isLt
    have hN : (i 0).val / 5000 < cfg4.N := by rw [show cfg4.N = 20 from N_4]; omega
    exact ⟨⟨_, hN⟩, flush4_7 _, mem7 ⟨_, hN⟩ i rfl⟩

end Cert.KernelIdeal.KReg4

end
-- ==== Proof.KRead.lean ====
import proofs.«426271_j85796266705527_4_alg».proof.Proof.Gen.KernelIdeal.Frame
import proofs.«426271_j85796266705527_4_alg».proof.Proof.Gen.ReferenceIdeal
import proofs.«426271_j85796266705527_4_alg».proof.Proof.SpecT
import proofs.«426271_j85796266705527_4_alg».proof.Proof.KReadCarry
import proofs.«426271_j85796266705527_4_alg».proof.Proof.KReadOps
import proofs.«426271_j85796266705527_4_alg».proof.Proof.KReg0
import proofs.«426271_j85796266705527_4_alg».proof.Proof.KReg1
import proofs.«426271_j85796266705527_4_alg».proof.Proof.KReg2
import proofs.«426271_j85796266705527_4_alg».proof.Proof.KReg3
import proofs.«426271_j85796266705527_4_alg».proof.Proof.KReg4
import Idealize.ShloMosaic.Lib.ValueIdx
import Idealize.ShloMosaic.Lib.ValueLayout
import Idealize.ShloMosaic.Lib.Pipeline.Value

noncomputable section

namespace Cert.KernelIdeal.KRead

open Cert.KernelIdeal Cert.KernelIdeal.Gen
open Idealize.ShloMosaic Idealize.ShloMosaic.TcCoe Idealize.ShloMosaic.ValueIdx
open Idealize.SL Idealize.SL.Sem

local notation:max "⟪" r "⟫" => Proc.devRef Proc.tc r

variable (m : (ℓ : Loc nD τ sig) → Buf (Elt Ideal) ℓ) (ρ : Dev nD → PrngReg)

/-- The launch memory of core `c` read at its argument buffers, gathered as the specification's record of arguments. -/
def argsOf (m : (ℓ : Loc nD τ sig) → Buf (Elt Ideal) ℓ) (c : Dev nD) : Cert.SpecT.Args Ideal :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5),
   m ((c.tc : Thread nD τ).loc main_arg6), m ((c.tc : Thread nD τ).loc main_arg7), m ((c.tc : Thread nD τ).loc main_arg8),
   m ((c.tc : Thread nD τ).loc main_arg9), m ((c.tc : Thread nD τ).loc main_arg10), m ((c.tc : Thread nD τ).loc main_arg11),
   m ((c.tc : Thread nD τ).loc main_arg12), m ((c.tc : Thread nD τ).loc main_arg13), m ((c.tc : Thread nD τ).loc main_arg14),
   m ((c.tc : Thread nD τ).loc main_arg15), m ((c.tc : Thread nD τ).loc main_arg16), m ((c.tc : Thread nD τ).loc main_arg17),
   m ((c.tc : Thread nD τ).loc main_arg18), m ((c.tc : Thread nD τ).loc main_arg19), m ((c.tc : Thread nD τ).loc main_arg20),
   m ((c.tc : Thread nD τ).loc main_arg21)⟩

variable (c : Dev nD)

-- No segment writes an argument array, so it holds its launch contents at every boundary.
theorem atArg (r : Ref sig .tc) (k : ℕ) (hk : k ≤ 16 := by decide) (h : ∀ i : Fin 16, 0 ≤ i.val → r ∉ wrn i.val := by decide) :
    Wn m ρ k c ⟪r⟫ = m ((c.tc : Thread nD τ).loc r) :=
  (pass m ρ c r 0 k (Nat.zero_le k) hk h).trans rfl

-- Each branch's index vectors and edge norms are made once and written by no later segment: they hold from their boundary on.
theorem row1 (k : ℕ) (h : 1 ≤ k := by decide) (hk : k ≤ 16 := by decide) : Wn m ρ k c ⟪main_v5⟫ = Cert.SpecT.rowT (argsOf m c).ei1 :=
  (pass m ρ c main_v5 1 k h hk).trans (row1_of (Wn m ρ 0 c) _ (atArg m ρ c main_arg3 0))
theorem col1 (k : ℕ) (h : 1 ≤ k := by decide) (hk : k ≤ 16 := by decide) : Wn m ρ k c ⟪main_v6⟫ = Cert.SpecT.colT (argsOf m c).ei1 :=
  (pass m ρ c main_v6 1 k h hk).trans (col1_of (Wn m ρ 0 c) _ (atArg m ρ c main_arg3 0))
theorem norm1 (k : ℕ) (h : 3 ≤ k := by decide) (hk : k ≤ 16 := by decide) :
    Wn m ρ k c ⟪main_v31⟫ = Cert.SpecT.normT (F := Ideal) (argsOf m c).ei1 (argsOf m c).ea1 :=
  (pass m ρ c main_v31 3 k h hk).trans (norm1_of (Wn m ρ 2 c) _ _
    (dinv1_of (Wn m ρ 1 c) _ _ (pos1_of (Wn m ρ 0 c) _ _ (atArg m ρ c main_arg3 0) (atArg m ρ c main_arg6 0)) (rs1_of (Wn m ρ 0 c) _ _ (atArg m ρ c main_arg3 0) (atArg m ρ c main_arg6 0)) (z1_of (Wn m ρ 0 c)))
    (row1 m ρ c 2) (col1 m ρ c 2) ((pass m ρ c main_v8 1 2).trans (ew1_of (Wn m ρ 0 c) _ (atArg m ρ c main_arg6 0))))
theorem row2 (k : ℕ) (h : 3 ≤ k := by decide) (hk : k ≤ 16 := by decide) : Wn m ρ k c ⟪main_v37⟫ = Cert.SpecT.rowT (argsOf m c).ei2 :=
  (pass m ρ c main_v37 3 k h hk).trans (row2_of (Wn m ρ 2 c) _ (atArg m ρ c main_arg4 2))
theorem col2 (k : ℕ) (h : 3 ≤ k := by decide) (hk : k ≤ 16 := by decide) : Wn m ρ k c ⟪main_v38⟫ = Cert.SpecT.colT (argsOf m c).ei2 :=
  (pass m ρ c main_v38 3 k h hk).trans (col2_of (Wn m ρ 2 c) _ (atArg m ρ c main_arg4 2))
theorem norm2 (k : ℕ) (h : 5 ≤ k := by decide) (hk : k ≤ 16 := by decide) :
    Wn m ρ k c ⟪main_v63⟫ = Cert.SpecT.normT (F := Ideal) (argsOf m c).ei2 (argsOf m c).ea2 :=
  (pass m ρ c main_v63 5 k h hk).trans (norm2_of (Wn m ρ 4 c) _ _
    (dinv2_of (Wn m ρ 3 c) _ _ (pos2_of (Wn m ρ 2 c) _ _ (atArg m ρ c main_arg4 2) (atArg m ρ c main_arg7 2)) (rs2_of (Wn m ρ 2 c) _ _ (atArg m ρ c main_arg4 2) (atArg m ρ c main_arg7 2)) (z2_of (Wn m ρ 2 c)))
    (row2 m ρ c 4) (col2 m ρ c 4) ((pass m ρ c main_v40 3 4).trans (ew2_of (Wn m ρ 2 c) _ (atArg m ρ c main_arg7 2))))
theorem row3 (k : ℕ) (h : 5 ≤ k := by decide) (hk : k ≤ 16 := by decide) : Wn m ρ k c ⟪main_v69⟫ = Cert.SpecT.rowT (argsOf m c).ei3 :=
  (pass m ρ c main_v69 5 k h hk).trans (row3_of (Wn m ρ 4 c) _ (atArg m ρ c main_arg5 4))
theorem col3 (k : ℕ) (h : 5 ≤ k := by decide) (hk : k ≤ 16 := by decide) : Wn m ρ k c ⟪main_v70⟫ = Cert.SpecT.colT (argsOf m c).ei3 :=
  (pass m ρ c main_v70 5 k h hk).trans (col3_of (Wn m ρ 4 c) _ (atArg m ρ c main_arg5 4))
theorem norm3 (k : ℕ) (h : 7 ≤ k := by decide) (hk : k ≤ 16 := by decide) :
    Wn m ρ k c ⟪main_v95⟫ = Cert.SpecT.normT (F := Ideal) (argsOf m c).ei3 (argsOf m c).ea3 :=
  (pass m ρ c main_v95 7 k h hk).trans (norm3_of (Wn m ρ 6 c) _ _
    (dinv3_of (Wn m ρ 5 c) _ _ (pos3_of (Wn m ρ 4 c) _ _ (atArg m ρ c main_arg5 4) (atArg m ρ c main_arg8 4)) (rs3_of (Wn m ρ 4 c) _ _ (atArg m ρ c main_arg5 4) (atArg m ρ c main_arg8 4)) (z3_of (Wn m ρ 4 c)))
    (row3 m ρ c 6) (col3 m ρ c 6) ((pass m ρ c main_v72 5 6).trans (ew3_of (Wn m ρ 4 c) _ (atArg m ρ c main_arg8 4))))

-- The first layer: each branch's dense product, then its propagation along the branch's edges.
theorem mm1 : Wn m ρ 8 c ⟪main_v96⟫ = Cert.Spec.mm (K := 128) (C := 32) (argsOf m c).x1 (argsOf m c).W1 := by
  rw [show Wn m ρ 8 c ⟪main_v96⟫ = _ from W8_arr m ρ c 2, Cert.KernelIdeal.KReg0.final]
  exact congrArg₂ (Cert.Spec.mm (K := 128) (C := 32)) (atArg m ρ c main_arg0 7) (atArg m ρ c main_arg9 7)
theorem acc1 : Wn m ρ 13 c ⟪main_v109⟫ = (argsOf m c).acc1K := by
  rw [pass m ρ c main_v109 9 13, show Wn m ρ 9 c ⟪main_v109⟫ = _ from
    gss1_of (Wn m ρ 8 c) _ (row1 m ρ c 8) (col1 m ρ c 8), mm1 m ρ c, norm1 m ρ c 8]
  rfl
theorem mm2 : Wn m ρ 10 c ⟪main_v110⟫ = Cert.Spec.mm (K := 128) (C := 32) (argsOf m c).x2 (argsOf m c).W2 := by
  rw [show Wn m ρ 10 c ⟪main_v110⟫ = _ from W10_arr m ρ c 2, Cert.KernelIdeal.KReg1.final]
  exact congrArg₂ (Cert.Spec.mm (K := 128) (C := 32)) (atArg m ρ c main_arg1 9) (atArg m ρ c main_arg10 9)
theorem acc2 : Wn m ρ 13 c ⟪main_v123⟫ = (argsOf m c).acc2K := by
  rw [pass m ρ c main_v123 11 13, show Wn m ρ 11 c ⟪main_v123⟫ = _ from
    gss2_of (Wn m ρ 10 c) _ (row2 m ρ c 10) (col2 m ρ c 10), mm2 m ρ c, norm2 m ρ c 10]
  rfl
theorem mm3 : Wn m ρ 12 c ⟪main_v124⟫ = Cert.Spec.mm (K := 128) (C := 32) (argsOf m c).x3 (argsOf m c).W3 := by
  rw [show Wn m ρ 12 c ⟪main_v124⟫ = _ from W12_arr m ρ c 2, Cert.KernelIdeal.KReg2.final]
  exact congrArg₂ (Cert.Spec.mm (K := 128) (C := 32)) (atArg m ρ c main_arg2 11) (atArg m ρ c main_arg11 11)
theorem acc3 : Wn m ρ 13 c ⟪main_v137⟫ = (argsOf m c).acc3K := by
  rw [show Wn m ρ 13 c ⟪main_v137⟫ = _ from
    gss3_of (Wn m ρ 12 c) _ (row3 m ρ c 12) (col3 m ρ c 12), mm3 m ρ c, norm3 m ρ c 12]
  rfl

-- The attention vector is stored as a row: entry `k` of the row is entry `k` of the column.
theorem attRow (k : Fin 32) : (Wn m ρ 13 c ⟪main_v138⟫ : Cert.Spec.Arr2 1 32) (ix2 0 k) = (argsOf m c).attV k := by
  rw [show Wn m ρ 13 c ⟪main_v138⟫ = _ from row138_of (Wn m ρ 12 c), atArg m ρ c main_arg21 12]
  exact shapeCast_apply _ _ _ (ix2 k 0) (by
    rw [Shape.rowMajor_val_two, Shape.rowMajor_val_two]
    show k.val * 1 + 0 = 0 * 32 + k.val
    omega)
theorem attIn_congr {a1 a1' a2 a2' a3 a3' : Cert.Spec.Arr2 Cert.Spec.nN 32} {b1 b1' b2 b2' b3 b3' : Cert.Spec.Arr1 32}
    {v v' : Fin 32 → EReal} (h1 : a1 = a1') (h2 : a2 = a2') (h3 : a3 = a3') (h4 : b1 = b1') (h5 : b2 = b2') (h6 : b3 = b3')
    (h7 : v = v') : (⟨a1, a2, a3, b1, b2, b3, v⟩ : Cert.Spec.AttIn) = ⟨a1', a2', a3', b1', b2', b3', v'⟩ := by
  subst h1 h2 h3 h4 h5 h6 h7; rfl
-- Region 3 is entered with the three propagated products, the three biases and the attention vector.
theorem attIn13 : Cert.KernelIdeal.KReg3.attInOf (V13 m ρ) c = (argsOf m c).attIn :=
  attIn_congr (acc1 m ρ c) (acc2 m ρ c) (acc3 m ρ c) (atArg m ρ c main_arg12 13) (atArg m ρ c main_arg13 13)
    (atArg m ρ c main_arg14 13) (funext fun k => attRow m ρ c k)
theorem hKer14 : Wn m ρ 14 c ⟪main_v139_0⟫ = (argsOf m c).hKer := by
  rw [show Wn m ρ 14 c ⟪main_v139_0⟫ = _ from W14_arr m ρ c 7, Cert.KernelIdeal.KReg3.final_h, attIn13 m ρ c]
  rfl
theorem wcat14 : Wn m ρ 14 c ⟪main_v139_1⟫ = (argsOf m c).attIn.wcatK := by
  rw [show Wn m ρ 14 c ⟪main_v139_1⟫ = _ from W14_arr m ρ c 8, Cert.KernelIdeal.KReg3.final_w, attIn13 m ρ c]

-- The second layer propagates the combined embedding along each branch's edges; the three biases are summed.
theorem lay1 : Wn m ρ 15 c ⟪main_v155⟫ = (argsOf m c).S1K := by
  rw [show Wn m ρ 15 c ⟪main_v155⟫ = _ from gssS1_of (Wn m ρ 14 c) _ (row1 m ρ c 14) (col1 m ρ c 14), hKer14 m ρ c, norm1 m ρ c 14]
  rfl
theorem lay2 : Wn m ρ 15 c ⟪main_v168⟫ = (argsOf m c).S2K := by
  rw [show Wn m ρ 15 c ⟪main_v168⟫ = _ from gssS2_of (Wn m ρ 14 c) _ (row2 m ρ c 14) (col2 m ρ c 14), hKer14 m ρ c, norm2 m ρ c 14]
  rfl
theorem lay3 : Wn m ρ 15 c ⟪main_v181⟫ = (argsOf m c).S3K := by
  rw [show Wn m ρ 15 c ⟪main_v181⟫ = _ from gssS3_of (Wn m ρ 14 c) _ (row3 m ρ c 14) (col3 m ρ c 14), hKer14 m ρ c, norm3 m ρ c 14]
  rfl
theorem bo15 : Wn m ρ 15 c ⟪main_v183⟫ = (argsOf m c).boK := by
  rw [show Wn m ρ 15 c ⟪main_v183⟫ = _ from bo_of (Wn m ρ 14 c), atArg m ρ c main_arg18 14, atArg m ρ c main_arg19 14,
    atArg m ρ c main_arg20 14]
  rfl

theorem wcat_col0 (x : Cert.Spec.AttIn) (p : Fin Cert.Spec.nN) : x.wcatK (ix2 p 0) = x.w1K p := by
  unfold Cert.Spec.AttIn.wcatK; exact if_pos rfl
theorem wcat_col1 (x : Cert.Spec.AttIn) (p : Fin Cert.Spec.nN) : x.wcatK (ix2 p 1) = x.w2K p := by
  unfold Cert.Spec.AttIn.wcatK; exact (if_neg (by show ¬ ((1 : ℕ) = 0); decide)).trans (if_pos rfl)
theorem wcat_col2 (x : Cert.Spec.AttIn) (p : Fin Cert.Spec.nN) : x.wcatK (ix2 p 2) = x.w3K p := by
  unfold Cert.Spec.AttIn.wcatK; exact (if_neg (by show ¬ ((2 : ℕ) = 0); decide)).trans (if_neg (by show ¬ ((2 : ℕ) = 1); decide))

/-- Result 0: the projection of the three propagated combinations. -/
theorem read_out : W16 (F := Ideal) m ρ c ⟪main_v184⟫ = (argsOf m c).outK := by
  rw [show W16 m ρ c ⟪main_v184⟫ = _ from W16_arr m ρ c 7, Cert.KernelIdeal.KReg4.final]
  show Cert.Spec.proj (Wn m ρ 15 c ⟪main_v155⟫) (Wn m ρ 15 c ⟪main_v168⟫) (Wn m ρ 15 c ⟪main_v181⟫)
    (Wn m ρ 15 c ⟪main_arg15⟫) (Wn m ρ 15 c ⟪main_arg16⟫) (Wn m ρ 15 c ⟪main_arg17⟫) (Wn m ρ 15 c ⟪main_v183⟫) = _
  rw [lay1 m ρ c, lay2 m ρ c, lay3 m ρ c, atArg m ρ c main_arg15 15, atArg m ρ c main_arg16 15, atArg m ρ c main_arg17 15, bo15 m ρ c]
  rfl
/-- Result 1: column 0 of the weight slab, which the last region does not write. -/
theorem read_w1 : W16 (F := Ideal) m ρ c ⟪main_v140⟫ = (argsOf m c).w1K := by
  rw [show W16 m ρ c ⟪main_v140⟫ = _ from pass m ρ c main_v140 15 16, show Wn m ρ 15 c ⟪main_v140⟫ = _ from wcol0_of (Wn m ρ 14 c),
    wcat14 m ρ c]
  funext i
  have h1 : (i 1).val < 1 := (i 1).isLt
  exact (extractStridedSlice_apply _ _ _ i (ix2 (i 0) 0 : (⟨2, ![Cert.Spec.nN, 3]⟩ : Shape).Idx) (fun a => by
    match a with
    | ⟨0, _⟩ => exact (Nat.zero_add _).symm
    | ⟨1, _⟩ => show 0 = 0 + (i 1).val; omega)).trans (wcat_col0 _ _)
/-- Result 2: column 1 of the weight slab, which the last region does not write. -/
theorem read_w2 : W16 (F := Ideal) m ρ c ⟪main_v141⟫ = (argsOf m c).w2K := by
  rw [show W16 m ρ c ⟪main_v141⟫ = _ from pass m ρ c main_v141 15 16, show Wn m ρ 15 c ⟪main_v141⟫ = _ from wcol1_of (Wn m ρ 14 c),
    wcat14 m ρ c]
  funext i
  have h1 : (i 1).val < 1 := (i 1).isLt
  exact (extractStridedSlice_apply _ _ _ i (ix2 (i 0) 1 : (⟨2, ![Cert.Spec.nN, 3]⟩ : Shape).Idx) (fun a => by
    match a with
    | ⟨0, _⟩ => exact (Nat.zero_add _).symm
    | ⟨1, _⟩ => show 1 = 1 + (i 1).val; omega)).trans (wcat_col1 _ _)
/-- Result 3: column 2 of the weight slab, which the last region does not write. -/
theorem read_w3 : W16 (F := Ideal) m ρ c ⟪main_v142⟫ = (argsOf m c).w3K := by
  rw [show W16 m ρ c ⟪main_v142⟫ = _ from pass m ρ c main_v142 15 16, show Wn m ρ 15 c ⟪main_v142⟫ = _ from wcol2_of (Wn m ρ 14 c),
    wcat14 m ρ c]
  funext i
  have h1 : (i 1).val < 1 := (i 1).isLt
  exact (extractStridedSlice_apply _ _ _ i (ix2 (i 0) 2 : (⟨2, ![Cert.Spec.nN, 3]⟩ : Shape).Idx) (fun a => by
    match a with
    | ⟨0, _⟩ => exact (Nat.zero_add _).symm
    | ⟨1, _⟩ => show 2 = 2 + (i 1).val; omega)).trans (wcat_col2 _ _)

end Cert.KernelIdeal.KRead

end
-- ==== Proof.RefOps.lean ====
import proofs.«426271_j85796266705527_4_alg».proof.ReferenceIdeal
import proofs.«426271_j85796266705527_4_alg».proof.Proof.Gen.ReferenceIdeal
import Idealize.ShloMosaic.Lib.StableHlo.Run
import Idealize.ShloMosaic.Lib.Pipeline.Regions

set_option maxRecDepth 1700

noncomputable section

namespace Cert.ReferenceIdeal.Run

open Cert.ReferenceIdeal Idealize.ShloMosaic Idealize.ShloMosaic.TcCoe Idealize.SL.Sem
open Cert.ReferenceIdeal.Facts₀ Cert.ReferenceIdeal.Facts

variable {F : FTy → Type} [FloatOps F] [Facts]

abbrev part0_ops0 : List (HloOp τ sig (Elt F)) :=
  [ StableHlo.binary main_arg0 main_arg9 main_v0 (fun l r => Host.dotGeneral dot_S100000x128_S128x32_S100000x32_1_0_0_1_n_n none l r),
    StableHlo.unary main_arg3 main_v1 (extractStridedSlice S1x1600000 ![0, 0] · slices_S2x1600000_S1x1600000_0_0),
    StableHlo.reshape main_v1 main_v2 rfl shapeCasts_S1x1600000_S1600000,
    StableHlo.unary main_arg3 main_v3 (extractStridedSlice S1x1600000 ![1, 0] · slices_S2x1600000_S1x1600000_1_0),
    StableHlo.reshape main_v3 main_v4 rfl shapeCasts_S1x1600000_S1600000,
    StableHlo.nullary main_v5 (iotaInDim S100000 32 0),
    StableHlo.binary main_v2 main_v5 main_v6 (fun a b => concatenate S1700000 0 [⟨S1600000, a⟩, ⟨S100000, b⟩] concatenates_S1600000_S100000_S1700000_d0),
    StableHlo.binary main_v4 main_v5 main_v7 (fun a b => concatenate S1700000 0 [⟨S1600000, a⟩, ⟨S100000, b⟩] concatenates_S1600000_S100000_S1700000_d0),
    StableHlo.nullary main_cst (constant S_ .f32 0x3F800000#32),
    StableHlo.unary main_cst main_v8 (broadcastInDim S100000 ![] bcast_S_S100000),
    StableHlo.binary main_arg6 main_v8 main_v9 (fun a b => concatenate S1700000 0 [⟨S1600000, a⟩, ⟨S100000, b⟩] concatenates_S1600000_S100000_S1700000_d0),
    StableHlo.nullary main_cst_0 (constant S_ .f32 0x00000000#32),
    StableHlo.unary main_cst_0 main_v10 (broadcastInDim S100000 ![] bcast_S_S100000),
    StableHlo.unary main_v7 main_v11 (broadcastInDim S1700000x1 ![0] bcast_S1700000_S1700000x1_0),
    StableHlo.ternary main_v10 main_v11 main_v9 main_v12 (fun x i u => Host.scatterAdd scatter_S100000_S1700000x1_S1700000_n_0_0_1 x i u),
    StableHlo.nullary main_cst_1 (constant S_ .f32 0x00000000#32),
    StableHlo.unary main_cst_1 main_v13 (broadcastInDim S100000 ![] bcast_S_S100000),
    StableHlo.binary main_v12 main_v13 main_v14 (cmpf .ogt),
    StableHlo.unary main_v12 main_v15 (Host.rsqrt),
    StableHlo.nullary main_cst_2 (constant S_ .f32 0x00000000#32) ]

abbrev part0_ops1 : List (HloOp τ sig (Elt F)) :=
  [ StableHlo.TRef.unary (.of main_cst_2) (.of main_call0_v0) id,
    StableHlo.TRef.unary (.of main_call0_v0) (.of main_call0_v1) (broadcastInDim S100000 ![] bcast_S_S100000),
    StableHlo.TRef.ternary (.of main_v14) (.of main_v15) (.of main_call0_v1) (.of main_v16) select ]

abbrev part0_ops2 : List (HloOp τ sig (Elt F)) :=
  ( StableHlo.nullary main_c (constantI S_ 32 0#32)
  :: StableHlo.unary main_c main_v17 (broadcastInDim S1700000 ![] bcast_S_S1700000)
  :: StableHlo.binary main_v6 main_v17 main_v18 (cmpi .slt)
  :: StableHlo.nullary main_c_3 (constantI S_ 32 100000#32)
  :: StableHlo.unary main_c_3 main_v19 (broadcastInDim S1700000 ![] bcast_S_S1700000)
  :: StableHlo.binary main_v6 main_v19 main_v20 (addi)
  :: StableHlo.ternary main_v18 main_v20 main_v6 main_v21 (select)
  :: StableHlo.unary main_v21 main_v22 (broadcastInDim S1700000x1 ![0] bcast_S1700000_S1700000x1_0)
  :: StableHlo.binary main_v16 main_v22 main_v23 (fun x i => Host.gather gather_S100000_S1700000x1_S1700000_n_0_n_n_0_1_1 x i)
  :: StableHlo.binary main_v23 main_v9 main_v24 (mulf)
  :: StableHlo.nullary main_c_4 (constantI S_ 32 0#32)
  :: StableHlo.unary main_c_4 main_v25 (broadcastInDim S1700000 ![] bcast_S_S1700000)
  :: StableHlo.binary main_v7 main_v25 main_v26 (cmpi .slt)
  :: StableHlo.nullary main_c_5 (constantI S_ 32 100000#32)
  :: StableHlo.unary main_c_5 main_v27 (broadcastInDim S1700000 ![] bcast_S_S1700000)
  :: StableHlo.binary main_v7 main_v27 main_v28 (addi)
  :: StableHlo.ternary main_v26 main_v28 main_v7 main_v29 (select)
  :: StableHlo.unary main_v29 main_v30 (broadcastInDim S1700000x1 ![0] bcast_S1700000_S1700000x1_0)
  :: StableHlo.binary main_v16 main_v30 main_v31 (fun x i => Host.gather gather_S100000_S1700000x1_S1700000_n_0_n_n_0_1_1 x i)
  :: StableHlo.binary main_v24 main_v31 main_v32 (mulf)
  :: StableHlo.unary main_v32 main_v33 (broadcastInDim S1700000x1 ![0] bcast_S1700000_S1700000x1_0)
  :: StableHlo.nullary main_c_6 (constantI S_ 32 0#32)
  :: StableHlo.unary main_c_6 main_v34 (broadcastInDim S1700000 ![] bcast_S_S1700000)
  :: StableHlo.binary main_v6 main_v34 main_v35 (cmpi .slt)
  :: StableHlo.nullary main_c_7 (constantI S_ 32 100000#32)
  :: StableHlo.unary main_c_7 main_v36 (broadcastInDim S1700000 ![] bcast_S_S1700000)
  :: StableHlo.binary main_v6 main_v36 main_v37 (addi)
  :: StableHlo.ternary main_v35 main_v37 main_v6 main_v38 (select)
  :: StableHlo.unary main_v38 main_v39 (broadcastInDim S1700000x1 ![0] bcast_S1700000_S1700000x1_0)
  :: StableHlo.binary main_v0 main_v39 main_v40 (fun x i => Host.gather gather_S100000x32_S1700000x1_S1700000x32_1_0_n_n_0_1_132 x i)
  :: StableHlo.unary main_v33 main_v41 (broadcastInDim S1700000x32 ![0, 1] bcast_S1700000x1_S1700000x32_0_1)
  :: StableHlo.binary main_v41 main_v40 main_v42 (mulf)
  :: StableHlo.nullary main_cst_8 (constant S_ .f32 0x00000000#32)
  :: StableHlo.unary main_cst_8 main_v43 (broadcastInDim S100000x32 ![] bcast_S_S100000x32)
  :: StableHlo.unary main_v7 main_v44 (broadcastInDim S1700000x1 ![0] bcast_S1700000_S1700000x1_0)
  :: StableHlo.ternary main_v43 main_v44 main_v42 main_v45 (fun x i u => Host.scatterAdd scatter_S100000x32_S1700000x1_S1700000x32_1_0_0_1 x i u)
  :: StableHlo.unary main_arg12 main_v46 (broadcastInDim S1x32 ![1] bcast_S32_S1x32_1)
  :: StableHlo.unary main_v46 main_v47 (broadcastInDim S100000x32 ![0, 1] bcast_S1x32_S100000x32_0_1)
  :: StableHlo.binary main_v45 main_v47 main_v48 (addf)
  :: [] )

abbrev part1_ops0 : List (HloOp τ sig (Elt F)) :=
  [ StableHlo.TRef.nullary (.of main_call1_cst) (constant S_ .f32 0x00000000#32),
    StableHlo.TRef.unary (.of main_call1_cst) (.of main_call1_v0) (broadcastInDim S100000x32 ![] bcast_S_S100000x32),
    StableHlo.TRef.binary (.of main_v48) (.of main_call1_v0) (.of main_v49) maximumf ]

abbrev part1_ops1 : List (HloOp τ sig (Elt F)) :=
  [ StableHlo.binary main_v49 main_arg21 main_v50 (fun l r => Host.dotGeneral dot_S100000x32_S32x1_S100000x1_1_0_0_1_n_n none l r) ]

abbrev part1_ops2 : List (HloOp τ sig (Elt F)) :=
  [ StableHlo.TRef.nullary (.of main_call2_cst) (constant S_ .f32 0x00000000#32),
    StableHlo.TRef.unary (.of main_call2_cst) (.of main_call2_v0) (broadcastInDim S100000x1 ![] bcast_S_S100000x1),
    StableHlo.TRef.binary (.of main_v50) (.of main_call2_v0) (.of main_call2_v1) (cmpf .oge),
    StableHlo.TRef.nullary (.of main_call2_cst_0) (constant S_ .f32 0x3C23D70A#32),
    StableHlo.TRef.unary (.of main_call2_cst_0) (.of main_call2_v2) (broadcastInDim S100000x1 ![] bcast_S_S100000x1),
    StableHlo.TRef.binary (.of main_call2_v2) (.of main_v50) (.of main_call2_v3) mulf ]

abbrev part1_ops3 : List (HloOp τ sig (Elt F)) :=
  [ StableHlo.TRef.ternary (.of main_call2_v1) (.of main_v50) (.of main_call2_v3) (.of main_v51) select ]

abbrev part1_ops4 : List (HloOp τ sig (Elt F)) :=
  [ StableHlo.unary main_v51 main_v52 (Host.exp),
    StableHlo.binary main_arg1 main_arg10 main_v53 (fun l r => Host.dotGeneral dot_S100000x128_S128x32_S100000x32_1_0_0_1_n_n none l r),
    StableHlo.unary main_arg4 main_v54 (extractStridedSlice S1x1600000 ![0, 0] · slices_S2x1600000_S1x1600000_0_0),
    StableHlo.reshape main_v54 main_v55 rfl shapeCasts_S1x1600000_S1600000,
    StableHlo.unary main_arg4 main_v56 (extractStridedSlice S1x1600000 ![1, 0] · slices_S2x1600000_S1x1600000_1_0),
    StableHlo.reshape main_v56 main_v57 rfl shapeCasts_S1x1600000_S1600000,
    StableHlo.nullary main_v58 (iotaInDim S100000 32 0),
    StableHlo.binary main_v55 main_v58 main_v59 (fun a b => concatenate S1700000 0 [⟨S1600000, a⟩, ⟨S100000, b⟩] concatenates_S1600000_S100000_S1700000_d0),
    StableHlo.binary main_v57 main_v58 main_v60 (fun a b => concatenate S1700000 0 [⟨S1600000, a⟩, ⟨S100000, b⟩] concatenates_S1600000_S100000_S1700000_d0),
    StableHlo.nullary main_cst_9 (constant S_ .f32 0x3F800000#32),
    StableHlo.unary main_cst_9 main_v61 (broadcastInDim S100000 ![] bcast_S_S100000),
    StableHlo.binary main_arg7 main_v61 main_v62 (fun a b => concatenate S1700000 0 [⟨S1600000, a⟩, ⟨S100000, b⟩] concatenates_S1600000_S100000_S1700000_d0),
    StableHlo.nullary main_cst_10 (constant S_ .f32 0x00000000#32),
    StableHlo.unary main_cst_10 main_v63 (broadcastInDim S100000 ![] bcast_S_S100000),
    StableHlo.unary main_v60 main_v64 (broadcastInDim S1700000x1 ![0] bcast_S1700000_S1700000x1_0),
    StableHlo.ternary main_v63 main_v64 main_v62 main_v65 (fun x i u => Host.scatterAdd scatter_S100000_S1700000x1_S1700000_n_0_0_1 x i u),
    StableHlo.nullary main_cst_11 (constant S_ .f32 0x00000000#32),
    StableHlo.unary main_cst_11 main_v66 (broadcastInDim S100000 ![] bcast_S_S100000),
    StableHlo.binary main_v65 main_v66 main_v67 (cmpf .ogt),
    StableHlo.unary main_v65 main_v68 (Host.rsqrt),
    StableHlo.nullary main_cst_12 (constant S_ .f32 0x00000000#32) ]

abbrev part1_ops5 : List (HloOp τ sig (Elt F)) :=
  [ StableHlo.TRef.unary (.of main_cst_12) (.of main_call3_v0) id,
    StableHlo.TRef.unary (.of main_call3_v0) (.of main_call3_v1) (broadcastInDim S100000 ![] bcast_S_S100000),
    StableHlo.TRef.ternary (.of main_v67) (.of main_v68) (.of main_call3_v1) (.of main_v69) select ]

abbrev part1_ops6 : List (HloOp τ sig (Elt F)) :=
  ( StableHlo.nullary main_c_13 (constantI S_ 32 0#32)
  :: StableHlo.unary main_c_13 main_v70 (broadcastInDim S1700000 ![] bcast_S_S1700000)
  :: StableHlo.binary main_v59 main_v70 main_v71 (cmpi .slt)
  :: StableHlo.nullary main_c_14 (constantI S_ 32 100000#32)
  :: StableHlo.unary main_c_14 main_v72 (broadcastInDim S1700000 ![] bcast_S_S1700000)
  :: StableHlo.binary main_v59 main_v72 main_v73 (addi)
  :: StableHlo.ternary main_v71 main_v73 main_v59 main_v74 (select)
  :: StableHlo.unary main_v74 main_v75 (broadcastInDim S1700000x1 ![0] bcast_S1700000_S1700000x1_0)
  :: StableHlo.binary main_v69 main_v75 main_v76 (fun x i => Host.gather gather_S100000_S1700000x1_S1700000_n_0_n_n_0_1_1 x i)
  :: StableHlo.binary main_v76 main_v62 main_v77 (mulf)
  :: StableHlo.nullary main_c_15 (constantI S_ 32 0#32)
  :: StableHlo.unary main_c_15 main_v78 (broadcastInDim S1700000 ![] bcast_S_S1700000)
  :: StableHlo.binary main_v60 main_v78 main_v79 (cmpi .slt)
  :: StableHlo.nullary main_c_16 (constantI S_ 32 100000#32)
  :: StableHlo.unary main_c_16 main_v80 (broadcastInDim S1700000 ![] bcast_S_S1700000)
  :: StableHlo.binary main_v60 main_v80 main_v81 (addi)
  :: StableHlo.ternary main_v79 main_v81 main_v60 main_v82 (select)
  :: StableHlo.unary main_v82 main_v83 (broadcastInDim S1700000x1 ![0] bcast_S1700000_S1700000x1_0)
  :: StableHlo.binary main_v69 main_v83 main_v84 (fun x i => Host.gather gather_S100000_S1700000x1_S1700000_n_0_n_n_0_1_1 x i)
  :: StableHlo.binary main_v77 main_v84 main_v85 (mulf)
  :: StableHlo.unary main_v85 main_v86 (broadcastInDim S1700000x1 ![0] bcast_S1700000_S1700000x1_0)
  :: StableHlo.nullary main_c_17 (constantI S_ 32 0#32)
  :: StableHlo.unary main_c_17 main_v87 (broadcastInDim S1700000 ![] bcast_S_S1700000)
  :: StableHlo.binary main_v59 main_v87 main_v88 (cmpi .slt)
  :: StableHlo.nullary main_c_18 (constantI S_ 32 100000#32)
  :: StableHlo.unary main_c_18 main_v89 (broadcastInDim S1700000 ![] bcast_S_S1700000)
  :: StableHlo.binary main_v59 main_v89 main_v90 (addi)
  :: StableHlo.ternary main_v88 main_v90 main_v59 main_v91 (select)
  :: StableHlo.unary main_v91 main_v92 (broadcastInDim S1700000x1 ![0] bcast_S1700000_S1700000x1_0)
  :: StableHlo.binary main_v53 main_v92 main_v93 (fun x i => Host.gather gather_S100000x32_S1700000x1_S1700000x32_1_0_n_n_0_1_132 x i)
  :: StableHlo.unary main_v86 main_v94 (broadcastInDim S1700000x32 ![0, 1] bcast_S1700000x1_S1700000x32_0_1)
  :: StableHlo.binary main_v94 main_v93 main_v95 (mulf)
  :: StableHlo.nullary main_cst_19 (constant S_ .f32 0x00000000#32)
  :: StableHlo.unary main_cst_19 main_v96 (broadcastInDim S100000x32 ![] bcast_S_S100000x32)
  :: StableHlo.unary main_v60 main_v97 (broadcastInDim S1700000x1 ![0] bcast_S1700000_S1700000x1_0)
  :: [] )

abbrev part2_ops0 : List (HloOp τ sig (Elt F)) :=
  [ StableHlo.ternary main_v96 main_v97 main_v95 main_v98 (fun x i u => Host.scatterAdd scatter_S100000x32_S1700000x1_S1700000x32_1_0_0_1 x i u),
    StableHlo.unary main_arg13 main_v99 (broadcastInDim S1x32 ![1] bcast_S32_S1x32_1),
    StableHlo.unary main_v99 main_v100 (broadcastInDim S100000x32 ![0, 1] bcast_S1x32_S100000x32_0_1),
    StableHlo.binary main_v98 main_v100 main_v101 (addf) ]

abbrev part2_ops1 : List (HloOp τ sig (Elt F)) :=
  [ StableHlo.TRef.nullary (.of main_call4_cst) (constant S_ .f32 0x00000000#32),
    StableHlo.TRef.unary (.of main_call4_cst) (.of main_call4_v0) (broadcastInDim S100000x32 ![] bcast_S_S100000x32),
    StableHlo.TRef.binary (.of main_v101) (.of main_call4_v0) (.of main_v102) maximumf ]

abbrev part2_ops2 : List (HloOp τ sig (Elt F)) :=
  [ StableHlo.binary main_v102 main_arg21 main_v103 (fun l r => Host.dotGeneral dot_S100000x32_S32x1_S100000x1_1_0_0_1_n_n none l r) ]

abbrev part2_ops3 : List (HloOp τ sig (Elt F)) :=
  [ StableHlo.TRef.nullary (.of main_call5_cst) (constant S_ .f32 0x00000000#32),
    StableHlo.TRef.unary (.of main_call5_cst) (.of main_call5_v0) (broadcastInDim S100000x1 ![] bcast_S_S100000x1),
    StableHlo.TRef.binary (.of main_v103) (.of main_call5_v0) (.of main_call5_v1) (cmpf .oge),
    StableHlo.TRef.nullary (.of main_call5_cst_0) (constant S_ .f32 0x3C23D70A#32),
    StableHlo.TRef.unary (.of main_call5_cst_0) (.of main_call5_v2) (broadcastInDim S100000x1 ![] bcast_S_S100000x1),
    StableHlo.TRef.binary (.of main_call5_v2) (.of main_v103) (.of main_call5_v3) mulf ]

abbrev part2_ops4 : List (HloOp τ sig (Elt F)) :=
  [ StableHlo.TRef.ternary (.of main_call5_v1) (.of main_v103) (.of main_call5_v3) (.of main_v104) select ]

abbrev part2_ops5 : List (HloOp τ sig (Elt F)) :=
  [ StableHlo.unary main_v104 main_v105 (Host.exp),
    StableHlo.binary main_arg2 main_arg11 main_v106 (fun l r => Host.dotGeneral dot_S100000x128_S128x32_S100000x32_1_0_0_1_n_n none l r),
    StableHlo.unary main_arg5 main_v107 (extractStridedSlice S1x1600000 ![0, 0] · slices_S2x1600000_S1x1600000_0_0),
    StableHlo.reshape main_v107 main_v108 rfl shapeCasts_S1x1600000_S1600000,
    StableHlo.unary main_arg5 main_v109 (extractStridedSlice S1x1600000 ![1, 0] · slices_S2x1600000_S1x1600000_1_0),
    StableHlo.reshape main_v109 main_v110 rfl shapeCasts_S1x1600000_S1600000,
    StableHlo.nullary main_v111 (iotaInDim S100000 32 0),
    StableHlo.binary main_v108 main_v111 main_v112 (fun a b => concatenate S1700000 0 [⟨S1600000, a⟩, ⟨S100000, b⟩] concatenates_S1600000_S100000_S1700000_d0),
    StableHlo.binary main_v110 main_v111 main_v113 (fun a b => concatenate S1700000 0 [⟨S1600000, a⟩, ⟨S100000, b⟩] concatenates_S1600000_S100000_S1700000_d0),
    StableHlo.nullary main_cst_20 (constant S_ .f32 0x3F800000#32),
    StableHlo.unary main_cst_20 main_v114 (broadcastInDim S100000 ![] bcast_S_S100000),
    StableHlo.binary main_arg8 main_v114 main_v115 (fun a b => concatenate S1700000 0 [⟨S1600000, a⟩, ⟨S100000, b⟩] concatenates_S1600000_S100000_S1700000_d0),
    StableHlo.nullary main_cst_21 (constant S_ .f32 0x00000000#32),
    StableHlo.unary main_cst_21 main_v116 (broadcastInDim S100000 ![] bcast_S_S100000),
    StableHlo.unary main_v113 main_v117 (broadcastInDim S1700000x1 ![0] bcast_S1700000_S1700000x1_0),
    StableHlo.ternary main_v116 main_v117 main_v115 main_v118 (fun x i u => Host.scatterAdd scatter_S100000_S1700000x1_S1700000_n_0_0_1 x i u),
    StableHlo.nullary main_cst_22 (constant S_ .f32 0x00000000#32),
    StableHlo.unary main_cst_22 main_v119 (broadcastInDim S100000 ![] bcast_S_S100000),
    StableHlo.binary main_v118 main_v119 main_v120 (cmpf .ogt),
    StableHlo.unary main_v118 main_v121 (Host.rsqrt),
    StableHlo.nullary main_cst_23 (constant S_ .f32 0x00000000#32) ]

abbrev part2_ops6 : List (HloOp τ sig (Elt F)) :=
  [ StableHlo.TRef.unary (.of main_cst_23) (.of main_call6_v0) id,
    StableHlo.TRef.unary (.of main_call6_v0) (.of main_call6_v1) (broadcastInDim S100000 ![] bcast_S_S100000),
    StableHlo.TRef.ternary (.of main_v120) (.of main_v121) (.of main_call6_v1) (.of main_v122) select ]

abbrev part2_ops7 : List (HloOp τ sig (Elt F)) :=
  [ StableHlo.nullary main_c_24 (constantI S_ 32 0#32),
    StableHlo.unary main_c_24 main_v123 (broadcastInDim S1700000 ![] bcast_S_S1700000),
    StableHlo.binary main_v112 main_v123 main_v124 (cmpi .slt),
    StableHlo.nullary main_c_25 (constantI S_ 32 100000#32),
    StableHlo.unary main_c_25 main_v125 (broadcastInDim S1700000 ![] bcast_S_S1700000),
    StableHlo.binary main_v112 main_v125 main_v126 (addi),
    StableHlo.ternary main_v124 main_v126 main_v112 main_v127 (select),
    StableHlo.unary main_v127 main_v128 (broadcastInDim S1700000x1 ![0] bcast_S1700000_S1700000x1_0),
    StableHlo.binary main_v122 main_v128 main_v129 (fun x i => Host.gather gather_S100000_S1700000x1_S1700000_n_0_n_n_0_1_1 x i),
    StableHlo.binary main_v129 main_v115 main_v130 (mulf),
    StableHlo.nullary main_c_26 (constantI S_ 32 0#32),
    StableHlo.unary main_c_26 main_v131 (broadcastInDim S1700000 ![] bcast_S_S1700000),
    StableHlo.binary main_v113 main_v131 main_v132 (cmpi .slt),
    StableHlo.nullary main_c_27 (constantI S_ 32 100000#32),
    StableHlo.unary main_c_27 main_v133 (broadcastInDim S1700000 ![] bcast_S_S1700000),
    StableHlo.binary main_v113 main_v133 main_v134 (addi),
    StableHlo.ternary main_v132 main_v134 main_v113 main_v135 (select),
    StableHlo.unary main_v135 main_v136 (broadcastInDim S1700000x1 ![0] bcast_S1700000_S1700000x1_0),
    StableHlo.binary main_v122 main_v136 main_v137 (fun x i => Host.gather gather_S100000_S1700000x1_S1700000_n_0_n_n_0_1_1 x i),
    StableHlo.binary main_v130 main_v137 main_v138 (mulf),
    StableHlo.unary main_v138 main_v139 (broadcastInDim S1700000x1 ![0] bcast_S1700000_S1700000x1_0),
    StableHlo.nullary main_c_28 (constantI S_ 32 0#32),
    StableHlo.unary main_c_28 main_v140 (broadcastInDim S1700000 ![] bcast_S_S1700000),
    StableHlo.binary main_v112 main_v140 main_v141 (cmpi .slt),
    StableHlo.nullary main_c_29 (constantI S_ 32 100000#32),
    StableHlo.unary main_c_29 main_v142 (broadcastInDim S1700000 ![] bcast_S_S1700000),
    StableHlo.binary main_v112 main_v142 main_v143 (addi),
    StableHlo.ternary main_v141 main_v143 main_v112 main_v144 (select),
    StableHlo.unary main_v144 main_v145 (broadcastInDim S1700000x1 ![0] bcast_S1700000_S1700000x1_0),
    StableHlo.binary main_v106 main_v145 main_v146 (fun x i => Host.gather gather_S100000x32_S1700000x1_S1700000x32_1_0_n_n_0_1_132 x i),
    StableHlo.unary main_v139 main_v147 (broadcastInDim S1700000x32 ![0, 1] bcast_S1700000x1_S1700000x32_0_1) ]

abbrev part3_ops0 : List (HloOp τ sig (Elt F)) :=
  [ StableHlo.binary main_v147 main_v146 main_v148 (mulf),
    StableHlo.nullary main_cst_30 (constant S_ .f32 0x00000000#32),
    StableHlo.unary main_cst_30 main_v149 (broadcastInDim S100000x32 ![] bcast_S_S100000x32),
    StableHlo.unary main_v113 main_v150 (broadcastInDim S1700000x1 ![0] bcast_S1700000_S1700000x1_0),
    StableHlo.ternary main_v149 main_v150 main_v148 main_v151 (fun x i u => Host.scatterAdd scatter_S100000x32_S1700000x1_S1700000x32_1_0_0_1 x i u),
    StableHlo.unary main_arg14 main_v152 (broadcastInDim S1x32 ![1] bcast_S32_S1x32_1),
    StableHlo.unary main_v152 main_v153 (broadcastInDim S100000x32 ![0, 1] bcast_S1x32_S100000x32_0_1),
    StableHlo.binary main_v151 main_v153 main_v154 (addf) ]

abbrev part3_ops1 : List (HloOp τ sig (Elt F)) :=
  [ StableHlo.TRef.nullary (.of main_call7_cst) (constant S_ .f32 0x00000000#32),
    StableHlo.TRef.unary (.of main_call7_cst) (.of main_call7_v0) (broadcastInDim S100000x32 ![] bcast_S_S100000x32),
    StableHlo.TRef.binary (.of main_v154) (.of main_call7_v0) (.of main_v155) maximumf ]

abbrev part3_ops2 : List (HloOp τ sig (Elt F)) :=
  [ StableHlo.binary main_v155 main_arg21 main_v156 (fun l r => Host.dotGeneral dot_S100000x32_S32x1_S100000x1_1_0_0_1_n_n none l r) ]

abbrev part3_ops3 : List (HloOp τ sig (Elt F)) :=
  [ StableHlo.TRef.nullary (.of main_call8_cst) (constant S_ .f32 0x00000000#32),
    StableHlo.TRef.unary (.of main_call8_cst) (.of main_call8_v0) (broadcastInDim S100000x1 ![] bcast_S_S100000x1),
    StableHlo.TRef.binary (.of main_v156) (.of main_call8_v0) (.of main_call8_v1) (cmpf .oge),
    StableHlo.TRef.nullary (.of main_call8_cst_0) (constant S_ .f32 0x3C23D70A#32),
    StableHlo.TRef.unary (.of main_call8_cst_0) (.of main_call8_v2) (broadcastInDim S100000x1 ![] bcast_S_S100000x1),
    StableHlo.TRef.binary (.of main_call8_v2) (.of main_v156) (.of main_call8_v3) mulf ]

abbrev part3_ops4 : List (HloOp τ sig (Elt F)) :=
  [ StableHlo.TRef.ternary (.of main_call8_v1) (.of main_v156) (.of main_call8_v3) (.of main_v157) select ]

abbrev part3_ops5 : List (HloOp τ sig (Elt F)) :=
  ( StableHlo.unary main_v157 main_v158 (Host.exp)
  :: StableHlo.binary main_v52 main_v105 main_v159 (addf)
  :: StableHlo.binary main_v159 main_v158 main_v160 (addf)
  :: StableHlo.binary main_v52 main_v160 main_v161 (Host.divf)
  :: StableHlo.binary main_v105 main_v160 main_v162 (Host.divf)
  :: StableHlo.binary main_v158 main_v160 main_v163 (Host.divf)
  :: StableHlo.unary main_v161 main_v164 (broadcastInDim S100000x32 ![0, 1] bcast_S100000x1_S100000x32_0_1)
  :: StableHlo.binary main_v164 main_v49 main_v165 (mulf)
  :: StableHlo.nullary main_cst_31 (constant S_ .f32 0x00000000#32)
  :: StableHlo.unary main_cst_31 main_v166 (broadcastInDim S100000x32 ![] bcast_S_S100000x32)
  :: StableHlo.binary main_v166 main_v165 main_v167 (addf)
  :: StableHlo.unary main_v162 main_v168 (broadcastInDim S100000x32 ![0, 1] bcast_S100000x1_S100000x32_0_1)
  :: StableHlo.binary main_v168 main_v102 main_v169 (mulf)
  :: StableHlo.binary main_v167 main_v169 main_v170 (addf)
  :: StableHlo.unary main_v163 main_v171 (broadcastInDim S100000x32 ![0, 1] bcast_S100000x1_S100000x32_0_1)
  :: StableHlo.binary main_v171 main_v155 main_v172 (mulf)
  :: StableHlo.binary main_v170 main_v172 main_v173 (addf)
  :: StableHlo.binary main_v173 main_arg15 main_v174 (fun l r => Host.dotGeneral dot_S100000x32_S32x32_S100000x32_1_0_0_1_n_n none l r)
  :: StableHlo.unary main_arg3 main_v175 (extractStridedSlice S1x1600000 ![0, 0] · slices_S2x1600000_S1x1600000_0_0)
  :: StableHlo.reshape main_v175 main_v176 rfl shapeCasts_S1x1600000_S1600000
  :: StableHlo.unary main_arg3 main_v177 (extractStridedSlice S1x1600000 ![1, 0] · slices_S2x1600000_S1x1600000_1_0)
  :: StableHlo.reshape main_v177 main_v178 rfl shapeCasts_S1x1600000_S1600000
  :: StableHlo.nullary main_v179 (iotaInDim S100000 32 0)
  :: StableHlo.binary main_v176 main_v179 main_v180 (fun a b => concatenate S1700000 0 [⟨S1600000, a⟩, ⟨S100000, b⟩] concatenates_S1600000_S100000_S1700000_d0)
  :: StableHlo.binary main_v178 main_v179 main_v181 (fun a b => concatenate S1700000 0 [⟨S1600000, a⟩, ⟨S100000, b⟩] concatenates_S1600000_S100000_S1700000_d0)
  :: StableHlo.nullary main_cst_32 (constant S_ .f32 0x3F800000#32)
  :: StableHlo.unary main_cst_32 main_v182 (broadcastInDim S100000 ![] bcast_S_S100000)
  :: StableHlo.binary main_arg6 main_v182 main_v183 (fun a b => concatenate S1700000 0 [⟨S1600000, a⟩, ⟨S100000, b⟩] concatenates_S1600000_S100000_S1700000_d0)
  :: StableHlo.nullary main_cst_33 (constant S_ .f32 0x00000000#32)
  :: StableHlo.unary main_cst_33 main_v184 (broadcastInDim S100000 ![] bcast_S_S100000)
  :: StableHlo.unary main_v181 main_v185 (broadcastInDim S1700000x1 ![0] bcast_S1700000_S1700000x1_0)
  :: StableHlo.ternary main_v184 main_v185 main_v183 main_v186 (fun x i u => Host.scatterAdd scatter_S100000_S1700000x1_S1700000_n_0_0_1 x i u)
  :: StableHlo.nullary main_cst_34 (constant S_ .f32 0x00000000#32)
  :: StableHlo.unary main_cst_34 main_v187 (broadcastInDim S100000 ![] bcast_S_S100000)
  :: StableHlo.binary main_v186 main_v187 main_v188 (cmpf .ogt)
  :: StableHlo.unary main_v186 main_v189 (Host.rsqrt)
  :: StableHlo.nullary main_cst_35 (constant S_ .f32 0x00000000#32)
  :: [] )

abbrev part3_ops6 : List (HloOp τ sig (Elt F)) :=
  [ StableHlo.TRef.unary (.of main_cst_35) (.of main_call9_v0) id,
    StableHlo.TRef.unary (.of main_call9_v0) (.of main_call9_v1) (broadcastInDim S100000 ![] bcast_S_S100000),
    StableHlo.TRef.ternary (.of main_v188) (.of main_v189) (.of main_call9_v1) (.of main_v190) select ]

abbrev part3_ops7 : List (HloOp τ sig (Elt F)) :=
  [ StableHlo.nullary main_c_36 (constantI S_ 32 0#32),
    StableHlo.unary main_c_36 main_v191 (broadcastInDim S1700000 ![] bcast_S_S1700000),
    StableHlo.binary main_v180 main_v191 main_v192 (cmpi .slt),
    StableHlo.nullary main_c_37 (constantI S_ 32 100000#32),
    StableHlo.unary main_c_37 main_v193 (broadcastInDim S1700000 ![] bcast_S_S1700000),
    StableHlo.binary main_v180 main_v193 main_v194 (addi),
    StableHlo.ternary main_v192 main_v194 main_v180 main_v195 (select),
    StableHlo.unary main_v195 main_v196 (broadcastInDim S1700000x1 ![0] bcast_S1700000_S1700000x1_0),
    StableHlo.binary main_v190 main_v196 main_v197 (fun x i => Host.gather gather_S100000_S1700000x1_S1700000_n_0_n_n_0_1_1 x i),
    StableHlo.binary main_v197 main_v183 main_v198 (mulf),
    StableHlo.nullary main_c_38 (constantI S_ 32 0#32) ]

abbrev part4_ops0 : List (HloOp τ sig (Elt F)) :=
  ( StableHlo.unary main_c_38 main_v199 (broadcastInDim S1700000 ![] bcast_S_S1700000)
  :: StableHlo.binary main_v181 main_v199 main_v200 (cmpi .slt)
  :: StableHlo.nullary main_c_39 (constantI S_ 32 100000#32)
  :: StableHlo.unary main_c_39 main_v201 (broadcastInDim S1700000 ![] bcast_S_S1700000)
  :: StableHlo.binary main_v181 main_v201 main_v202 (addi)
  :: StableHlo.ternary main_v200 main_v202 main_v181 main_v203 (select)
  :: StableHlo.unary main_v203 main_v204 (broadcastInDim S1700000x1 ![0] bcast_S1700000_S1700000x1_0)
  :: StableHlo.binary main_v190 main_v204 main_v205 (fun x i => Host.gather gather_S100000_S1700000x1_S1700000_n_0_n_n_0_1_1 x i)
  :: StableHlo.binary main_v198 main_v205 main_v206 (mulf)
  :: StableHlo.unary main_v206 main_v207 (broadcastInDim S1700000x1 ![0] bcast_S1700000_S1700000x1_0)
  :: StableHlo.nullary main_c_40 (constantI S_ 32 0#32)
  :: StableHlo.unary main_c_40 main_v208 (broadcastInDim S1700000 ![] bcast_S_S1700000)
  :: StableHlo.binary main_v180 main_v208 main_v209 (cmpi .slt)
  :: StableHlo.nullary main_c_41 (constantI S_ 32 100000#32)
  :: StableHlo.unary main_c_41 main_v210 (broadcastInDim S1700000 ![] bcast_S_S1700000)
  :: StableHlo.binary main_v180 main_v210 main_v211 (addi)
  :: StableHlo.ternary main_v209 main_v211 main_v180 main_v212 (select)
  :: StableHlo.unary main_v212 main_v213 (broadcastInDim S1700000x1 ![0] bcast_S1700000_S1700000x1_0)
  :: StableHlo.binary main_v174 main_v213 main_v214 (fun x i => Host.gather gather_S100000x32_S1700000x1_S1700000x32_1_0_n_n_0_1_132 x i)
  :: StableHlo.unary main_v207 main_v215 (broadcastInDim S1700000x32 ![0, 1] bcast_S1700000x1_S1700000x32_0_1)
  :: StableHlo.binary main_v215 main_v214 main_v216 (mulf)
  :: StableHlo.nullary main_cst_42 (constant S_ .f32 0x00000000#32)
  :: StableHlo.unary main_cst_42 main_v217 (broadcastInDim S100000x32 ![] bcast_S_S100000x32)
  :: StableHlo.unary main_v181 main_v218 (broadcastInDim S1700000x1 ![0] bcast_S1700000_S1700000x1_0)
  :: StableHlo.ternary main_v217 main_v218 main_v216 main_v219 (fun x i u => Host.scatterAdd scatter_S100000x32_S1700000x1_S1700000x32_1_0_0_1 x i u)
  :: StableHlo.unary main_arg18 main_v220 (broadcastInDim S1x32 ![1] bcast_S32_S1x32_1)
  :: StableHlo.unary main_v220 main_v221 (broadcastInDim S100000x32 ![0, 1] bcast_S1x32_S100000x32_0_1)
  :: StableHlo.binary main_v219 main_v221 main_v222 (addf)
  :: StableHlo.nullary main_cst_43 (constant S_ .f32 0x00000000#32)
  :: StableHlo.unary main_cst_43 main_v223 (broadcastInDim S100000x32 ![] bcast_S_S100000x32)
  :: StableHlo.binary main_v223 main_v222 main_v224 (addf)
  :: StableHlo.binary main_v173 main_arg16 main_v225 (fun l r => Host.dotGeneral dot_S100000x32_S32x32_S100000x32_1_0_0_1_n_n none l r)
  :: StableHlo.unary main_arg4 main_v226 (extractStridedSlice S1x1600000 ![0, 0] · slices_S2x1600000_S1x1600000_0_0)
  :: StableHlo.reshape main_v226 main_v227 rfl shapeCasts_S1x1600000_S1600000
  :: StableHlo.unary main_arg4 main_v228 (extractStridedSlice S1x1600000 ![1, 0] · slices_S2x1600000_S1x1600000_1_0)
  :: StableHlo.reshape main_v228 main_v229 rfl shapeCasts_S1x1600000_S1600000
  :: StableHlo.nullary main_v230 (iotaInDim S100000 32 0)
  :: StableHlo.binary main_v227 main_v230 main_v231 (fun a b => concatenate S1700000 0 [⟨S1600000, a⟩, ⟨S100000, b⟩] concatenates_S1600000_S100000_S1700000_d0)
  :: StableHlo.binary main_v229 main_v230 main_v232 (fun a b => concatenate S1700000 0 [⟨S1600000, a⟩, ⟨S100000, b⟩] concatenates_S1600000_S100000_S1700000_d0)
  :: StableHlo.nullary main_cst_44 (constant S_ .f32 0x3F800000#32)
  :: StableHlo.unary main_cst_44 main_v233 (broadcastInDim S100000 ![] bcast_S_S100000)
  :: StableHlo.binary main_arg7 main_v233 main_v234 (fun a b => concatenate S1700000 0 [⟨S1600000, a⟩, ⟨S100000, b⟩] concatenates_S1600000_S100000_S1700000_d0)
  :: StableHlo.nullary main_cst_45 (constant S_ .f32 0x00000000#32)
  :: StableHlo.unary main_cst_45 main_v235 (broadcastInDim S100000 ![] bcast_S_S100000)
  :: StableHlo.unary main_v232 main_v236 (broadcastInDim S1700000x1 ![0] bcast_S1700000_S1700000x1_0)
  :: StableHlo.ternary main_v235 main_v236 main_v234 main_v237 (fun x i u => Host.scatterAdd scatter_S100000_S1700000x1_S1700000_n_0_0_1 x i u)
  :: StableHlo.nullary main_cst_46 (constant S_ .f32 0x00000000#32)
  :: StableHlo.unary main_cst_46 main_v238 (broadcastInDim S100000 ![] bcast_S_S100000)
  :: StableHlo.binary main_v237 main_v238 main_v239 (cmpf .ogt)
  :: StableHlo.unary main_v237 main_v240 (Host.rsqrt)
  :: StableHlo.nullary main_cst_47 (constant S_ .f32 0x00000000#32)
  :: [] )

abbrev part4_ops1 : List (HloOp τ sig (Elt F)) :=
  [ StableHlo.TRef.unary (.of main_cst_47) (.of main_call10_v0) id,
    StableHlo.TRef.unary (.of main_call10_v0) (.of main_call10_v1) (broadcastInDim S100000 ![] bcast_S_S100000),
    StableHlo.TRef.ternary (.of main_v239) (.of main_v240) (.of main_call10_v1) (.of main_v241) select ]

abbrev part4_ops2 : List (HloOp τ sig (Elt F)) :=
  [ StableHlo.nullary main_c_48 (constantI S_ 32 0#32),
    StableHlo.unary main_c_48 main_v242 (broadcastInDim S1700000 ![] bcast_S_S1700000),
    StableHlo.binary main_v231 main_v242 main_v243 (cmpi .slt),
    StableHlo.nullary main_c_49 (constantI S_ 32 100000#32),
    StableHlo.unary main_c_49 main_v244 (broadcastInDim S1700000 ![] bcast_S_S1700000),
    StableHlo.binary main_v231 main_v244 main_v245 (addi),
    StableHlo.ternary main_v243 main_v245 main_v231 main_v246 (select),
    StableHlo.unary main_v246 main_v247 (broadcastInDim S1700000x1 ![0] bcast_S1700000_S1700000x1_0) ]

abbrev part5_ops0 : List (HloOp τ sig (Elt F)) :=
  ( StableHlo.binary main_v241 main_v247 main_v248 (fun x i => Host.gather gather_S100000_S1700000x1_S1700000_n_0_n_n_0_1_1 x i)
  :: StableHlo.binary main_v248 main_v234 main_v249 (mulf)
  :: StableHlo.nullary main_c_50 (constantI S_ 32 0#32)
  :: StableHlo.unary main_c_50 main_v250 (broadcastInDim S1700000 ![] bcast_S_S1700000)
  :: StableHlo.binary main_v232 main_v250 main_v251 (cmpi .slt)
  :: StableHlo.nullary main_c_51 (constantI S_ 32 100000#32)
  :: StableHlo.unary main_c_51 main_v252 (broadcastInDim S1700000 ![] bcast_S_S1700000)
  :: StableHlo.binary main_v232 main_v252 main_v253 (addi)
  :: StableHlo.ternary main_v251 main_v253 main_v232 main_v254 (select)
  :: StableHlo.unary main_v254 main_v255 (broadcastInDim S1700000x1 ![0] bcast_S1700000_S1700000x1_0)
  :: StableHlo.binary main_v241 main_v255 main_v256 (fun x i => Host.gather gather_S100000_S1700000x1_S1700000_n_0_n_n_0_1_1 x i)
  :: StableHlo.binary main_v249 main_v256 main_v257 (mulf)
  :: StableHlo.unary main_v257 main_v258 (broadcastInDim S1700000x1 ![0] bcast_S1700000_S1700000x1_0)
  :: StableHlo.nullary main_c_52 (constantI S_ 32 0#32)
  :: StableHlo.unary main_c_52 main_v259 (broadcastInDim S1700000 ![] bcast_S_S1700000)
  :: StableHlo.binary main_v231 main_v259 main_v260 (cmpi .slt)
  :: StableHlo.nullary main_c_53 (constantI S_ 32 100000#32)
  :: StableHlo.unary main_c_53 main_v261 (broadcastInDim S1700000 ![] bcast_S_S1700000)
  :: StableHlo.binary main_v231 main_v261 main_v262 (addi)
  :: StableHlo.ternary main_v260 main_v262 main_v231 main_v263 (select)
  :: StableHlo.unary main_v263 main_v264 (broadcastInDim S1700000x1 ![0] bcast_S1700000_S1700000x1_0)
  :: StableHlo.binary main_v225 main_v264 main_v265 (fun x i => Host.gather gather_S100000x32_S1700000x1_S1700000x32_1_0_n_n_0_1_132 x i)
  :: StableHlo.unary main_v258 main_v266 (broadcastInDim S1700000x32 ![0, 1] bcast_S1700000x1_S1700000x32_0_1)
  :: StableHlo.binary main_v266 main_v265 main_v267 (mulf)
  :: StableHlo.nullary main_cst_54 (constant S_ .f32 0x00000000#32)
  :: StableHlo.unary main_cst_54 main_v268 (broadcastInDim S100000x32 ![] bcast_S_S100000x32)
  :: StableHlo.unary main_v232 main_v269 (broadcastInDim S1700000x1 ![0] bcast_S1700000_S1700000x1_0)
  :: StableHlo.ternary main_v268 main_v269 main_v267 main_v270 (fun x i u => Host.scatterAdd scatter_S100000x32_S1700000x1_S1700000x32_1_0_0_1 x i u)
  :: StableHlo.unary main_arg19 main_v271 (broadcastInDim S1x32 ![1] bcast_S32_S1x32_1)
  :: StableHlo.unary main_v271 main_v272 (broadcastInDim S100000x32 ![0, 1] bcast_S1x32_S100000x32_0_1)
  :: StableHlo.binary main_v270 main_v272 main_v273 (addf)
  :: StableHlo.binary main_v224 main_v273 main_v274 (addf)
  :: StableHlo.binary main_v173 main_arg17 main_v275 (fun l r => Host.dotGeneral dot_S100000x32_S32x32_S100000x32_1_0_0_1_n_n none l r)
  :: StableHlo.unary main_arg5 main_v276 (extractStridedSlice S1x1600000 ![0, 0] · slices_S2x1600000_S1x1600000_0_0)
  :: StableHlo.reshape main_v276 main_v277 rfl shapeCasts_S1x1600000_S1600000
  :: StableHlo.unary main_arg5 main_v278 (extractStridedSlice S1x1600000 ![1, 0] · slices_S2x1600000_S1x1600000_1_0)
  :: StableHlo.reshape main_v278 main_v279 rfl shapeCasts_S1x1600000_S1600000
  :: StableHlo.nullary main_v280 (iotaInDim S100000 32 0)
  :: StableHlo.binary main_v277 main_v280 main_v281 (fun a b => concatenate S1700000 0 [⟨S1600000, a⟩, ⟨S100000, b⟩] concatenates_S1600000_S100000_S1700000_d0)
  :: StableHlo.binary main_v279 main_v280 main_v282 (fun a b => concatenate S1700000 0 [⟨S1600000, a⟩, ⟨S100000, b⟩] concatenates_S1600000_S100000_S1700000_d0)
  :: StableHlo.nullary main_cst_55 (constant S_ .f32 0x3F800000#32)
  :: StableHlo.unary main_cst_55 main_v283 (broadcastInDim S100000 ![] bcast_S_S100000)
  :: StableHlo.binary main_arg8 main_v283 main_v284 (fun a b => concatenate S1700000 0 [⟨S1600000, a⟩, ⟨S100000, b⟩] concatenates_S1600000_S100000_S1700000_d0)
  :: StableHlo.nullary main_cst_56 (constant S_ .f32 0x00000000#32)
  :: StableHlo.unary main_cst_56 main_v285 (broadcastInDim S100000 ![] bcast_S_S100000)
  :: StableHlo.unary main_v282 main_v286 (broadcastInDim S1700000x1 ![0] bcast_S1700000_S1700000x1_0)
  :: StableHlo.ternary main_v285 main_v286 main_v284 main_v287 (fun x i u => Host.scatterAdd scatter_S100000_S1700000x1_S1700000_n_0_0_1 x i u)
  :: StableHlo.nullary main_cst_57 (constant S_ .f32 0x00000000#32)
  :: StableHlo.unary main_cst_57 main_v288 (broadcastInDim S100000 ![] bcast_S_S100000)
  :: StableHlo.binary main_v287 main_v288 main_v289 (cmpf .ogt)
  :: StableHlo.unary main_v287 main_v290 (Host.rsqrt)
  :: StableHlo.nullary main_cst_58 (constant S_ .f32 0x00000000#32)
  :: [] )

abbrev part5_ops1 : List (HloOp τ sig (Elt F)) :=
  [ StableHlo.TRef.unary (.of main_cst_58) (.of main_call11_v0) id,
    StableHlo.TRef.unary (.of main_call11_v0) (.of main_call11_v1) (broadcastInDim S100000 ![] bcast_S_S100000),
    StableHlo.TRef.ternary (.of main_v289) (.of main_v290) (.of main_call11_v1) (.of main_v291) select ]

abbrev part5_ops2 : List (HloOp τ sig (Elt F)) :=
  [ StableHlo.nullary main_c_59 (constantI S_ 32 0#32),
    StableHlo.unary main_c_59 main_v292 (broadcastInDim S1700000 ![] bcast_S_S1700000),
    StableHlo.binary main_v281 main_v292 main_v293 (cmpi .slt),
    StableHlo.nullary main_c_60 (constantI S_ 32 100000#32),
    StableHlo.unary main_c_60 main_v294 (broadcastInDim S1700000 ![] bcast_S_S1700000),
    StableHlo.binary main_v281 main_v294 main_v295 (addi),
    StableHlo.ternary main_v293 main_v295 main_v281 main_v296 (select) ]

abbrev part6_ops0 : List (HloOp τ sig (Elt F)) :=
  ( StableHlo.unary main_v296 main_v297 (broadcastInDim S1700000x1 ![0] bcast_S1700000_S1700000x1_0)
  :: StableHlo.binary main_v291 main_v297 main_v298 (fun x i => Host.gather gather_S100000_S1700000x1_S1700000_n_0_n_n_0_1_1 x i)
  :: StableHlo.binary main_v298 main_v284 main_v299 (mulf)
  :: StableHlo.nullary main_c_61 (constantI S_ 32 0#32)
  :: StableHlo.unary main_c_61 main_v300 (broadcastInDim S1700000 ![] bcast_S_S1700000)
  :: StableHlo.binary main_v282 main_v300 main_v301 (cmpi .slt)
  :: StableHlo.nullary main_c_62 (constantI S_ 32 100000#32)
  :: StableHlo.unary main_c_62 main_v302 (broadcastInDim S1700000 ![] bcast_S_S1700000)
  :: StableHlo.binary main_v282 main_v302 main_v303 (addi)
  :: StableHlo.ternary main_v301 main_v303 main_v282 main_v304 (select)
  :: StableHlo.unary main_v304 main_v305 (broadcastInDim S1700000x1 ![0] bcast_S1700000_S1700000x1_0)
  :: StableHlo.binary main_v291 main_v305 main_v306 (fun x i => Host.gather gather_S100000_S1700000x1_S1700000_n_0_n_n_0_1_1 x i)
  :: StableHlo.binary main_v299 main_v306 main_v307 (mulf)
  :: StableHlo.unary main_v307 main_v308 (broadcastInDim S1700000x1 ![0] bcast_S1700000_S1700000x1_0)
  :: StableHlo.nullary main_c_63 (constantI S_ 32 0#32)
  :: StableHlo.unary main_c_63 main_v309 (broadcastInDim S1700000 ![] bcast_S_S1700000)
  :: StableHlo.binary main_v281 main_v309 main_v310 (cmpi .slt)
  :: StableHlo.nullary main_c_64 (constantI S_ 32 100000#32)
  :: StableHlo.unary main_c_64 main_v311 (broadcastInDim S1700000 ![] bcast_S_S1700000)
  :: StableHlo.binary main_v281 main_v311 main_v312 (addi)
  :: StableHlo.ternary main_v310 main_v312 main_v281 main_v313 (select)
  :: StableHlo.unary main_v313 main_v314 (broadcastInDim S1700000x1 ![0] bcast_S1700000_S1700000x1_0)
  :: StableHlo.binary main_v275 main_v314 main_v315 (fun x i => Host.gather gather_S100000x32_S1700000x1_S1700000x32_1_0_n_n_0_1_132 x i)
  :: StableHlo.unary main_v308 main_v316 (broadcastInDim S1700000x32 ![0, 1] bcast_S1700000x1_S1700000x32_0_1)
  :: StableHlo.binary main_v316 main_v315 main_v317 (mulf)
  :: StableHlo.nullary main_cst_65 (constant S_ .f32 0x00000000#32)
  :: StableHlo.unary main_cst_65 main_v318 (broadcastInDim S100000x32 ![] bcast_S_S100000x32)
  :: StableHlo.unary main_v282 main_v319 (broadcastInDim S1700000x1 ![0] bcast_S1700000_S1700000x1_0)
  :: StableHlo.ternary main_v318 main_v319 main_v317 main_v320 (fun x i u => Host.scatterAdd scatter_S100000x32_S1700000x1_S1700000x32_1_0_0_1 x i u)
  :: StableHlo.unary main_arg20 main_v321 (broadcastInDim S1x32 ![1] bcast_S32_S1x32_1)
  :: StableHlo.unary main_v321 main_v322 (broadcastInDim S100000x32 ![0, 1] bcast_S1x32_S100000x32_0_1)
  :: StableHlo.binary main_v320 main_v322 main_v323 (addf)
  :: StableHlo.binary main_v274 main_v323 main_v324 (addf)
  :: [] )

abbrev part0_lists : List (List (HloOp τ sig (Elt F))) :=
  [part0_ops0, part0_ops1, part0_ops2]

abbrev part1_lists : List (List (HloOp τ sig (Elt F))) :=
  [part1_ops0, part1_ops1, part1_ops2, part1_ops3, part1_ops4, part1_ops5, part1_ops6]

abbrev part2_lists : List (List (HloOp τ sig (Elt F))) :=
  [part2_ops0, part2_ops1, part2_ops2, part2_ops3, part2_ops4, part2_ops5, part2_ops6, part2_ops7]

abbrev part3_lists : List (List (HloOp τ sig (Elt F))) :=
  [part3_ops0, part3_ops1, part3_ops2, part3_ops3, part3_ops4, part3_ops5, part3_ops6, part3_ops7]

abbrev part4_lists : List (List (HloOp τ sig (Elt F))) :=
  [part4_ops0, part4_ops1, part4_ops2]

abbrev part5_lists : List (List (HloOp τ sig (Elt F))) :=
  [part5_ops0, part5_ops1, part5_ops2]

abbrev part6_lists : List (List (HloOp τ sig (Elt F))) :=
  [part6_ops0]

abbrev refOps : List (HloOp τ sig (Elt F)) :=
  part0_ops0 ++ (part0_ops1 ++ (part0_ops2 ++ (part1_ops0 ++ (part1_ops1 ++ (part1_ops2 ++ (part1_ops3 ++ (part1_ops4 ++ (part1_ops5 ++ (part1_ops6 ++ (part2_ops0 ++ (part2_ops1 ++ (part2_ops2 ++ (part2_ops3 ++ (part2_ops4 ++ (part2_ops5 ++ (part2_ops6 ++ (part2_ops7 ++ (part3_ops0 ++ (part3_ops1 ++ (part3_ops2 ++ (part3_ops3 ++ (part3_ops4 ++ (part3_ops5 ++ (part3_ops6 ++ (part3_ops7 ++ (part4_ops0 ++ (part4_ops1 ++ (part4_ops2 ++ (part5_ops0 ++ (part5_ops1 ++ (part5_ops2 ++ (part6_ops0))))))))))))))))))))))))))))))))

end Cert.ReferenceIdeal.Run

end
-- ==== Proof.RefRun.lean ====
import proofs.«426271_j85796266705527_4_alg».proof.Proof.RefOps

set_option maxRecDepth 1700

noncomputable section

namespace Cert.ReferenceIdeal.Run

open Cert.ReferenceIdeal Idealize.ShloMosaic Idealize.ShloMosaic.TcCoe Idealize.SL.Sem

variable {F : FTy → Type} [FloatOps F] [Facts]

theorem chain_map_seq {n : Nat} {T : Topo} {s : RefSig} {V : EltTy → Type} {Lb : Labels} (L : List (List (HloOp T s V))) :
    (Pipeline.chain (L.map fun l => StableHlo.seq l) : Prog (TpuEff n T s V Lb .tc) PUnit) = StableHlo.seq L.flatten := by
  induction L with
  | nil => rfl
  | cons l L ih => rw [List.map_cons, Pipeline.chain_cons, ih, List.flatten_cons, StableHlo.seq_append]

/-- Every element satisfies `p`, as an inductive family so that a literal list is walked by its constructors. -/
inductive All {α : Type} (p : α → Prop) : List α → Prop
  | nil : All p []
  | cons {a : α} {l : List α} : p a → All p l → All p (a :: l)

theorem All.mem {α : Type} {p : α → Prop} {l : List α} (h : All p l) : ∀ a ∈ l, p a := by
  induction h with
  | nil => exact fun _ h => absurd h List.not_mem_nil
  | cons ha _ ih => exact fun a h => (List.mem_cons.1 h).elim (fun e => e ▸ ha) (ih a)

theorem All.flatten {α : Type} {p : α → Prop} {L : List (List α)} (h : All (All p) L) : L.flatten.Forall p :=
  List.forall_iff_forall_mem.2 fun a ha =>
    let ⟨l, hl, hal⟩ := List.mem_flatten.1 ha
    (h.mem l hl).mem a hal

theorem part0_chain (c : Dev nD) : main_part0 (F := F) c = (Pipeline.chainK
  [ StableHlo.seq part0_ops0,
    StableHlo.seq part0_ops1 ]
  (StableHlo.seq part0_ops2) : Prog (TpuEff nD τ sig (Elt F) (Pipeline.Sig Λ₀ (Fin 0) fun p => (pcfgs (F := F) p).Adm) .tc) PUnit) := by
  chain_rfl

theorem part1_chain (c : Dev nD) : main_part1 (F := F) c = (Pipeline.chainK
  [ StableHlo.seq part1_ops0,
    StableHlo.seq part1_ops1,
    StableHlo.seq part1_ops2,
    StableHlo.seq part1_ops3,
    StableHlo.seq part1_ops4,
    StableHlo.seq part1_ops5 ]
  (StableHlo.seq part1_ops6) : Prog (TpuEff nD τ sig (Elt F) (Pipeline.Sig Λ₀ (Fin 0) fun p => (pcfgs (F := F) p).Adm) .tc) PUnit) := by
  chain_rfl

theorem part2_chain (c : Dev nD) : main_part2 (F := F) c = (Pipeline.chainK
  [ StableHlo.seq part2_ops0,
    StableHlo.seq part2_ops1,
    StableHlo.seq part2_ops2,
    StableHlo.seq part2_ops3,
    StableHlo.seq part2_ops4,
    StableHlo.seq part2_ops5,
    StableHlo.seq part2_ops6 ]
  (StableHlo.seq part2_ops7) : Prog (TpuEff nD τ sig (Elt F) (Pipeline.Sig Λ₀ (Fin 0) fun p => (pcfgs (F := F) p).Adm) .tc) PUnit) := by
  chain_rfl

theorem part3_chain (c : Dev nD) : main_part3 (F := F) c = (Pipeline.chainK
  [ StableHlo.seq part3_ops0,
    StableHlo.seq part3_ops1,
    StableHlo.seq part3_ops2,
    StableHlo.seq part3_ops3,
    StableHlo.seq part3_ops4,
    StableHlo.seq part3_ops5,
    StableHlo.seq part3_ops6 ]
  (StableHlo.seq part3_ops7) : Prog (TpuEff nD τ sig (Elt F) (Pipeline.Sig Λ₀ (Fin 0) fun p => (pcfgs (F := F) p).Adm) .tc) PUnit) := by
  chain_rfl

theorem part4_chain (c : Dev nD) : main_part4 (F := F) c = (Pipeline.chainK
  [ StableHlo.seq part4_ops0,
    StableHlo.seq part4_ops1 ]
  (StableHlo.seq part4_ops2) : Prog (TpuEff nD τ sig (Elt F) (Pipeline.Sig Λ₀ (Fin 0) fun p => (pcfgs (F := F) p).Adm) .tc) PUnit) := by
  chain_rfl

theorem part5_chain (c : Dev nD) : main_part5 (F := F) c = (Pipeline.chainK
  [ StableHlo.seq part5_ops0,
    StableHlo.seq part5_ops1 ]
  (StableHlo.seq part5_ops2) : Prog (TpuEff nD τ sig (Elt F) (Pipeline.Sig Λ₀ (Fin 0) fun p => (pcfgs (F := F) p).Adm) .tc) PUnit) := by
  chain_rfl

theorem part6_chain (c : Dev nD) : main_part6 (F := F) c = (Pipeline.chain
  [ StableHlo.seq part6_ops0 ] : Prog (TpuEff nD τ sig (Elt F) (Pipeline.Sig Λ₀ (Fin 0) fun p => (pcfgs (F := F) p).Adm) .tc) PUnit) := by
  chain_rfl

theorem main_chain (c : Dev nD) : main (F := F) c = (Pipeline.chain
  [ StableHlo.seq part0_ops0,
    StableHlo.seq part0_ops1,
    StableHlo.seq part0_ops2,
    StableHlo.seq part1_ops0,
    StableHlo.seq part1_ops1,
    StableHlo.seq part1_ops2,
    StableHlo.seq part1_ops3,
    StableHlo.seq part1_ops4,
    StableHlo.seq part1_ops5,
    StableHlo.seq part1_ops6,
    StableHlo.seq part2_ops0,
    StableHlo.seq part2_ops1,
    StableHlo.seq part2_ops2,
    StableHlo.seq part2_ops3,
    StableHlo.seq part2_ops4,
    StableHlo.seq part2_ops5,
    StableHlo.seq part2_ops6,
    StableHlo.seq part2_ops7,
    StableHlo.seq part3_ops0,
    StableHlo.seq part3_ops1,
    StableHlo.seq part3_ops2,
    StableHlo.seq part3_ops3,
    StableHlo.seq part3_ops4,
    StableHlo.seq part3_ops5,
    StableHlo.seq part3_ops6,
    StableHlo.seq part3_ops7,
    StableHlo.seq part4_ops0,
    StableHlo.seq part4_ops1,
    StableHlo.seq part4_ops2,
    StableHlo.seq part5_ops0,
    StableHlo.seq part5_ops1,
    StableHlo.seq part5_ops2,
    StableHlo.seq part6_ops0 ] : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c >>= fun _ => main_part3 (F := F) c >>= fun _ => main_part4 (F := F) c >>= fun _ => main_part5 (F := F) c >>= fun _ => main_part6 (F := F) c) = _
  rewrite [part6_chain, part5_chain, Pipeline.chainK_bind_chain, part4_chain, Pipeline.chainK_bind_chain, part3_chain, Pipeline.chainK_bind_chain, part2_chain, Pipeline.chainK_bind_chain, part1_chain, Pipeline.chainK_bind_chain, part0_chain, Pipeline.chainK_bind_chain]
  chain_rfl

abbrev lists : List (List (HloOp τ sig (Elt F))) :=
  [ part0_ops0, part0_ops1, part0_ops2,
    part1_ops0, part1_ops1, part1_ops2, part1_ops3, part1_ops4, part1_ops5, part1_ops6,
    part2_ops0, part2_ops1, part2_ops2, part2_ops3, part2_ops4, part2_ops5, part2_ops6, part2_ops7,
    part3_ops0, part3_ops1, part3_ops2, part3_ops3, part3_ops4, part3_ops5, part3_ops6, part3_ops7,
    part4_ops0, part4_ops1, part4_ops2,
    part5_ops0, part5_ops1, part5_ops2,
    part6_ops0 ]

theorem flatten_lists : (lists (F := F)).flatten = refOps := by
  simp only [lists, refOps, List.flatten_cons, List.flatten_nil, List.append_nil]

theorem main_eq (c : Dev nD) : main (F := F) c = StableHlo.seq (refOps (F := F)) := by
  rw [main_chain c, ← flatten_lists]
  exact chain_map_seq lists

/-- Every operation touches TensorCore references only and allocates nothing. -/
theorem lists_ok : All (All fun op => op.bufs ⊆ StableHlo.tcRefs τ sig ∧ op.fresh = ∅) (lists (F := F)) := by
  repeat' constructor
  all_goals with_reducible first | exact StableHlo.nullary_bufs_sub .. | exact StableHlo.unary_bufs_sub .. | exact StableHlo.binary_bufs_sub .. | exact StableHlo.ternary_bufs_sub .. | exact StableHlo.reshape_bufs_sub ..

theorem refOps_sub : (refOps (F := F)).Forall fun op => op.bufs ⊆ StableHlo.tcRefs τ sig :=
  flatten_lists (F := F) ▸ List.forall_iff_forall_mem.2 fun a ha => (List.forall_iff_forall_mem.1 (lists_ok (F := F)).flatten a ha).1

theorem refOps_fresh : (refOps (F := F)).Forall fun op => op.fresh = ∅ :=
  flatten_lists (F := F) ▸ List.forall_iff_forall_mem.2 fun a ha => (List.forall_iff_forall_mem.1 (lists_ok (F := F)).flatten a ha).2

theorem scopedRefs_eq : (Finset.univ.filter fun b : Ref sig .tc => b.isScoped) = ∅ :=
  Finset.filter_eq_empty_iff.2 fun b _ => by
    obtain ⟨sp, i, h⟩ := b
    cases sp <;> first | (exact Bool.false_ne_true) | (exact absurd h (by decide)) | (exact i.elim0)

theorem scopedSems_eq : (Finset.univ.filter fun sm : SemLoc sig => sm.isScoped .tc) = ∅ := by decide

theorem run (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = StableHlo.after (refOps (F := F)) (StableHlo.launchContents m d) (Proc.devRef .tc b) :=
  StableHlo.run_seq scopedRefs_eq scopedSems_eq defs main (fun _ => refOps) main_eq (fun _ => refOps_sub) m ρ
    (fun _ => List.forall_iff_forall_mem.1 refOps_fresh)

end Cert.ReferenceIdeal.Run

end
-- ==== Proof.RefRead0.lean ====
import proofs.«426271_j85796266705527_4_alg».proof.Proof.RefOps
import proofs.«426271_j85796266705527_4_alg».proof.Proof.SpecT
import proofs.«426271_j85796266705527_4_alg».proof.Proof.Gen.ReferenceIdeal
import Idealize.ShloMosaic.Lib.StableHlo.Run

set_option maxRecDepth 16384

noncomputable section

namespace Cert.ReferenceIdeal.RefRead

open Cert.ReferenceIdeal Cert.ReferenceIdeal.Run Cert.ReferenceIdeal.Gen
open Idealize.ShloMosaic Idealize.ShloMosaic.TcCoe Idealize.SL.Sem
open Idealize.ShloMosaic.StableHlo (after after_cons after_nil)
open Cert.ReferenceIdeal.Facts₀ Cert.ReferenceIdeal.Facts Cert.SpecT

abbrev Vl : Type := Valuation τ sig (Elt Ideal)

theorem after_append (l₁ l₂ : List (HloOp τ sig (Elt Ideal))) (V : Vl) :
    after (l₁ ++ l₂) V = after l₂ (after l₁ V) := by
  induction l₁ generalizing V with
  | nil => rfl
  | cons op l ih => simp only [List.cons_append, after_cons, ih]

theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

abbrev argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

def argsOfV (V : Vl) : Args Ideal :=
  ⟨V (Proc.devRef .tc main_arg0),
   V (Proc.devRef .tc main_arg1),
   V (Proc.devRef .tc main_arg2),
   V (Proc.devRef .tc main_arg3),
   V (Proc.devRef .tc main_arg4),
   V (Proc.devRef .tc main_arg5),
   V (Proc.devRef .tc main_arg6),
   V (Proc.devRef .tc main_arg7),
   V (Proc.devRef .tc main_arg8),
   V (Proc.devRef .tc main_arg9),
   V (Proc.devRef .tc main_arg10),
   V (Proc.devRef .tc main_arg11),
   V (Proc.devRef .tc main_arg12),
   V (Proc.devRef .tc main_arg13),
   V (Proc.devRef .tc main_arg14),
   V (Proc.devRef .tc main_arg15),
   V (Proc.devRef .tc main_arg16),
   V (Proc.devRef .tc main_arg17),
   V (Proc.devRef .tc main_arg18),
   V (Proc.devRef .tc main_arg19),
   V (Proc.devRef .tc main_arg20),
   V (Proc.devRef .tc main_arg21)⟩

end Cert.ReferenceIdeal.RefRead

end
-- ==== Proof.RefReadW.lean ====
import proofs.«426271_j85796266705527_4_alg».proof.Proof.RefRead0
import proofs.«426271_j85796266705527_4_alg».proof.Proof.RefRun

set_option maxRecDepth 16384

noncomputable section

namespace Cert.ReferenceIdeal.RefRead

open Cert.ReferenceIdeal Cert.ReferenceIdeal.Run Cert.ReferenceIdeal.Gen
open Idealize.ShloMosaic Idealize.ShloMosaic.TcCoe Idealize.SL.Sem
open Idealize.ShloMosaic.StableHlo (after after_cons after_nil)
open Cert.ReferenceIdeal.Facts₀ Cert.ReferenceIdeal.Facts Cert.SpecT

/-- The reference each operation writes, list by list and in order. -/
abbrev Ws : List (List (Ref sig .tc)) :=
  [ [main_v0, main_v1, main_v2, main_v3, main_v4, main_v5, main_v6, main_v7, main_cst, main_v8, main_v9, main_cst_0, main_v10, main_v11, main_v12, main_cst_1, main_v13, main_v14, main_v15, main_cst_2],
    [main_call0_v0, main_call0_v1, main_v16],
    [main_c, main_v17, main_v18, main_c_3, main_v19, main_v20, main_v21, main_v22, main_v23, main_v24, main_c_4, main_v25, main_v26, main_c_5, main_v27, main_v28, main_v29, main_v30, main_v31, main_v32, main_v33, main_c_6, main_v34, main_v35, main_c_7, main_v36, main_v37, main_v38, main_v39, main_v40, main_v41, main_v42, main_cst_8, main_v43, main_v44, main_v45, main_v46, main_v47, main_v48],
    [main_call1_cst, main_call1_v0, main_v49],
    [main_v50],
    [main_call2_cst, main_call2_v0, main_call2_v1, main_call2_cst_0, main_call2_v2, main_call2_v3],
    [main_v51],
    [main_v52, main_v53, main_v54, main_v55, main_v56, main_v57, main_v58, main_v59, main_v60, main_cst_9, main_v61, main_v62, main_cst_10, main_v63, main_v64, main_v65, main_cst_11, main_v66, main_v67, main_v68, main_cst_12],
    [main_call3_v0, main_call3_v1, main_v69],
    [main_c_13, main_v70, main_v71, main_c_14, main_v72, main_v73, main_v74, main_v75, main_v76, main_v77, main_c_15, main_v78, main_v79, main_c_16, main_v80, main_v81, main_v82, main_v83, main_v84, main_v85, main_v86, main_c_17, main_v87, main_v88, main_c_18, main_v89, main_v90, main_v91, main_v92, main_v93, main_v94, main_v95, main_cst_19, main_v96, main_v97],
    [main_v98, main_v99, main_v100, main_v101],
    [main_call4_cst, main_call4_v0, main_v102],
    [main_v103],
    [main_call5_cst, main_call5_v0, main_call5_v1, main_call5_cst_0, main_call5_v2, main_call5_v3],
    [main_v104],
    [main_v105, main_v106, main_v107, main_v108, main_v109, main_v110, main_v111, main_v112, main_v113, main_cst_20, main_v114, main_v115, main_cst_21, main_v116, main_v117, main_v118, main_cst_22, main_v119, main_v120, main_v121, main_cst_23],
    [main_call6_v0, main_call6_v1, main_v122],
    [main_c_24, main_v123, main_v124, main_c_25, main_v125, main_v126, main_v127, main_v128, main_v129, main_v130, main_c_26, main_v131, main_v132, main_c_27, main_v133, main_v134, main_v135, main_v136, main_v137, main_v138, main_v139, main_c_28, main_v140, main_v141, main_c_29, main_v142, main_v143, main_v144, main_v145, main_v146, main_v147],
    [main_v148, main_cst_30, main_v149, main_v150, main_v151, main_v152, main_v153, main_v154],
    [main_call7_cst, main_call7_v0, main_v155],
    [main_v156],
    [main_call8_cst, main_call8_v0, main_call8_v1, main_call8_cst_0, main_call8_v2, main_call8_v3],
    [main_v157],
    [main_v158, main_v159, main_v160, main_v161, main_v162, main_v163, main_v164, main_v165, main_cst_31, main_v166, main_v167, main_v168, main_v169, main_v170, main_v171, main_v172, main_v173, main_v174, main_v175, main_v176, main_v177, main_v178, main_v179, main_v180, main_v181, main_cst_32, main_v182, main_v183, main_cst_33, main_v184, main_v185, main_v186, main_cst_34, main_v187, main_v188, main_v189, main_cst_35],
    [main_call9_v0, main_call9_v1, main_v190],
    [main_c_36, main_v191, main_v192, main_c_37, main_v193, main_v194, main_v195, main_v196, main_v197, main_v198, main_c_38],
    [main_v199, main_v200, main_c_39, main_v201, main_v202, main_v203, main_v204, main_v205, main_v206, main_v207, main_c_40, main_v208, main_v209, main_c_41, main_v210, main_v211, main_v212, main_v213, main_v214, main_v215, main_v216, main_cst_42, main_v217, main_v218, main_v219, main_v220, main_v221, main_v222, main_cst_43, main_v223, main_v224, main_v225, main_v226, main_v227, main_v228, main_v229, main_v230, main_v231, main_v232, main_cst_44, main_v233, main_v234, main_cst_45, main_v235, main_v236, main_v237, main_cst_46, main_v238, main_v239, main_v240, main_cst_47],
    [main_call10_v0, main_call10_v1, main_v241],
    [main_c_48, main_v242, main_v243, main_c_49, main_v244, main_v245, main_v246, main_v247],
    [main_v248, main_v249, main_c_50, main_v250, main_v251, main_c_51, main_v252, main_v253, main_v254, main_v255, main_v256, main_v257, main_v258, main_c_52, main_v259, main_v260, main_c_53, main_v261, main_v262, main_v263, main_v264, main_v265, main_v266, main_v267, main_cst_54, main_v268, main_v269, main_v270, main_v271, main_v272, main_v273, main_v274, main_v275, main_v276, main_v277, main_v278, main_v279, main_v280, main_v281, main_v282, main_cst_55, main_v283, main_v284, main_cst_56, main_v285, main_v286, main_v287, main_cst_57, main_v288, main_v289, main_v290, main_cst_58],
    [main_call11_v0, main_call11_v1, main_v291],
    [main_c_59, main_v292, main_v293, main_c_60, main_v294, main_v295, main_v296],
    [main_v297, main_v298, main_v299, main_c_61, main_v300, main_v301, main_c_62, main_v302, main_v303, main_v304, main_v305, main_v306, main_v307, main_v308, main_c_63, main_v309, main_v310, main_c_64, main_v311, main_v312, main_v313, main_v314, main_v315, main_v316, main_v317, main_cst_65, main_v318, main_v319, main_v320, main_v321, main_v322, main_v323, main_v324] ]

theorem Ws_writes : List.Forall₂ (List.Forall₂ fun op y => op.writes = {Proc.devRef (τ := τ) .tc y}) (lists (F := Ideal)) Ws := by
  repeat' constructor

/-- Aligned lists: every operation's write lies in the list's set of buffers. -/
theorem writes_sub {ops : List (HloOp τ sig (Elt Ideal))} {W : List (Ref sig .tc)}
    (h : List.Forall₂ (fun op y => op.writes = {Proc.devRef (τ := τ) .tc y}) ops W) :
    ops.Forall fun op => op.writes ⊆ (W.map (Proc.devRef (τ := τ) .tc)).toFinset := by
  rw [List.forall_iff_forall_mem]
  induction h with
  | nil => exact fun _ h => absurd h List.not_mem_nil
  | cons hab _ ih =>
    intro op hop
    rcases List.mem_cons.1 hop with rfl | hop
    · exact hab ▸ single_sub List.mem_cons_self
    · refine (ih op hop).trans ?_
      rw [List.map_cons, List.toFinset_cons]
      exact Finset.subset_insert _ _

theorem forall₂_getD {α β : Type} {R : α → β → Prop} {l₁ : List α} {l₂ : List β} (h : List.Forall₂ R l₁ l₂)
    {a : α} {b : β} (hab : R a b) : ∀ k, R (l₁.getD k a) (l₂.getD k b) := by
  induction h with
  | nil => exact fun _ => hab
  | cons h _ ih => exact fun k => match k with
    | 0 => h
    | k + 1 => ih k

/-- The contents after the first k lists. -/
def Stg : Nat → Vl → Vl
  | 0, V => V
  | k + 1, V => after ((lists (F := Ideal)).getD k []) (Stg k V)

theorem after_refOps (V : Vl) : after (refOps (F := Ideal)) V = Stg 33 V := by
  simp only [refOps, List.append_assoc, after_append]
  rfl

/-- A reference that lists a … b-1 do not write holds after b lists what it held after a. -/
theorem carry (a b : Nat) (V : Vl) (r : Ref sig .tc) (h : a ≤ b ∧ ∀ k < b, a ≤ k → r ∉ Ws.getD k []) :
    Stg b V (Proc.devRef .tc r) = Stg a V (Proc.devRef .tc r) := by
  obtain ⟨hab, hr⟩ := h
  induction b, hab using Nat.le_induction with
  | base => rfl
  | succ b hab ih =>
    exact (StableHlo.after_of_writes_sub _ _ (writes_sub (forall₂_getD Ws_writes .nil b)) (hr b (Nat.lt_succ_self b) hab)).trans
      (ih fun k hk => hr k (Nat.lt_succ_of_lt hk))

theorem carry_arg : ∀ r ∈ argRefs, 0 ≤ 33 ∧ ∀ k < 33, 0 ≤ k → r ∉ Ws.getD k [] := by decide +kernel

end Cert.ReferenceIdeal.RefRead

end
-- ==== Proof.RefReadT.lean ====
import proofs.«426271_j85796266705527_4_alg».proof.Proof.RefRead0

set_option maxRecDepth 16384

noncomputable section

namespace Cert.ReferenceIdeal.RefRead

open Cert.ReferenceIdeal Cert.ReferenceIdeal.Run
open Idealize.ShloMosaic Idealize.ShloMosaic.TcCoe Idealize.SL.Sem
open Idealize.ShloMosaic.StableHlo (after after_cons after_nil)
open Cert.ReferenceIdeal.Facts₀ Cert.ReferenceIdeal.Facts Cert.SpecT

def srcT (feat : FVec Ideal S100000x32 .f32) (ei : Ei) : FVec Ideal S1700000x32 .f32 :=
  Host.gather gather_S100000x32_S1700000x1_S1700000x32_1_0_n_n_0_1_132 feat (idxCol (fixT (rowT ei)))

def edgeRows (nrm : FVec Ideal S1700000 .f32) : FVec Ideal S1700000x32 .f32 :=
  broadcastInDim S1700000x32 ![0, 1] bcast_S1700000x1_S1700000x32_0_1
    (broadcastInDim S1700000x1 ![0] bcast_S1700000_S1700000x1_0 nrm)

def updT (feat : FVec Ideal S100000x32 .f32) (ei : Ei) (nrm : FVec Ideal S1700000 .f32) : FVec Ideal S1700000x32 .f32 :=
  mulf (edgeRows nrm) (srcT feat ei)

theorem gssT_eq (feat : FVec Ideal S100000x32 .f32) (ei : Ei) (nrm : FVec Ideal S1700000 .f32) :
    gssT feat ei nrm
      = Host.scatterAdd scatter_S100000x32_S1700000x1_S1700000x32_1_0_0_1 zeros2 (idxCol (colT ei)) (updT feat ei nrm) := rfl

def halfT (ei : Ei) (ea : FVec Ideal S1600000 .f32) : FVec Ideal S1700000 .f32 :=
  mulf (Host.gather gather_S100000_S1700000x1_S1700000_n_0_n_n_0_1_1 (dinvT ei ea) (idxCol (fixT (rowT ei)))) (ewT ea)

theorem normT_eq (ei : Ei) (ea : FVec Ideal S1600000 .f32) :
    normT ei ea
      = mulf (halfT ei ea) (Host.gather gather_S100000_S1700000x1_S1700000_n_0_n_n_0_1_1 (dinvT ei ea) (idxCol (fixT (colT ei)))) := rfl

def csumOf (c1 c2 l3 : FVec Ideal S100000x1 .f32) : FVec Ideal S100000x1 .f32 :=
  addf (addf c1 c2) (Host.exp l3)

def hOf (c1 c2 l3 : FVec Ideal S100000x1 .f32) (e1 e2 e3 : FVec Ideal S100000x32 .f32) : FVec Ideal S100000x32 .f32 :=
  addf (addf (addf zeros2 (mulf (colRows (Host.divf c1 (csumOf c1 c2 l3))) e1))
      (mulf (colRows (Host.divf c2 (csumOf c1 c2 l3))) e2))
    (mulf (colRows (Host.divf (Host.exp l3) (csumOf c1 c2 l3))) e3)

end Cert.ReferenceIdeal.RefRead

end
-- ==== Proof.RefReadL1.lean ====
import proofs.«426271_j85796266705527_4_alg».proof.Proof.RefReadT

set_option maxRecDepth 16384

noncomputable section

namespace Cert.ReferenceIdeal.RefRead

open Cert.ReferenceIdeal Cert.ReferenceIdeal.Run
open Idealize.ShloMosaic Idealize.ShloMosaic.TcCoe Idealize.SL.Sem
open Idealize.ShloMosaic.StableHlo (after after_cons after_nil)
open Cert.ReferenceIdeal.Facts₀ Cert.ReferenceIdeal.Facts Cert.SpecT

theorem L0_main_v0 (W : Vl) (x : FVec Ideal S100000x128 .f32) (w : FVec Ideal S128x32 .f32)
    (hx : W (Proc.devRef .tc main_arg0) = x)
    (hw : W (Proc.devRef .tc main_arg9) = w) :
    after (part0_ops0 (F := Ideal)) W (Proc.devRef .tc main_v0) = Host.dotGeneral dot_S100000x128_S128x32_S100000x32_1_0_0_1_n_n none x w := by
  simp only [part0_ops0]
  after_results
  try rw [hx]
  try rw [hw]
  first | done | rfl

theorem L0_main_v6 (W : Vl) (ei : Ei)
    (hei : W (Proc.devRef .tc main_arg3) = ei) :
    after (part0_ops0 (F := Ideal)) W (Proc.devRef .tc main_v6) = rowT ei := by
  simp only [part0_ops0]
  after_results
  try rw [hei]
  first | done | rfl

theorem L0_main_v7 (W : Vl) (ei : Ei)
    (hei : W (Proc.devRef .tc main_arg3) = ei) :
    after (part0_ops0 (F := Ideal)) W (Proc.devRef .tc main_v7) = colT ei := by
  simp only [part0_ops0]
  after_results
  try rw [hei]
  first | done | rfl

theorem L0_main_v9 (W : Vl) (ea : FVec Ideal S1600000 .f32)
    (hea : W (Proc.devRef .tc main_arg6) = ea) :
    after (part0_ops0 (F := Ideal)) W (Proc.devRef .tc main_v9) = ewT ea := by
  simp only [part0_ops0]
  after_results
  try rw [hea]
  first | done | rfl

theorem L0_main_v14 (W : Vl) (ei : Ei) (ea : FVec Ideal S1600000 .f32)
    (hei : W (Proc.devRef .tc main_arg3) = ei)
    (hea : W (Proc.devRef .tc main_arg6) = ea) :
    after (part0_ops0 (F := Ideal)) W (Proc.devRef .tc main_v14) = cmpf .ogt (degT ei ea) zeros1 := by
  simp only [part0_ops0]
  after_results
  try rw [hei]
  try rw [hea]
  first | done | rfl

theorem L0_main_v15 (W : Vl) (ei : Ei) (ea : FVec Ideal S1600000 .f32)
    (hei : W (Proc.devRef .tc main_arg3) = ei)
    (hea : W (Proc.devRef .tc main_arg6) = ea) :
    after (part0_ops0 (F := Ideal)) W (Proc.devRef .tc main_v15) = Host.rsqrt (degT ei ea) := by
  simp only [part0_ops0]
  after_results
  try rw [hei]
  try rw [hea]
  first | done | rfl

theorem L0_main_cst_2 (W : Vl) :
    after (part0_ops0 (F := Ideal)) W (Proc.devRef .tc main_cst_2) = (constant (F := Ideal) S_ .f32 0x00000000#32) := by
  simp only [part0_ops0]
  after_results
  first | done | rfl

theorem L1_main_v16 (W : Vl) (ei : Ei) (ea : FVec Ideal S1600000 .f32)
    (hcmp : W (Proc.devRef .tc main_v14) = cmpf .ogt (degT ei ea) zeros1)
    (hrsq : W (Proc.devRef .tc main_v15) = Host.rsqrt (degT ei ea))
    (hc : W (Proc.devRef .tc main_cst_2) = (constant (F := Ideal) S_ .f32 0x00000000#32)) :
    after (part0_ops1 (F := Ideal)) W (Proc.devRef .tc main_v16) = dinvT ei ea := by
  simp only [part0_ops1]
  after_results
  simp only [StableHlo.TRef.of, StableHlo.TRef.toBuf, StableHlo.TRef.ofBuf, cast_eq, id_eq]
  try rw [hcmp]
  try rw [hrsq]
  try rw [hc]
  first | done | rfl

theorem L2_main_v48 (W : Vl) (ei : Ei) (ea : FVec Ideal S1600000 .f32) (feat : FVec Ideal S100000x32 .f32) (b : FVec Ideal S32 .f32)
    (hrow : W (Proc.devRef .tc main_v6) = rowT ei)
    (hdinv : W (Proc.devRef .tc main_v16) = dinvT ei ea)
    (hew : W (Proc.devRef .tc main_v9) = ewT ea)
    (hcol : W (Proc.devRef .tc main_v7) = colT ei)
    (hfeat : W (Proc.devRef .tc main_v0) = feat)
    (hb : W (Proc.devRef .tc main_arg12) = b) :
    after (part0_ops2 (F := Ideal)) W (Proc.devRef .tc main_v48) = addf (gssT feat ei (normT ei ea)) (biasRows b) := by
  simp only [part0_ops2]
  after_results_simp
  try rw [hrow]
  try rw [hdinv]
  try rw [hew]
  try rw [hcol]
  try rw [hfeat]
  try rw [hb]
  first | done | rfl

theorem L3_main_v49 (W : Vl) (t : FVec Ideal S100000x32 .f32)
    (ht : W (Proc.devRef .tc main_v48) = t) :
    after (part1_ops0 (F := Ideal)) W (Proc.devRef .tc main_v49) = maximumf t zeros2 := by
  simp only [part1_ops0]
  after_results
  simp only [StableHlo.TRef.of, StableHlo.TRef.toBuf, StableHlo.TRef.ofBuf, cast_eq, id_eq]
  try rw [ht]
  first | done | rfl

theorem L4_main_v50 (W : Vl) (e : FVec Ideal S100000x32 .f32) (a : FVec Ideal S32x1 .f32)
    (he : W (Proc.devRef .tc main_v49) = e)
    (ha : W (Proc.devRef .tc main_arg21) = a) :
    after (part1_ops1 (F := Ideal)) W (Proc.devRef .tc main_v50) = Host.dotGeneral dot_S100000x32_S32x1_S100000x1_1_0_0_1_n_n none e a := by
  simp only [part1_ops1]
  after_results
  try rw [he]
  try rw [ha]
  first | done | rfl

theorem L5_main_call2_v1 (W : Vl) (s : FVec Ideal S100000x1 .f32)
    (hs : W (Proc.devRef .tc main_v50) = s) :
    after (part1_ops2 (F := Ideal)) W (Proc.devRef .tc main_call2_v1) = cmpf .oge s (broadcastInDim S100000x1 ![] bcast_S_S100000x1 (constant (F := Ideal) S_ .f32 0x00000000#32)) := by
  simp only [part1_ops2]
  after_results
  simp only [StableHlo.TRef.of, StableHlo.TRef.toBuf, StableHlo.TRef.ofBuf, cast_eq, id_eq]
  try rw [hs]
  first | done | rfl

theorem L5_main_call2_v3 (W : Vl) (s : FVec Ideal S100000x1 .f32)
    (hs : W (Proc.devRef .tc main_v50) = s) :
    after (part1_ops2 (F := Ideal)) W (Proc.devRef .tc main_call2_v3) = mulf (broadcastInDim S100000x1 ![] bcast_S_S100000x1 (constant (F := Ideal) S_ .f32 0x3C23D70A#32)) s := by
  simp only [part1_ops2]
  after_results
  simp only [StableHlo.TRef.of, StableHlo.TRef.toBuf, StableHlo.TRef.ofBuf, cast_eq, id_eq]
  try rw [hs]
  first | done | rfl

theorem L6_main_v51 (W : Vl) (s : FVec Ideal S100000x1 .f32)
    (hcmp : W (Proc.devRef .tc main_call2_v1) = cmpf .oge s (broadcastInDim S100000x1 ![] bcast_S_S100000x1 (constant (F := Ideal) S_ .f32 0x00000000#32)))
    (hs : W (Proc.devRef .tc main_v50) = s)
    (hmul : W (Proc.devRef .tc main_call2_v3) = mulf (broadcastInDim S100000x1 ![] bcast_S_S100000x1 (constant (F := Ideal) S_ .f32 0x3C23D70A#32)) s) :
    after (part1_ops3 (F := Ideal)) W (Proc.devRef .tc main_v51) = leakyT s := by
  simp only [part1_ops3]
  after_results
  simp only [StableHlo.TRef.of, StableHlo.TRef.toBuf, StableHlo.TRef.ofBuf, cast_eq, id_eq]
  try rw [hcmp]
  try rw [hs]
  try rw [hmul]
  first | done | rfl

theorem L7_main_v52 (W : Vl) (t : FVec Ideal S100000x1 .f32)
    (ht : W (Proc.devRef .tc main_v51) = t) :
    after (part1_ops4 (F := Ideal)) W (Proc.devRef .tc main_v52) = Host.exp t := by
  simp only [part1_ops4]
  after_results
  try rw [ht]
  first | done | rfl

theorem L7_main_v53 (W : Vl) (x : FVec Ideal S100000x128 .f32) (w : FVec Ideal S128x32 .f32)
    (hx : W (Proc.devRef .tc main_arg1) = x)
    (hw : W (Proc.devRef .tc main_arg10) = w) :
    after (part1_ops4 (F := Ideal)) W (Proc.devRef .tc main_v53) = Host.dotGeneral dot_S100000x128_S128x32_S100000x32_1_0_0_1_n_n none x w := by
  simp only [part1_ops4]
  after_results
  try rw [hx]
  try rw [hw]
  first | done | rfl

theorem L7_main_v59 (W : Vl) (ei : Ei)
    (hei : W (Proc.devRef .tc main_arg4) = ei) :
    after (part1_ops4 (F := Ideal)) W (Proc.devRef .tc main_v59) = rowT ei := by
  simp only [part1_ops4]
  after_results
  try rw [hei]
  first | done | rfl

theorem L7_main_v60 (W : Vl) (ei : Ei)
    (hei : W (Proc.devRef .tc main_arg4) = ei) :
    after (part1_ops4 (F := Ideal)) W (Proc.devRef .tc main_v60) = colT ei := by
  simp only [part1_ops4]
  after_results
  try rw [hei]
  first | done | rfl

theorem L7_main_v62 (W : Vl) (ea : FVec Ideal S1600000 .f32)
    (hea : W (Proc.devRef .tc main_arg7) = ea) :
    after (part1_ops4 (F := Ideal)) W (Proc.devRef .tc main_v62) = ewT ea := by
  simp only [part1_ops4]
  after_results
  try rw [hea]
  first | done | rfl

set_option maxHeartbeats 4000000 in
theorem L7_main_v67 (W : Vl) (ei : Ei) (ea : FVec Ideal S1600000 .f32)
    (hei : W (Proc.devRef .tc main_arg4) = ei)
    (hea : W (Proc.devRef .tc main_arg7) = ea) :
    after (part1_ops4 (F := Ideal)) W (Proc.devRef .tc main_v67) = cmpf .ogt (degT ei ea) zeros1 := by
  simp only [part1_ops4]
  after_results
  try rw [hei]
  try rw [hea]
  first | done | rfl

theorem L7_main_v68 (W : Vl) (ei : Ei) (ea : FVec Ideal S1600000 .f32)
    (hei : W (Proc.devRef .tc main_arg4) = ei)
    (hea : W (Proc.devRef .tc main_arg7) = ea) :
    after (part1_ops4 (F := Ideal)) W (Proc.devRef .tc main_v68) = Host.rsqrt (degT ei ea) := by
  simp only [part1_ops4]
  after_results
  try rw [hei]
  try rw [hea]
  first | done | rfl

theorem L7_main_cst_12 (W : Vl) :
    after (part1_ops4 (F := Ideal)) W (Proc.devRef .tc main_cst_12) = (constant (F := Ideal) S_ .f32 0x00000000#32) := by
  simp only [part1_ops4]
  after_results
  first | done | rfl

theorem L8_main_v69 (W : Vl) (ei : Ei) (ea : FVec Ideal S1600000 .f32)
    (hcmp : W (Proc.devRef .tc main_v67) = cmpf .ogt (degT ei ea) zeros1)
    (hrsq : W (Proc.devRef .tc main_v68) = Host.rsqrt (degT ei ea))
    (hc : W (Proc.devRef .tc main_cst_12) = (constant (F := Ideal) S_ .f32 0x00000000#32)) :
    after (part1_ops5 (F := Ideal)) W (Proc.devRef .tc main_v69) = dinvT ei ea := by
  simp only [part1_ops5]
  after_results
  simp only [StableHlo.TRef.of, StableHlo.TRef.toBuf, StableHlo.TRef.ofBuf, cast_eq, id_eq]
  try rw [hcmp]
  try rw [hrsq]
  try rw [hc]
  first | done | rfl

theorem L9_main_v95 (W : Vl) (ei : Ei) (ea : FVec Ideal S1600000 .f32) (feat : FVec Ideal S100000x32 .f32)
    (hrow : W (Proc.devRef .tc main_v59) = rowT ei)
    (hdinv : W (Proc.devRef .tc main_v69) = dinvT ei ea)
    (hew : W (Proc.devRef .tc main_v62) = ewT ea)
    (hcol : W (Proc.devRef .tc main_v60) = colT ei)
    (hfeat : W (Proc.devRef .tc main_v53) = feat) :
    after (part1_ops6 (F := Ideal)) W (Proc.devRef .tc main_v95) = updT feat ei (normT ei ea) := by
  simp only [part1_ops6]
  after_results_simp
  try rw [hrow]
  try rw [hdinv]
  try rw [hew]
  try rw [hcol]
  try rw [hfeat]
  first | done | rfl

theorem L9_main_v96 (W : Vl) :
    after (part1_ops6 (F := Ideal)) W (Proc.devRef .tc main_v96) = zeros2 (F := Ideal) := by
  simp only [part1_ops6]
  after_results_simp
  first | done | rfl

theorem L9_main_v97 (W : Vl) (ei : Ei)
    (hcol : W (Proc.devRef .tc main_v60) = colT ei) :
    after (part1_ops6 (F := Ideal)) W (Proc.devRef .tc main_v97) = idxCol (colT ei) := by
  simp only [part1_ops6]
  after_results_simp
  try rw [hcol]
  first | done | rfl

theorem L10_main_v101 (W : Vl) (ei : Ei) (ea : FVec Ideal S1600000 .f32) (feat : FVec Ideal S100000x32 .f32) (b : FVec Ideal S32 .f32)
    (hz : W (Proc.devRef .tc main_v96) = zeros2 (F := Ideal))
    (hci : W (Proc.devRef .tc main_v97) = idxCol (colT ei))
    (hupd : W (Proc.devRef .tc main_v95) = updT feat ei (normT ei ea))
    (hb : W (Proc.devRef .tc main_arg13) = b) :
    after (part2_ops0 (F := Ideal)) W (Proc.devRef .tc main_v101) = addf (gssT feat ei (normT ei ea)) (biasRows b) := by
  simp only [part2_ops0]
  after_results
  try rw [hz]
  try rw [hci]
  try rw [hupd]
  try rw [hb]
  first | done | rfl

theorem L11_main_v102 (W : Vl) (t : FVec Ideal S100000x32 .f32)
    (ht : W (Proc.devRef .tc main_v101) = t) :
    after (part2_ops1 (F := Ideal)) W (Proc.devRef .tc main_v102) = maximumf t zeros2 := by
  simp only [part2_ops1]
  after_results
  simp only [StableHlo.TRef.of, StableHlo.TRef.toBuf, StableHlo.TRef.ofBuf, cast_eq, id_eq]
  try rw [ht]
  first | done | rfl

theorem L12_main_v103 (W : Vl) (e : FVec Ideal S100000x32 .f32) (a : FVec Ideal S32x1 .f32)
    (he : W (Proc.devRef .tc main_v102) = e)
    (ha : W (Proc.devRef .tc main_arg21) = a) :
    after (part2_ops2 (F := Ideal)) W (Proc.devRef .tc main_v103) = Host.dotGeneral dot_S100000x32_S32x1_S100000x1_1_0_0_1_n_n none e a := by
  simp only [part2_ops2]
  after_results
  try rw [he]
  try rw [ha]
  first | done | rfl

theorem L13_main_call5_v1 (W : Vl) (s : FVec Ideal S100000x1 .f32)
    (hs : W (Proc.devRef .tc main_v103) = s) :
    after (part2_ops3 (F := Ideal)) W (Proc.devRef .tc main_call5_v1) = cmpf .oge s (broadcastInDim S100000x1 ![] bcast_S_S100000x1 (constant (F := Ideal) S_ .f32 0x00000000#32)) := by
  simp only [part2_ops3]
  after_results
  simp only [StableHlo.TRef.of, StableHlo.TRef.toBuf, StableHlo.TRef.ofBuf, cast_eq, id_eq]
  try rw [hs]
  first | done | rfl

theorem L13_main_call5_v3 (W : Vl) (s : FVec Ideal S100000x1 .f32)
    (hs : W (Proc.devRef .tc main_v103) = s) :
    after (part2_ops3 (F := Ideal)) W (Proc.devRef .tc main_call5_v3) = mulf (broadcastInDim S100000x1 ![] bcast_S_S100000x1 (constant (F := Ideal) S_ .f32 0x3C23D70A#32)) s := by
  simp only [part2_ops3]
  after_results
  simp only [StableHlo.TRef.of, StableHlo.TRef.toBuf, StableHlo.TRef.ofBuf, cast_eq, id_eq]
  try rw [hs]
  first | done | rfl

theorem L14_main_v104 (W : Vl) (s : FVec Ideal S100000x1 .f32)
    (hcmp : W (Proc.devRef .tc main_call5_v1) = cmpf .oge s (broadcastInDim S100000x1 ![] bcast_S_S100000x1 (constant (F := Ideal) S_ .f32 0x00000000#32)))
    (hs : W (Proc.devRef .tc main_v103) = s)
    (hmul : W (Proc.devRef .tc main_call5_v3) = mulf (broadcastInDim S100000x1 ![] bcast_S_S100000x1 (constant (F := Ideal) S_ .f32 0x3C23D70A#32)) s) :
    after (part2_ops4 (F := Ideal)) W (Proc.devRef .tc main_v104) = leakyT s := by
  simp only [part2_ops4]
  after_results
  simp only [StableHlo.TRef.of, StableHlo.TRef.toBuf, StableHlo.TRef.ofBuf, cast_eq, id_eq]
  try rw [hcmp]
  try rw [hs]
  try rw [hmul]
  first | done | rfl

theorem L15_main_v105 (W : Vl) (t : FVec Ideal S100000x1 .f32)
    (ht : W (Proc.devRef .tc main_v104) = t) :
    after (part2_ops5 (F := Ideal)) W (Proc.devRef .tc main_v105) = Host.exp t := by
  simp only [part2_ops5]
  after_results
  try rw [ht]
  first | done | rfl

theorem L15_main_v106 (W : Vl) (x : FVec Ideal S100000x128 .f32) (w : FVec Ideal S128x32 .f32)
    (hx : W (Proc.devRef .tc main_arg2) = x)
    (hw : W (Proc.devRef .tc main_arg11) = w) :
    after (part2_ops5 (F := Ideal)) W (Proc.devRef .tc main_v106) = Host.dotGeneral dot_S100000x128_S128x32_S100000x32_1_0_0_1_n_n none x w := by
  simp only [part2_ops5]
  after_results
  try rw [hx]
  try rw [hw]
  first | done | rfl

theorem L15_main_v112 (W : Vl) (ei : Ei)
    (hei : W (Proc.devRef .tc main_arg5) = ei) :
    after (part2_ops5 (F := Ideal)) W (Proc.devRef .tc main_v112) = rowT ei := by
  simp only [part2_ops5]
  after_results
  try rw [hei]
  first | done | rfl

theorem L15_main_v113 (W : Vl) (ei : Ei)
    (hei : W (Proc.devRef .tc main_arg5) = ei) :
    after (part2_ops5 (F := Ideal)) W (Proc.devRef .tc main_v113) = colT ei := by
  simp only [part2_ops5]
  after_results
  try rw [hei]
  first | done | rfl

theorem L15_main_v115 (W : Vl) (ea : FVec Ideal S1600000 .f32)
    (hea : W (Proc.devRef .tc main_arg8) = ea) :
    after (part2_ops5 (F := Ideal)) W (Proc.devRef .tc main_v115) = ewT ea := by
  simp only [part2_ops5]
  after_results
  try rw [hea]
  first | done | rfl

theorem L15_main_v120 (W : Vl) (ei : Ei) (ea : FVec Ideal S1600000 .f32)
    (hei : W (Proc.devRef .tc main_arg5) = ei)
    (hea : W (Proc.devRef .tc main_arg8) = ea) :
    after (part2_ops5 (F := Ideal)) W (Proc.devRef .tc main_v120) = cmpf .ogt (degT ei ea) zeros1 := by
  simp only [part2_ops5]
  after_results
  try rw [hei]
  try rw [hea]
  first | done | rfl

theorem L15_main_v121 (W : Vl) (ei : Ei) (ea : FVec Ideal S1600000 .f32)
    (hei : W (Proc.devRef .tc main_arg5) = ei)
    (hea : W (Proc.devRef .tc main_arg8) = ea) :
    after (part2_ops5 (F := Ideal)) W (Proc.devRef .tc main_v121) = Host.rsqrt (degT ei ea) := by
  simp only [part2_ops5]
  after_results
  try rw [hei]
  try rw [hea]
  first | done | rfl

theorem L15_main_cst_23 (W : Vl) :
    after (part2_ops5 (F := Ideal)) W (Proc.devRef .tc main_cst_23) = (constant (F := Ideal) S_ .f32 0x00000000#32) := by
  simp only [part2_ops5]
  after_results
  first | done | rfl

theorem L16_main_v122 (W : Vl) (ei : Ei) (ea : FVec Ideal S1600000 .f32)
    (hcmp : W (Proc.devRef .tc main_v120) = cmpf .ogt (degT ei ea) zeros1)
    (hrsq : W (Proc.devRef .tc main_v121) = Host.rsqrt (degT ei ea))
    (hc : W (Proc.devRef .tc main_cst_23) = (constant (F := Ideal) S_ .f32 0x00000000#32)) :
    after (part2_ops6 (F := Ideal)) W (Proc.devRef .tc main_v122) = dinvT ei ea := by
  simp only [part2_ops6]
  after_results
  simp only [StableHlo.TRef.of, StableHlo.TRef.toBuf, StableHlo.TRef.ofBuf, cast_eq, id_eq]
  try rw [hcmp]
  try rw [hrsq]
  try rw [hc]
  first | done | rfl

theorem L17_main_v146 (W : Vl) (ei : Ei) (feat : FVec Ideal S100000x32 .f32)
    (hrow : W (Proc.devRef .tc main_v112) = rowT ei)
    (hfeat : W (Proc.devRef .tc main_v106) = feat) :
    after (part2_ops7 (F := Ideal)) W (Proc.devRef .tc main_v146) = srcT feat ei := by
  simp only [part2_ops7]
  after_results_simp
  try rw [hrow]
  try rw [hfeat]
  first | done | rfl

theorem L17_main_v147 (W : Vl) (ei : Ei) (ea : FVec Ideal S1600000 .f32)
    (hrow : W (Proc.devRef .tc main_v112) = rowT ei)
    (hdinv : W (Proc.devRef .tc main_v122) = dinvT ei ea)
    (hew : W (Proc.devRef .tc main_v115) = ewT ea)
    (hcol : W (Proc.devRef .tc main_v113) = colT ei) :
    after (part2_ops7 (F := Ideal)) W (Proc.devRef .tc main_v147) = edgeRows (normT ei ea) := by
  simp only [part2_ops7]
  after_results_simp
  try rw [hrow]
  try rw [hdinv]
  try rw [hew]
  try rw [hcol]
  first | done | rfl

theorem L18_main_v154 (W : Vl) (ei : Ei) (ea : FVec Ideal S1600000 .f32) (feat : FVec Ideal S100000x32 .f32) (b : FVec Ideal S32 .f32)
    (hnr : W (Proc.devRef .tc main_v147) = edgeRows (normT ei ea))
    (hsrc : W (Proc.devRef .tc main_v146) = srcT feat ei)
    (hcol : W (Proc.devRef .tc main_v113) = colT ei)
    (hb : W (Proc.devRef .tc main_arg14) = b) :
    after (part3_ops0 (F := Ideal)) W (Proc.devRef .tc main_v154) = addf (gssT feat ei (normT ei ea)) (biasRows b) := by
  simp only [part3_ops0]
  after_results
  try rw [hnr]
  try rw [hsrc]
  try rw [hcol]
  try rw [hb]
  first | done | rfl

theorem L19_main_v155 (W : Vl) (t : FVec Ideal S100000x32 .f32)
    (ht : W (Proc.devRef .tc main_v154) = t) :
    after (part3_ops1 (F := Ideal)) W (Proc.devRef .tc main_v155) = maximumf t zeros2 := by
  simp only [part3_ops1]
  after_results
  simp only [StableHlo.TRef.of, StableHlo.TRef.toBuf, StableHlo.TRef.ofBuf, cast_eq, id_eq]
  try rw [ht]
  first | done | rfl

theorem L20_main_v156 (W : Vl) (e : FVec Ideal S100000x32 .f32) (a : FVec Ideal S32x1 .f32)
    (he : W (Proc.devRef .tc main_v155) = e)
    (ha : W (Proc.devRef .tc main_arg21) = a) :
    after (part3_ops2 (F := Ideal)) W (Proc.devRef .tc main_v156) = Host.dotGeneral dot_S100000x32_S32x1_S100000x1_1_0_0_1_n_n none e a := by
  simp only [part3_ops2]
  after_results
  try rw [he]
  try rw [ha]
  first | done | rfl

theorem L21_main_call8_v1 (W : Vl) (s : FVec Ideal S100000x1 .f32)
    (hs : W (Proc.devRef .tc main_v156) = s) :
    after (part3_ops3 (F := Ideal)) W (Proc.devRef .tc main_call8_v1) = cmpf .oge s (broadcastInDim S100000x1 ![] bcast_S_S100000x1 (constant (F := Ideal) S_ .f32 0x00000000#32)) := by
  simp only [part3_ops3]
  after_results
  simp only [StableHlo.TRef.of, StableHlo.TRef.toBuf, StableHlo.TRef.ofBuf, cast_eq, id_eq]
  try rw [hs]
  first | done | rfl

theorem L21_main_call8_v3 (W : Vl) (s : FVec Ideal S100000x1 .f32)
    (hs : W (Proc.devRef .tc main_v156) = s) :
    after (part3_ops3 (F := Ideal)) W (Proc.devRef .tc main_call8_v3) = mulf (broadcastInDim S100000x1 ![] bcast_S_S100000x1 (constant (F := Ideal) S_ .f32 0x3C23D70A#32)) s := by
  simp only [part3_ops3]
  after_results
  simp only [StableHlo.TRef.of, StableHlo.TRef.toBuf, StableHlo.TRef.ofBuf, cast_eq, id_eq]
  try rw [hs]
  first | done | rfl

theorem L22_main_v157 (W : Vl) (s : FVec Ideal S100000x1 .f32)
    (hcmp : W (Proc.devRef .tc main_call8_v1) = cmpf .oge s (broadcastInDim S100000x1 ![] bcast_S_S100000x1 (constant (F := Ideal) S_ .f32 0x00000000#32)))
    (hs : W (Proc.devRef .tc main_v156) = s)
    (hmul : W (Proc.devRef .tc main_call8_v3) = mulf (broadcastInDim S100000x1 ![] bcast_S_S100000x1 (constant (F := Ideal) S_ .f32 0x3C23D70A#32)) s) :
    after (part3_ops4 (F := Ideal)) W (Proc.devRef .tc main_v157) = leakyT s := by
  simp only [part3_ops4]
  after_results
  simp only [StableHlo.TRef.of, StableHlo.TRef.toBuf, StableHlo.TRef.ofBuf, cast_eq, id_eq]
  try rw [hcmp]
  try rw [hs]
  try rw [hmul]
  first | done | rfl

end Cert.ReferenceIdeal.RefRead

end
-- ==== Proof.RefReadL2.lean ====
import proofs.«426271_j85796266705527_4_alg».proof.Proof.RefReadT

set_option maxRecDepth 16384

noncomputable section

namespace Cert.ReferenceIdeal.RefRead

open Cert.ReferenceIdeal Cert.ReferenceIdeal.Run
open Idealize.ShloMosaic Idealize.ShloMosaic.TcCoe Idealize.SL.Sem
open Idealize.ShloMosaic.StableHlo (after after_cons after_nil)
open Cert.ReferenceIdeal.Facts₀ Cert.ReferenceIdeal.Facts Cert.SpecT

theorem L23_main_v161 (W : Vl) (c1 : FVec Ideal S100000x1 .f32) (c2 : FVec Ideal S100000x1 .f32) (l3 : FVec Ideal S100000x1 .f32)
    (hc1 : W (Proc.devRef .tc main_v52) = c1)
    (hc2 : W (Proc.devRef .tc main_v105) = c2)
    (hl3 : W (Proc.devRef .tc main_v157) = l3) :
    after (part3_ops5 (F := Ideal)) W (Proc.devRef .tc main_v161) = Host.divf c1 (csumOf c1 c2 l3) := by
  simp only [part3_ops5]
  after_results_simp
  try rw [hc1]
  try rw [hc2]
  try rw [hl3]
  first | done | rfl

theorem L23_main_v162 (W : Vl) (c1 : FVec Ideal S100000x1 .f32) (c2 : FVec Ideal S100000x1 .f32) (l3 : FVec Ideal S100000x1 .f32)
    (hc1 : W (Proc.devRef .tc main_v52) = c1)
    (hc2 : W (Proc.devRef .tc main_v105) = c2)
    (hl3 : W (Proc.devRef .tc main_v157) = l3) :
    after (part3_ops5 (F := Ideal)) W (Proc.devRef .tc main_v162) = Host.divf c2 (csumOf c1 c2 l3) := by
  simp only [part3_ops5]
  after_results_simp
  try rw [hc1]
  try rw [hc2]
  try rw [hl3]
  first | done | rfl

theorem L23_main_v163 (W : Vl) (c1 : FVec Ideal S100000x1 .f32) (c2 : FVec Ideal S100000x1 .f32) (l3 : FVec Ideal S100000x1 .f32)
    (hc1 : W (Proc.devRef .tc main_v52) = c1)
    (hc2 : W (Proc.devRef .tc main_v105) = c2)
    (hl3 : W (Proc.devRef .tc main_v157) = l3) :
    after (part3_ops5 (F := Ideal)) W (Proc.devRef .tc main_v163) = Host.divf (Host.exp l3) (csumOf c1 c2 l3) := by
  simp only [part3_ops5]
  after_results_simp
  try rw [hc1]
  try rw [hc2]
  try rw [hl3]
  first | done | rfl

theorem L23_main_v173 (W : Vl) (c1 : FVec Ideal S100000x1 .f32) (c2 : FVec Ideal S100000x1 .f32) (l3 : FVec Ideal S100000x1 .f32) (e1 : FVec Ideal S100000x32 .f32) (e2 : FVec Ideal S100000x32 .f32) (e3 : FVec Ideal S100000x32 .f32)
    (hc1 : W (Proc.devRef .tc main_v52) = c1)
    (hc2 : W (Proc.devRef .tc main_v105) = c2)
    (hl3 : W (Proc.devRef .tc main_v157) = l3)
    (he1 : W (Proc.devRef .tc main_v49) = e1)
    (he2 : W (Proc.devRef .tc main_v102) = e2)
    (he3 : W (Proc.devRef .tc main_v155) = e3) :
    after (part3_ops5 (F := Ideal)) W (Proc.devRef .tc main_v173) = hOf c1 c2 l3 e1 e2 e3 := by
  simp only [part3_ops5]
  after_results_simp
  try rw [hc1]
  try rw [hc2]
  try rw [hl3]
  try rw [he1]
  try rw [he2]
  try rw [he3]
  first | done | rfl

theorem L23_main_v174 (W : Vl) (c1 : FVec Ideal S100000x1 .f32) (c2 : FVec Ideal S100000x1 .f32) (l3 : FVec Ideal S100000x1 .f32) (e1 : FVec Ideal S100000x32 .f32) (e2 : FVec Ideal S100000x32 .f32) (e3 : FVec Ideal S100000x32 .f32) (wo : FVec Ideal S32x32 .f32)
    (hc1 : W (Proc.devRef .tc main_v52) = c1)
    (hc2 : W (Proc.devRef .tc main_v105) = c2)
    (hl3 : W (Proc.devRef .tc main_v157) = l3)
    (he1 : W (Proc.devRef .tc main_v49) = e1)
    (he2 : W (Proc.devRef .tc main_v102) = e2)
    (he3 : W (Proc.devRef .tc main_v155) = e3)
    (hwo : W (Proc.devRef .tc main_arg15) = wo) :
    after (part3_ops5 (F := Ideal)) W (Proc.devRef .tc main_v174) = Host.dotGeneral dot_S100000x32_S32x32_S100000x32_1_0_0_1_n_n none (hOf c1 c2 l3 e1 e2 e3) wo := by
  simp only [part3_ops5]
  after_results_simp
  try rw [hc1]
  try rw [hc2]
  try rw [hl3]
  try rw [he1]
  try rw [he2]
  try rw [he3]
  try rw [hwo]
  first | done | rfl

theorem L23_main_v180 (W : Vl) (ei : Ei)
    (hei : W (Proc.devRef .tc main_arg3) = ei) :
    after (part3_ops5 (F := Ideal)) W (Proc.devRef .tc main_v180) = rowT ei := by
  simp only [part3_ops5]
  after_results
  try rw [hei]
  first | done | rfl

theorem L23_main_v181 (W : Vl) (ei : Ei)
    (hei : W (Proc.devRef .tc main_arg3) = ei) :
    after (part3_ops5 (F := Ideal)) W (Proc.devRef .tc main_v181) = colT ei := by
  simp only [part3_ops5]
  after_results
  try rw [hei]
  first | done | rfl

theorem L23_main_v183 (W : Vl) (ea : FVec Ideal S1600000 .f32)
    (hea : W (Proc.devRef .tc main_arg6) = ea) :
    after (part3_ops5 (F := Ideal)) W (Proc.devRef .tc main_v183) = ewT ea := by
  simp only [part3_ops5]
  after_results
  try rw [hea]
  first | done | rfl

set_option maxHeartbeats 4000000 in
theorem L23_main_v188 (W : Vl) (ei : Ei) (ea : FVec Ideal S1600000 .f32)
    (hei : W (Proc.devRef .tc main_arg3) = ei)
    (hea : W (Proc.devRef .tc main_arg6) = ea) :
    after (part3_ops5 (F := Ideal)) W (Proc.devRef .tc main_v188) = cmpf .ogt (degT ei ea) zeros1 := by
  simp only [part3_ops5]
  after_results
  try rw [hei]
  try rw [hea]
  first | done | rfl

set_option maxHeartbeats 4000000 in
theorem L23_main_v189 (W : Vl) (ei : Ei) (ea : FVec Ideal S1600000 .f32)
    (hei : W (Proc.devRef .tc main_arg3) = ei)
    (hea : W (Proc.devRef .tc main_arg6) = ea) :
    after (part3_ops5 (F := Ideal)) W (Proc.devRef .tc main_v189) = Host.rsqrt (degT ei ea) := by
  simp only [part3_ops5]
  after_results
  try rw [hei]
  try rw [hea]
  first | done | rfl

theorem L23_main_cst_35 (W : Vl) :
    after (part3_ops5 (F := Ideal)) W (Proc.devRef .tc main_cst_35) = (constant (F := Ideal) S_ .f32 0x00000000#32) := by
  simp only [part3_ops5]
  after_results
  first | done | rfl

theorem L24_main_v190 (W : Vl) (ei : Ei) (ea : FVec Ideal S1600000 .f32)
    (hcmp : W (Proc.devRef .tc main_v188) = cmpf .ogt (degT ei ea) zeros1)
    (hrsq : W (Proc.devRef .tc main_v189) = Host.rsqrt (degT ei ea))
    (hc : W (Proc.devRef .tc main_cst_35) = (constant (F := Ideal) S_ .f32 0x00000000#32)) :
    after (part3_ops6 (F := Ideal)) W (Proc.devRef .tc main_v190) = dinvT ei ea := by
  simp only [part3_ops6]
  after_results
  simp only [StableHlo.TRef.of, StableHlo.TRef.toBuf, StableHlo.TRef.ofBuf, cast_eq, id_eq]
  try rw [hcmp]
  try rw [hrsq]
  try rw [hc]
  first | done | rfl

theorem L25_main_v198 (W : Vl) (ei : Ei) (ea : FVec Ideal S1600000 .f32)
    (hrow : W (Proc.devRef .tc main_v180) = rowT ei)
    (hdinv : W (Proc.devRef .tc main_v190) = dinvT ei ea)
    (hew : W (Proc.devRef .tc main_v183) = ewT ea) :
    after (part3_ops7 (F := Ideal)) W (Proc.devRef .tc main_v198) = halfT ei ea := by
  simp only [part3_ops7]
  after_results
  try rw [hrow]
  try rw [hdinv]
  try rw [hew]
  first | done | rfl

theorem L25_main_c_38 (W : Vl) :
    after (part3_ops7 (F := Ideal)) W (Proc.devRef .tc main_c_38) = (constantI S_ 32 0#32) := by
  simp only [part3_ops7]
  after_results
  first | done | rfl

theorem L26_main_v224 (W : Vl) (ei : Ei) (ea : FVec Ideal S1600000 .f32) (feat : FVec Ideal S100000x32 .f32) (b : FVec Ideal S32 .f32)
    (hc0 : W (Proc.devRef .tc main_c_38) = (constantI S_ 32 0#32))
    (hcol : W (Proc.devRef .tc main_v181) = colT ei)
    (hdinv : W (Proc.devRef .tc main_v190) = dinvT ei ea)
    (hhalf : W (Proc.devRef .tc main_v198) = halfT ei ea)
    (hrow : W (Proc.devRef .tc main_v180) = rowT ei)
    (hfeat : W (Proc.devRef .tc main_v174) = feat)
    (hb : W (Proc.devRef .tc main_arg18) = b) :
    after (part4_ops0 (F := Ideal)) W (Proc.devRef .tc main_v224) = addf zeros2 (addf (gssT feat ei (normT ei ea)) (biasRows b)) := by
  simp only [part4_ops0]
  after_results_simp
  try rw [hc0]
  try rw [hcol]
  try rw [hdinv]
  try rw [hhalf]
  try rw [hrow]
  try rw [hfeat]
  try rw [hb]
  first | done | rfl

set_option maxHeartbeats 4000000 in
theorem L26_main_v225 (W : Vl) (h : FVec Ideal S100000x32 .f32) (wo : FVec Ideal S32x32 .f32)
    (hh : W (Proc.devRef .tc main_v173) = h)
    (hwo : W (Proc.devRef .tc main_arg16) = wo) :
    after (part4_ops0 (F := Ideal)) W (Proc.devRef .tc main_v225) = Host.dotGeneral dot_S100000x32_S32x32_S100000x32_1_0_0_1_n_n none h wo := by
  simp only [part4_ops0]
  after_results
  try rw [hh]
  try rw [hwo]
  first | done | rfl

theorem L26_main_v231 (W : Vl) (ei : Ei)
    (hei : W (Proc.devRef .tc main_arg4) = ei) :
    after (part4_ops0 (F := Ideal)) W (Proc.devRef .tc main_v231) = rowT ei := by
  simp only [part4_ops0]
  after_results
  try rw [hei]
  first | done | rfl

theorem L26_main_v232 (W : Vl) (ei : Ei)
    (hei : W (Proc.devRef .tc main_arg4) = ei) :
    after (part4_ops0 (F := Ideal)) W (Proc.devRef .tc main_v232) = colT ei := by
  simp only [part4_ops0]
  after_results
  try rw [hei]
  first | done | rfl

theorem L26_main_v234 (W : Vl) (ea : FVec Ideal S1600000 .f32)
    (hea : W (Proc.devRef .tc main_arg7) = ea) :
    after (part4_ops0 (F := Ideal)) W (Proc.devRef .tc main_v234) = ewT ea := by
  simp only [part4_ops0]
  after_results
  try rw [hea]
  first | done | rfl

set_option maxHeartbeats 4000000 in
theorem L26_main_v239 (W : Vl) (ei : Ei) (ea : FVec Ideal S1600000 .f32)
    (hei : W (Proc.devRef .tc main_arg4) = ei)
    (hea : W (Proc.devRef .tc main_arg7) = ea) :
    after (part4_ops0 (F := Ideal)) W (Proc.devRef .tc main_v239) = cmpf .ogt (degT ei ea) zeros1 := by
  simp only [part4_ops0]
  after_results
  try rw [hei]
  try rw [hea]
  first | done | rfl

set_option maxHeartbeats 4000000 in
theorem L26_main_v240 (W : Vl) (ei : Ei) (ea : FVec Ideal S1600000 .f32)
    (hei : W (Proc.devRef .tc main_arg4) = ei)
    (hea : W (Proc.devRef .tc main_arg7) = ea) :
    after (part4_ops0 (F := Ideal)) W (Proc.devRef .tc main_v240) = Host.rsqrt (degT ei ea) := by
  simp only [part4_ops0]
  after_results
  try rw [hei]
  try rw [hea]
  first | done | rfl

theorem L26_main_cst_47 (W : Vl) :
    after (part4_ops0 (F := Ideal)) W (Proc.devRef .tc main_cst_47) = (constant (F := Ideal) S_ .f32 0x00000000#32) := by
  simp only [part4_ops0]
  after_results
  first | done | rfl

theorem L27_main_v241 (W : Vl) (ei : Ei) (ea : FVec Ideal S1600000 .f32)
    (hcmp : W (Proc.devRef .tc main_v239) = cmpf .ogt (degT ei ea) zeros1)
    (hrsq : W (Proc.devRef .tc main_v240) = Host.rsqrt (degT ei ea))
    (hc : W (Proc.devRef .tc main_cst_47) = (constant (F := Ideal) S_ .f32 0x00000000#32)) :
    after (part4_ops1 (F := Ideal)) W (Proc.devRef .tc main_v241) = dinvT ei ea := by
  simp only [part4_ops1]
  after_results
  simp only [StableHlo.TRef.of, StableHlo.TRef.toBuf, StableHlo.TRef.ofBuf, cast_eq, id_eq]
  try rw [hcmp]
  try rw [hrsq]
  try rw [hc]
  first | done | rfl

theorem L28_main_v247 (W : Vl) (ei : Ei)
    (hrow : W (Proc.devRef .tc main_v231) = rowT ei) :
    after (part4_ops2 (F := Ideal)) W (Proc.devRef .tc main_v247) = idxCol (fixT (rowT ei)) := by
  simp only [part4_ops2]
  after_results
  try rw [hrow]
  first | done | rfl

theorem L29_main_v274 (W : Vl) (ei : Ei) (ea : FVec Ideal S1600000 .f32) (feat : FVec Ideal S100000x32 .f32) (b : FVec Ideal S32 .f32) (g : FVec Ideal S100000x32 .f32)
    (hdinv : W (Proc.devRef .tc main_v241) = dinvT ei ea)
    (hri : W (Proc.devRef .tc main_v247) = idxCol (fixT (rowT ei)))
    (hew : W (Proc.devRef .tc main_v234) = ewT ea)
    (hcol : W (Proc.devRef .tc main_v232) = colT ei)
    (hrow : W (Proc.devRef .tc main_v231) = rowT ei)
    (hfeat : W (Proc.devRef .tc main_v225) = feat)
    (hb : W (Proc.devRef .tc main_arg19) = b)
    (hg : W (Proc.devRef .tc main_v224) = g) :
    after (part5_ops0 (F := Ideal)) W (Proc.devRef .tc main_v274) = addf g (addf (gssT feat ei (normT ei ea)) (biasRows b)) := by
  simp only [part5_ops0]
  after_results_simp
  try rw [hdinv]
  try rw [hri]
  try rw [hew]
  try rw [hcol]
  try rw [hrow]
  try rw [hfeat]
  try rw [hb]
  try rw [hg]
  first | done | rfl

set_option maxHeartbeats 4000000 in
theorem L29_main_v275 (W : Vl) (h : FVec Ideal S100000x32 .f32) (wo : FVec Ideal S32x32 .f32)
    (hh : W (Proc.devRef .tc main_v173) = h)
    (hwo : W (Proc.devRef .tc main_arg17) = wo) :
    after (part5_ops0 (F := Ideal)) W (Proc.devRef .tc main_v275) = Host.dotGeneral dot_S100000x32_S32x32_S100000x32_1_0_0_1_n_n none h wo := by
  simp only [part5_ops0]
  after_results
  try rw [hh]
  try rw [hwo]
  first | done | rfl

theorem L29_main_v281 (W : Vl) (ei : Ei)
    (hei : W (Proc.devRef .tc main_arg5) = ei) :
    after (part5_ops0 (F := Ideal)) W (Proc.devRef .tc main_v281) = rowT ei := by
  simp only [part5_ops0]
  after_results
  try rw [hei]
  first | done | rfl

theorem L29_main_v282 (W : Vl) (ei : Ei)
    (hei : W (Proc.devRef .tc main_arg5) = ei) :
    after (part5_ops0 (F := Ideal)) W (Proc.devRef .tc main_v282) = colT ei := by
  simp only [part5_ops0]
  after_results
  try rw [hei]
  first | done | rfl

theorem L29_main_v284 (W : Vl) (ea : FVec Ideal S1600000 .f32)
    (hea : W (Proc.devRef .tc main_arg8) = ea) :
    after (part5_ops0 (F := Ideal)) W (Proc.devRef .tc main_v284) = ewT ea := by
  simp only [part5_ops0]
  after_results
  try rw [hea]
  first | done | rfl

set_option maxHeartbeats 4000000 in
theorem L29_main_v289 (W : Vl) (ei : Ei) (ea : FVec Ideal S1600000 .f32)
    (hei : W (Proc.devRef .tc main_arg5) = ei)
    (hea : W (Proc.devRef .tc main_arg8) = ea) :
    after (part5_ops0 (F := Ideal)) W (Proc.devRef .tc main_v289) = cmpf .ogt (degT ei ea) zeros1 := by
  simp only [part5_ops0]
  after_results
  try rw [hei]
  try rw [hea]
  first | done | rfl

set_option maxHeartbeats 4000000 in
theorem L29_main_v290 (W : Vl) (ei : Ei) (ea : FVec Ideal S1600000 .f32)
    (hei : W (Proc.devRef .tc main_arg5) = ei)
    (hea : W (Proc.devRef .tc main_arg8) = ea) :
    after (part5_ops0 (F := Ideal)) W (Proc.devRef .tc main_v290) = Host.rsqrt (degT ei ea) := by
  simp only [part5_ops0]
  after_results
  try rw [hei]
  try rw [hea]
  first | done | rfl

theorem L29_main_cst_58 (W : Vl) :
    after (part5_ops0 (F := Ideal)) W (Proc.devRef .tc main_cst_58) = (constant (F := Ideal) S_ .f32 0x00000000#32) := by
  simp only [part5_ops0]
  after_results
  first | done | rfl

theorem L30_main_v291 (W : Vl) (ei : Ei) (ea : FVec Ideal S1600000 .f32)
    (hcmp : W (Proc.devRef .tc main_v289) = cmpf .ogt (degT ei ea) zeros1)
    (hrsq : W (Proc.devRef .tc main_v290) = Host.rsqrt (degT ei ea))
    (hc : W (Proc.devRef .tc main_cst_58) = (constant (F := Ideal) S_ .f32 0x00000000#32)) :
    after (part5_ops1 (F := Ideal)) W (Proc.devRef .tc main_v291) = dinvT ei ea := by
  simp only [part5_ops1]
  after_results
  simp only [StableHlo.TRef.of, StableHlo.TRef.toBuf, StableHlo.TRef.ofBuf, cast_eq, id_eq]
  try rw [hcmp]
  try rw [hrsq]
  try rw [hc]
  first | done | rfl

theorem L31_main_v296 (W : Vl) (ei : Ei)
    (hrow : W (Proc.devRef .tc main_v281) = rowT ei) :
    after (part5_ops2 (F := Ideal)) W (Proc.devRef .tc main_v296) = fixT (rowT ei) := by
  simp only [part5_ops2]
  after_results
  try rw [hrow]
  first | done | rfl

theorem L32_main_v324 (W : Vl) (ei : Ei) (ea : FVec Ideal S1600000 .f32) (feat : FVec Ideal S100000x32 .f32) (b : FVec Ideal S32 .f32) (g : FVec Ideal S100000x32 .f32)
    (hrf : W (Proc.devRef .tc main_v296) = fixT (rowT ei))
    (hdinv : W (Proc.devRef .tc main_v291) = dinvT ei ea)
    (hew : W (Proc.devRef .tc main_v284) = ewT ea)
    (hcol : W (Proc.devRef .tc main_v282) = colT ei)
    (hrow : W (Proc.devRef .tc main_v281) = rowT ei)
    (hfeat : W (Proc.devRef .tc main_v275) = feat)
    (hb : W (Proc.devRef .tc main_arg20) = b)
    (hg : W (Proc.devRef .tc main_v274) = g) :
    after (part6_ops0 (F := Ideal)) W (Proc.devRef .tc main_v324) = addf g (addf (gssT feat ei (normT ei ea)) (biasRows b)) := by
  simp only [part6_ops0]
  after_results_simp
  try rw [hrf]
  try rw [hdinv]
  try rw [hew]
  try rw [hcol]
  try rw [hrow]
  try rw [hfeat]
  try rw [hb]
  try rw [hg]
  first | done | rfl

end Cert.ReferenceIdeal.RefRead

end
-- ==== Proof.RefReadS.lean ====
import proofs.«426271_j85796266705527_4_alg».proof.Proof.RefReadW
import proofs.«426271_j85796266705527_4_alg».proof.Proof.RefReadL1
import proofs.«426271_j85796266705527_4_alg».proof.Proof.RefReadL2

set_option maxRecDepth 16384

noncomputable section

namespace Cert.ReferenceIdeal.RefRead

open Cert.ReferenceIdeal Cert.ReferenceIdeal.Run
open Idealize.ShloMosaic Idealize.ShloMosaic.TcCoe Idealize.SL.Sem
open Idealize.ShloMosaic.StableHlo (after after_cons after_nil)
open Cert.ReferenceIdeal.Facts₀ Cert.ReferenceIdeal.Facts Cert.SpecT

theorem Stg1_main_v6 (V : Vl) : Stg 1 V (Proc.devRef .tc main_v6) = rowT (argsOfV V).ei1 :=
  (L0_main_v6 (Stg 0 V) (argsOfV V).ei1
    (carry 0 0 V main_arg3 (by decide +kernel))).trans rfl

theorem Stg1_main_v14 (V : Vl) : Stg 1 V (Proc.devRef .tc main_v14) = cmpf .ogt (degT (argsOfV V).ei1 (argsOfV V).ea1) zeros1 :=
  (L0_main_v14 (Stg 0 V) (argsOfV V).ei1 (argsOfV V).ea1
    (carry 0 0 V main_arg3 (by decide +kernel))
    (carry 0 0 V main_arg6 (by decide +kernel))).trans rfl

theorem Stg1_main_v15 (V : Vl) : Stg 1 V (Proc.devRef .tc main_v15) = Host.rsqrt (degT (argsOfV V).ei1 (argsOfV V).ea1) :=
  (L0_main_v15 (Stg 0 V) (argsOfV V).ei1 (argsOfV V).ea1
    (carry 0 0 V main_arg3 (by decide +kernel))
    (carry 0 0 V main_arg6 (by decide +kernel))).trans rfl

theorem Stg1_main_cst_2 (V : Vl) : Stg 1 V (Proc.devRef .tc main_cst_2) = (constant (F := Ideal) S_ .f32 0x00000000#32) :=
  (L0_main_cst_2 (Stg 0 V)).trans rfl

theorem Stg1_main_v9 (V : Vl) : Stg 1 V (Proc.devRef .tc main_v9) = ewT (argsOfV V).ea1 :=
  (L0_main_v9 (Stg 0 V) (argsOfV V).ea1
    (carry 0 0 V main_arg6 (by decide +kernel))).trans rfl

theorem Stg1_main_v7 (V : Vl) : Stg 1 V (Proc.devRef .tc main_v7) = colT (argsOfV V).ei1 :=
  (L0_main_v7 (Stg 0 V) (argsOfV V).ei1
    (carry 0 0 V main_arg3 (by decide +kernel))).trans rfl

theorem Stg1_main_v0 (V : Vl) : Stg 1 V (Proc.devRef .tc main_v0) = (Host.dotGeneral dot_S100000x128_S128x32_S100000x32_1_0_0_1_n_n none (argsOfV V).x1 (argsOfV V).W1) :=
  (L0_main_v0 (Stg 0 V) (argsOfV V).x1 (argsOfV V).W1
    (carry 0 0 V main_arg0 (by decide +kernel))
    (carry 0 0 V main_arg9 (by decide +kernel))).trans rfl

theorem Stg2_main_v16 (V : Vl) : Stg 2 V (Proc.devRef .tc main_v16) = dinvT (argsOfV V).ei1 (argsOfV V).ea1 :=
  (L1_main_v16 (Stg 1 V) (argsOfV V).ei1 (argsOfV V).ea1
    (Stg1_main_v14 V)
    (Stg1_main_v15 V)
    (Stg1_main_cst_2 V)).trans rfl

theorem Stg3_main_v48 (V : Vl) : Stg 3 V (Proc.devRef .tc main_v48) = addf (gssT (Host.dotGeneral dot_S100000x128_S128x32_S100000x32_1_0_0_1_n_n none (argsOfV V).x1 (argsOfV V).W1) (argsOfV V).ei1 (normT (argsOfV V).ei1 (argsOfV V).ea1)) (biasRows (argsOfV V).b1) :=
  (L2_main_v48 (Stg 2 V) (argsOfV V).ei1 (argsOfV V).ea1 (Host.dotGeneral dot_S100000x128_S128x32_S100000x32_1_0_0_1_n_n none (argsOfV V).x1 (argsOfV V).W1) (argsOfV V).b1
    ((carry 1 2 V main_v6 (by decide +kernel)).trans (Stg1_main_v6 V))
    (Stg2_main_v16 V)
    ((carry 1 2 V main_v9 (by decide +kernel)).trans (Stg1_main_v9 V))
    ((carry 1 2 V main_v7 (by decide +kernel)).trans (Stg1_main_v7 V))
    ((carry 1 2 V main_v0 (by decide +kernel)).trans (Stg1_main_v0 V))
    (carry 0 2 V main_arg12 (by decide +kernel))).trans rfl

theorem Stg4_main_v49 (V : Vl) : Stg 4 V (Proc.devRef .tc main_v49) = (argsOfV V).e1R :=
  (L3_main_v49 (Stg 3 V) (addf (gssT (Host.dotGeneral dot_S100000x128_S128x32_S100000x32_1_0_0_1_n_n none (argsOfV V).x1 (argsOfV V).W1) (argsOfV V).ei1 (normT (argsOfV V).ei1 (argsOfV V).ea1)) (biasRows (argsOfV V).b1))
    (Stg3_main_v48 V)).trans rfl

theorem Stg5_main_v50 (V : Vl) : Stg 5 V (Proc.devRef .tc main_v50) = (Host.dotGeneral dot_S100000x32_S32x1_S100000x1_1_0_0_1_n_n none (argsOfV V).e1R (argsOfV V).attw) :=
  (L4_main_v50 (Stg 4 V) (argsOfV V).e1R (argsOfV V).attw
    (Stg4_main_v49 V)
    (carry 0 4 V main_arg21 (by decide +kernel))).trans rfl

theorem Stg6_main_call2_v1 (V : Vl) : Stg 6 V (Proc.devRef .tc main_call2_v1) = cmpf .oge (Host.dotGeneral dot_S100000x32_S32x1_S100000x1_1_0_0_1_n_n none (argsOfV V).e1R (argsOfV V).attw) (broadcastInDim S100000x1 ![] bcast_S_S100000x1 (constant (F := Ideal) S_ .f32 0x00000000#32)) :=
  (L5_main_call2_v1 (Stg 5 V) (Host.dotGeneral dot_S100000x32_S32x1_S100000x1_1_0_0_1_n_n none (argsOfV V).e1R (argsOfV V).attw)
    (Stg5_main_v50 V)).trans rfl

theorem Stg6_main_call2_v3 (V : Vl) : Stg 6 V (Proc.devRef .tc main_call2_v3) = mulf (broadcastInDim S100000x1 ![] bcast_S_S100000x1 (constant (F := Ideal) S_ .f32 0x3C23D70A#32)) (Host.dotGeneral dot_S100000x32_S32x1_S100000x1_1_0_0_1_n_n none (argsOfV V).e1R (argsOfV V).attw) :=
  (L5_main_call2_v3 (Stg 5 V) (Host.dotGeneral dot_S100000x32_S32x1_S100000x1_1_0_0_1_n_n none (argsOfV V).e1R (argsOfV V).attw)
    (Stg5_main_v50 V)).trans rfl

theorem Stg7_main_v51 (V : Vl) : Stg 7 V (Proc.devRef .tc main_v51) = leakyT (Host.dotGeneral dot_S100000x32_S32x1_S100000x1_1_0_0_1_n_n none (argsOfV V).e1R (argsOfV V).attw) :=
  (L6_main_v51 (Stg 6 V) (Host.dotGeneral dot_S100000x32_S32x1_S100000x1_1_0_0_1_n_n none (argsOfV V).e1R (argsOfV V).attw)
    (Stg6_main_call2_v1 V)
    ((carry 5 6 V main_v50 (by decide +kernel)).trans (Stg5_main_v50 V))
    (Stg6_main_call2_v3 V)).trans rfl

theorem Stg8_main_v52 (V : Vl) : Stg 8 V (Proc.devRef .tc main_v52) = (argsOfV V).c1R :=
  (L7_main_v52 (Stg 7 V) (leakyT (Host.dotGeneral dot_S100000x32_S32x1_S100000x1_1_0_0_1_n_n none (argsOfV V).e1R (argsOfV V).attw))
    (Stg7_main_v51 V)).trans rfl

theorem Stg8_main_v60 (V : Vl) : Stg 8 V (Proc.devRef .tc main_v60) = colT (argsOfV V).ei2 :=
  (L7_main_v60 (Stg 7 V) (argsOfV V).ei2
    (carry 0 7 V main_arg4 (by decide +kernel))).trans rfl

theorem Stg8_main_v59 (V : Vl) : Stg 8 V (Proc.devRef .tc main_v59) = rowT (argsOfV V).ei2 :=
  (L7_main_v59 (Stg 7 V) (argsOfV V).ei2
    (carry 0 7 V main_arg4 (by decide +kernel))).trans rfl

theorem Stg8_main_v67 (V : Vl) : Stg 8 V (Proc.devRef .tc main_v67) = cmpf .ogt (degT (argsOfV V).ei2 (argsOfV V).ea2) zeros1 :=
  (L7_main_v67 (Stg 7 V) (argsOfV V).ei2 (argsOfV V).ea2
    (carry 0 7 V main_arg4 (by decide +kernel))
    (carry 0 7 V main_arg7 (by decide +kernel))).trans rfl

theorem Stg8_main_v68 (V : Vl) : Stg 8 V (Proc.devRef .tc main_v68) = Host.rsqrt (degT (argsOfV V).ei2 (argsOfV V).ea2) :=
  (L7_main_v68 (Stg 7 V) (argsOfV V).ei2 (argsOfV V).ea2
    (carry 0 7 V main_arg4 (by decide +kernel))
    (carry 0 7 V main_arg7 (by decide +kernel))).trans rfl

theorem Stg8_main_cst_12 (V : Vl) : Stg 8 V (Proc.devRef .tc main_cst_12) = (constant (F := Ideal) S_ .f32 0x00000000#32) :=
  (L7_main_cst_12 (Stg 7 V)).trans rfl

theorem Stg8_main_v62 (V : Vl) : Stg 8 V (Proc.devRef .tc main_v62) = ewT (argsOfV V).ea2 :=
  (L7_main_v62 (Stg 7 V) (argsOfV V).ea2
    (carry 0 7 V main_arg7 (by decide +kernel))).trans rfl

theorem Stg8_main_v53 (V : Vl) : Stg 8 V (Proc.devRef .tc main_v53) = (Host.dotGeneral dot_S100000x128_S128x32_S100000x32_1_0_0_1_n_n none (argsOfV V).x2 (argsOfV V).W2) :=
  (L7_main_v53 (Stg 7 V) (argsOfV V).x2 (argsOfV V).W2
    (carry 0 7 V main_arg1 (by decide +kernel))
    (carry 0 7 V main_arg10 (by decide +kernel))).trans rfl

theorem Stg9_main_v69 (V : Vl) : Stg 9 V (Proc.devRef .tc main_v69) = dinvT (argsOfV V).ei2 (argsOfV V).ea2 :=
  (L8_main_v69 (Stg 8 V) (argsOfV V).ei2 (argsOfV V).ea2
    (Stg8_main_v67 V)
    (Stg8_main_v68 V)
    (Stg8_main_cst_12 V)).trans rfl

theorem Stg10_main_v96 (V : Vl) : Stg 10 V (Proc.devRef .tc main_v96) = zeros2 (F := Ideal) :=
  (L9_main_v96 (Stg 9 V)).trans rfl

theorem Stg10_main_v97 (V : Vl) : Stg 10 V (Proc.devRef .tc main_v97) = idxCol (colT (argsOfV V).ei2) :=
  (L9_main_v97 (Stg 9 V) (argsOfV V).ei2
    ((carry 8 9 V main_v60 (by decide +kernel)).trans (Stg8_main_v60 V))).trans rfl

theorem Stg10_main_v95 (V : Vl) : Stg 10 V (Proc.devRef .tc main_v95) = updT (Host.dotGeneral dot_S100000x128_S128x32_S100000x32_1_0_0_1_n_n none (argsOfV V).x2 (argsOfV V).W2) (argsOfV V).ei2 (normT (argsOfV V).ei2 (argsOfV V).ea2) :=
  (L9_main_v95 (Stg 9 V) (argsOfV V).ei2 (argsOfV V).ea2 (Host.dotGeneral dot_S100000x128_S128x32_S100000x32_1_0_0_1_n_n none (argsOfV V).x2 (argsOfV V).W2)
    ((carry 8 9 V main_v59 (by decide +kernel)).trans (Stg8_main_v59 V))
    (Stg9_main_v69 V)
    ((carry 8 9 V main_v62 (by decide +kernel)).trans (Stg8_main_v62 V))
    ((carry 8 9 V main_v60 (by decide +kernel)).trans (Stg8_main_v60 V))
    ((carry 8 9 V main_v53 (by decide +kernel)).trans (Stg8_main_v53 V))).trans rfl

theorem Stg11_main_v101 (V : Vl) : Stg 11 V (Proc.devRef .tc main_v101) = addf (gssT (Host.dotGeneral dot_S100000x128_S128x32_S100000x32_1_0_0_1_n_n none (argsOfV V).x2 (argsOfV V).W2) (argsOfV V).ei2 (normT (argsOfV V).ei2 (argsOfV V).ea2)) (biasRows (argsOfV V).b2) :=
  (L10_main_v101 (Stg 10 V) (argsOfV V).ei2 (argsOfV V).ea2 (Host.dotGeneral dot_S100000x128_S128x32_S100000x32_1_0_0_1_n_n none (argsOfV V).x2 (argsOfV V).W2) (argsOfV V).b2
    (Stg10_main_v96 V)
    (Stg10_main_v97 V)
    (Stg10_main_v95 V)
    (carry 0 10 V main_arg13 (by decide +kernel))).trans rfl

theorem Stg12_main_v102 (V : Vl) : Stg 12 V (Proc.devRef .tc main_v102) = (argsOfV V).e2R :=
  (L11_main_v102 (Stg 11 V) (addf (gssT (Host.dotGeneral dot_S100000x128_S128x32_S100000x32_1_0_0_1_n_n none (argsOfV V).x2 (argsOfV V).W2) (argsOfV V).ei2 (normT (argsOfV V).ei2 (argsOfV V).ea2)) (biasRows (argsOfV V).b2))
    (Stg11_main_v101 V)).trans rfl

theorem Stg13_main_v103 (V : Vl) : Stg 13 V (Proc.devRef .tc main_v103) = (Host.dotGeneral dot_S100000x32_S32x1_S100000x1_1_0_0_1_n_n none (argsOfV V).e2R (argsOfV V).attw) :=
  (L12_main_v103 (Stg 12 V) (argsOfV V).e2R (argsOfV V).attw
    (Stg12_main_v102 V)
    (carry 0 12 V main_arg21 (by decide +kernel))).trans rfl

theorem Stg14_main_call5_v1 (V : Vl) : Stg 14 V (Proc.devRef .tc main_call5_v1) = cmpf .oge (Host.dotGeneral dot_S100000x32_S32x1_S100000x1_1_0_0_1_n_n none (argsOfV V).e2R (argsOfV V).attw) (broadcastInDim S100000x1 ![] bcast_S_S100000x1 (constant (F := Ideal) S_ .f32 0x00000000#32)) :=
  (L13_main_call5_v1 (Stg 13 V) (Host.dotGeneral dot_S100000x32_S32x1_S100000x1_1_0_0_1_n_n none (argsOfV V).e2R (argsOfV V).attw)
    (Stg13_main_v103 V)).trans rfl

theorem Stg14_main_call5_v3 (V : Vl) : Stg 14 V (Proc.devRef .tc main_call5_v3) = mulf (broadcastInDim S100000x1 ![] bcast_S_S100000x1 (constant (F := Ideal) S_ .f32 0x3C23D70A#32)) (Host.dotGeneral dot_S100000x32_S32x1_S100000x1_1_0_0_1_n_n none (argsOfV V).e2R (argsOfV V).attw) :=
  (L13_main_call5_v3 (Stg 13 V) (Host.dotGeneral dot_S100000x32_S32x1_S100000x1_1_0_0_1_n_n none (argsOfV V).e2R (argsOfV V).attw)
    (Stg13_main_v103 V)).trans rfl

theorem Stg15_main_v104 (V : Vl) : Stg 15 V (Proc.devRef .tc main_v104) = leakyT (Host.dotGeneral dot_S100000x32_S32x1_S100000x1_1_0_0_1_n_n none (argsOfV V).e2R (argsOfV V).attw) :=
  (L14_main_v104 (Stg 14 V) (Host.dotGeneral dot_S100000x32_S32x1_S100000x1_1_0_0_1_n_n none (argsOfV V).e2R (argsOfV V).attw)
    (Stg14_main_call5_v1 V)
    ((carry 13 14 V main_v103 (by decide +kernel)).trans (Stg13_main_v103 V))
    (Stg14_main_call5_v3 V)).trans rfl

theorem Stg16_main_v105 (V : Vl) : Stg 16 V (Proc.devRef .tc main_v105) = (argsOfV V).c2R :=
  (L15_main_v105 (Stg 15 V) (leakyT (Host.dotGeneral dot_S100000x32_S32x1_S100000x1_1_0_0_1_n_n none (argsOfV V).e2R (argsOfV V).attw))
    (Stg15_main_v104 V)).trans rfl

theorem Stg16_main_v112 (V : Vl) : Stg 16 V (Proc.devRef .tc main_v112) = rowT (argsOfV V).ei3 :=
  (L15_main_v112 (Stg 15 V) (argsOfV V).ei3
    (carry 0 15 V main_arg5 (by decide +kernel))).trans rfl

theorem Stg16_main_v120 (V : Vl) : Stg 16 V (Proc.devRef .tc main_v120) = cmpf .ogt (degT (argsOfV V).ei3 (argsOfV V).ea3) zeros1 :=
  (L15_main_v120 (Stg 15 V) (argsOfV V).ei3 (argsOfV V).ea3
    (carry 0 15 V main_arg5 (by decide +kernel))
    (carry 0 15 V main_arg8 (by decide +kernel))).trans rfl

theorem Stg16_main_v121 (V : Vl) : Stg 16 V (Proc.devRef .tc main_v121) = Host.rsqrt (degT (argsOfV V).ei3 (argsOfV V).ea3) :=
  (L15_main_v121 (Stg 15 V) (argsOfV V).ei3 (argsOfV V).ea3
    (carry 0 15 V main_arg5 (by decide +kernel))
    (carry 0 15 V main_arg8 (by decide +kernel))).trans rfl

theorem Stg16_main_cst_23 (V : Vl) : Stg 16 V (Proc.devRef .tc main_cst_23) = (constant (F := Ideal) S_ .f32 0x00000000#32) :=
  (L15_main_cst_23 (Stg 15 V)).trans rfl

theorem Stg16_main_v115 (V : Vl) : Stg 16 V (Proc.devRef .tc main_v115) = ewT (argsOfV V).ea3 :=
  (L15_main_v115 (Stg 15 V) (argsOfV V).ea3
    (carry 0 15 V main_arg8 (by decide +kernel))).trans rfl

theorem Stg16_main_v113 (V : Vl) : Stg 16 V (Proc.devRef .tc main_v113) = colT (argsOfV V).ei3 :=
  (L15_main_v113 (Stg 15 V) (argsOfV V).ei3
    (carry 0 15 V main_arg5 (by decide +kernel))).trans rfl

theorem Stg16_main_v106 (V : Vl) : Stg 16 V (Proc.devRef .tc main_v106) = (Host.dotGeneral dot_S100000x128_S128x32_S100000x32_1_0_0_1_n_n none (argsOfV V).x3 (argsOfV V).W3) :=
  (L15_main_v106 (Stg 15 V) (argsOfV V).x3 (argsOfV V).W3
    (carry 0 15 V main_arg2 (by decide +kernel))
    (carry 0 15 V main_arg11 (by decide +kernel))).trans rfl

theorem Stg17_main_v122 (V : Vl) : Stg 17 V (Proc.devRef .tc main_v122) = dinvT (argsOfV V).ei3 (argsOfV V).ea3 :=
  (L16_main_v122 (Stg 16 V) (argsOfV V).ei3 (argsOfV V).ea3
    (Stg16_main_v120 V)
    (Stg16_main_v121 V)
    (Stg16_main_cst_23 V)).trans rfl

theorem Stg18_main_v147 (V : Vl) : Stg 18 V (Proc.devRef .tc main_v147) = edgeRows (normT (argsOfV V).ei3 (argsOfV V).ea3) :=
  (L17_main_v147 (Stg 17 V) (argsOfV V).ei3 (argsOfV V).ea3
    ((carry 16 17 V main_v112 (by decide +kernel)).trans (Stg16_main_v112 V))
    (Stg17_main_v122 V)
    ((carry 16 17 V main_v115 (by decide +kernel)).trans (Stg16_main_v115 V))
    ((carry 16 17 V main_v113 (by decide +kernel)).trans (Stg16_main_v113 V))).trans rfl

theorem Stg18_main_v146 (V : Vl) : Stg 18 V (Proc.devRef .tc main_v146) = srcT (Host.dotGeneral dot_S100000x128_S128x32_S100000x32_1_0_0_1_n_n none (argsOfV V).x3 (argsOfV V).W3) (argsOfV V).ei3 :=
  (L17_main_v146 (Stg 17 V) (argsOfV V).ei3 (Host.dotGeneral dot_S100000x128_S128x32_S100000x32_1_0_0_1_n_n none (argsOfV V).x3 (argsOfV V).W3)
    ((carry 16 17 V main_v112 (by decide +kernel)).trans (Stg16_main_v112 V))
    ((carry 16 17 V main_v106 (by decide +kernel)).trans (Stg16_main_v106 V))).trans rfl

theorem Stg19_main_v154 (V : Vl) : Stg 19 V (Proc.devRef .tc main_v154) = addf (gssT (Host.dotGeneral dot_S100000x128_S128x32_S100000x32_1_0_0_1_n_n none (argsOfV V).x3 (argsOfV V).W3) (argsOfV V).ei3 (normT (argsOfV V).ei3 (argsOfV V).ea3)) (biasRows (argsOfV V).b3) :=
  (L18_main_v154 (Stg 18 V) (argsOfV V).ei3 (argsOfV V).ea3 (Host.dotGeneral dot_S100000x128_S128x32_S100000x32_1_0_0_1_n_n none (argsOfV V).x3 (argsOfV V).W3) (argsOfV V).b3
    (Stg18_main_v147 V)
    (Stg18_main_v146 V)
    ((carry 16 18 V main_v113 (by decide +kernel)).trans (Stg16_main_v113 V))
    (carry 0 18 V main_arg14 (by decide +kernel))).trans rfl

theorem Stg20_main_v155 (V : Vl) : Stg 20 V (Proc.devRef .tc main_v155) = (argsOfV V).e3R :=
  (L19_main_v155 (Stg 19 V) (addf (gssT (Host.dotGeneral dot_S100000x128_S128x32_S100000x32_1_0_0_1_n_n none (argsOfV V).x3 (argsOfV V).W3) (argsOfV V).ei3 (normT (argsOfV V).ei3 (argsOfV V).ea3)) (biasRows (argsOfV V).b3))
    (Stg19_main_v154 V)).trans rfl

theorem Stg21_main_v156 (V : Vl) : Stg 21 V (Proc.devRef .tc main_v156) = (Host.dotGeneral dot_S100000x32_S32x1_S100000x1_1_0_0_1_n_n none (argsOfV V).e3R (argsOfV V).attw) :=
  (L20_main_v156 (Stg 20 V) (argsOfV V).e3R (argsOfV V).attw
    (Stg20_main_v155 V)
    (carry 0 20 V main_arg21 (by decide +kernel))).trans rfl

theorem Stg22_main_call8_v1 (V : Vl) : Stg 22 V (Proc.devRef .tc main_call8_v1) = cmpf .oge (Host.dotGeneral dot_S100000x32_S32x1_S100000x1_1_0_0_1_n_n none (argsOfV V).e3R (argsOfV V).attw) (broadcastInDim S100000x1 ![] bcast_S_S100000x1 (constant (F := Ideal) S_ .f32 0x00000000#32)) :=
  (L21_main_call8_v1 (Stg 21 V) (Host.dotGeneral dot_S100000x32_S32x1_S100000x1_1_0_0_1_n_n none (argsOfV V).e3R (argsOfV V).attw)
    (Stg21_main_v156 V)).trans rfl

theorem Stg22_main_call8_v3 (V : Vl) : Stg 22 V (Proc.devRef .tc main_call8_v3) = mulf (broadcastInDim S100000x1 ![] bcast_S_S100000x1 (constant (F := Ideal) S_ .f32 0x3C23D70A#32)) (Host.dotGeneral dot_S100000x32_S32x1_S100000x1_1_0_0_1_n_n none (argsOfV V).e3R (argsOfV V).attw) :=
  (L21_main_call8_v3 (Stg 21 V) (Host.dotGeneral dot_S100000x32_S32x1_S100000x1_1_0_0_1_n_n none (argsOfV V).e3R (argsOfV V).attw)
    (Stg21_main_v156 V)).trans rfl

theorem Stg23_main_v157 (V : Vl) : Stg 23 V (Proc.devRef .tc main_v157) = leakyT (Host.dotGeneral dot_S100000x32_S32x1_S100000x1_1_0_0_1_n_n none (argsOfV V).e3R (argsOfV V).attw) :=
  (L22_main_v157 (Stg 22 V) (Host.dotGeneral dot_S100000x32_S32x1_S100000x1_1_0_0_1_n_n none (argsOfV V).e3R (argsOfV V).attw)
    (Stg22_main_call8_v1 V)
    ((carry 21 22 V main_v156 (by decide +kernel)).trans (Stg21_main_v156 V))
    (Stg22_main_call8_v3 V)).trans rfl

theorem Stg24_main_v173 (V : Vl) : Stg 24 V (Proc.devRef .tc main_v173) = (argsOfV V).hR :=
  (L23_main_v173 (Stg 23 V) (argsOfV V).c1R (argsOfV V).c2R (leakyT (Host.dotGeneral dot_S100000x32_S32x1_S100000x1_1_0_0_1_n_n none (argsOfV V).e3R (argsOfV V).attw)) (argsOfV V).e1R (argsOfV V).e2R (argsOfV V).e3R
    ((carry 8 23 V main_v52 (by decide +kernel)).trans (Stg8_main_v52 V))
    ((carry 16 23 V main_v105 (by decide +kernel)).trans (Stg16_main_v105 V))
    (Stg23_main_v157 V)
    ((carry 4 23 V main_v49 (by decide +kernel)).trans (Stg4_main_v49 V))
    ((carry 12 23 V main_v102 (by decide +kernel)).trans (Stg12_main_v102 V))
    ((carry 20 23 V main_v155 (by decide +kernel)).trans (Stg20_main_v155 V))).trans rfl

theorem Stg24_main_v181 (V : Vl) : Stg 24 V (Proc.devRef .tc main_v181) = colT (argsOfV V).ei1 :=
  (L23_main_v181 (Stg 23 V) (argsOfV V).ei1
    (carry 0 23 V main_arg3 (by decide +kernel))).trans rfl

theorem Stg24_main_v188 (V : Vl) : Stg 24 V (Proc.devRef .tc main_v188) = cmpf .ogt (degT (argsOfV V).ei1 (argsOfV V).ea1) zeros1 :=
  (L23_main_v188 (Stg 23 V) (argsOfV V).ei1 (argsOfV V).ea1
    (carry 0 23 V main_arg3 (by decide +kernel))
    (carry 0 23 V main_arg6 (by decide +kernel))).trans rfl

theorem Stg24_main_v189 (V : Vl) : Stg 24 V (Proc.devRef .tc main_v189) = Host.rsqrt (degT (argsOfV V).ei1 (argsOfV V).ea1) :=
  (L23_main_v189 (Stg 23 V) (argsOfV V).ei1 (argsOfV V).ea1
    (carry 0 23 V main_arg3 (by decide +kernel))
    (carry 0 23 V main_arg6 (by decide +kernel))).trans rfl

theorem Stg24_main_cst_35 (V : Vl) : Stg 24 V (Proc.devRef .tc main_cst_35) = (constant (F := Ideal) S_ .f32 0x00000000#32) :=
  (L23_main_cst_35 (Stg 23 V)).trans rfl

theorem Stg24_main_v180 (V : Vl) : Stg 24 V (Proc.devRef .tc main_v180) = rowT (argsOfV V).ei1 :=
  (L23_main_v180 (Stg 23 V) (argsOfV V).ei1
    (carry 0 23 V main_arg3 (by decide +kernel))).trans rfl

theorem Stg24_main_v183 (V : Vl) : Stg 24 V (Proc.devRef .tc main_v183) = ewT (argsOfV V).ea1 :=
  (L23_main_v183 (Stg 23 V) (argsOfV V).ea1
    (carry 0 23 V main_arg6 (by decide +kernel))).trans rfl

theorem Stg24_main_v174 (V : Vl) : Stg 24 V (Proc.devRef .tc main_v174) = (Host.dotGeneral dot_S100000x32_S32x32_S100000x32_1_0_0_1_n_n none (argsOfV V).hR (argsOfV V).Wo1) :=
  (L23_main_v174 (Stg 23 V) (argsOfV V).c1R (argsOfV V).c2R (leakyT (Host.dotGeneral dot_S100000x32_S32x1_S100000x1_1_0_0_1_n_n none (argsOfV V).e3R (argsOfV V).attw)) (argsOfV V).e1R (argsOfV V).e2R (argsOfV V).e3R (argsOfV V).Wo1
    ((carry 8 23 V main_v52 (by decide +kernel)).trans (Stg8_main_v52 V))
    ((carry 16 23 V main_v105 (by decide +kernel)).trans (Stg16_main_v105 V))
    (Stg23_main_v157 V)
    ((carry 4 23 V main_v49 (by decide +kernel)).trans (Stg4_main_v49 V))
    ((carry 12 23 V main_v102 (by decide +kernel)).trans (Stg12_main_v102 V))
    ((carry 20 23 V main_v155 (by decide +kernel)).trans (Stg20_main_v155 V))
    (carry 0 23 V main_arg15 (by decide +kernel))).trans rfl

theorem Stg24_main_v161 (V : Vl) : Stg 24 V (Proc.devRef .tc main_v161) = (argsOfV V).w1R :=
  (L23_main_v161 (Stg 23 V) (argsOfV V).c1R (argsOfV V).c2R (leakyT (Host.dotGeneral dot_S100000x32_S32x1_S100000x1_1_0_0_1_n_n none (argsOfV V).e3R (argsOfV V).attw))
    ((carry 8 23 V main_v52 (by decide +kernel)).trans (Stg8_main_v52 V))
    ((carry 16 23 V main_v105 (by decide +kernel)).trans (Stg16_main_v105 V))
    (Stg23_main_v157 V)).trans rfl

theorem Stg24_main_v162 (V : Vl) : Stg 24 V (Proc.devRef .tc main_v162) = (argsOfV V).w2R :=
  (L23_main_v162 (Stg 23 V) (argsOfV V).c1R (argsOfV V).c2R (leakyT (Host.dotGeneral dot_S100000x32_S32x1_S100000x1_1_0_0_1_n_n none (argsOfV V).e3R (argsOfV V).attw))
    ((carry 8 23 V main_v52 (by decide +kernel)).trans (Stg8_main_v52 V))
    ((carry 16 23 V main_v105 (by decide +kernel)).trans (Stg16_main_v105 V))
    (Stg23_main_v157 V)).trans rfl

theorem Stg24_main_v163 (V : Vl) : Stg 24 V (Proc.devRef .tc main_v163) = (argsOfV V).w3R :=
  (L23_main_v163 (Stg 23 V) (argsOfV V).c1R (argsOfV V).c2R (leakyT (Host.dotGeneral dot_S100000x32_S32x1_S100000x1_1_0_0_1_n_n none (argsOfV V).e3R (argsOfV V).attw))
    ((carry 8 23 V main_v52 (by decide +kernel)).trans (Stg8_main_v52 V))
    ((carry 16 23 V main_v105 (by decide +kernel)).trans (Stg16_main_v105 V))
    (Stg23_main_v157 V)).trans rfl

theorem Stg25_main_v190 (V : Vl) : Stg 25 V (Proc.devRef .tc main_v190) = dinvT (argsOfV V).ei1 (argsOfV V).ea1 :=
  (L24_main_v190 (Stg 24 V) (argsOfV V).ei1 (argsOfV V).ea1
    (Stg24_main_v188 V)
    (Stg24_main_v189 V)
    (Stg24_main_cst_35 V)).trans rfl

theorem Stg26_main_c_38 (V : Vl) : Stg 26 V (Proc.devRef .tc main_c_38) = (constantI S_ 32 0#32) :=
  (L25_main_c_38 (Stg 25 V)).trans rfl

theorem Stg26_main_v198 (V : Vl) : Stg 26 V (Proc.devRef .tc main_v198) = halfT (argsOfV V).ei1 (argsOfV V).ea1 :=
  (L25_main_v198 (Stg 25 V) (argsOfV V).ei1 (argsOfV V).ea1
    ((carry 24 25 V main_v180 (by decide +kernel)).trans (Stg24_main_v180 V))
    (Stg25_main_v190 V)
    ((carry 24 25 V main_v183 (by decide +kernel)).trans (Stg24_main_v183 V))).trans rfl

theorem Stg27_main_v239 (V : Vl) : Stg 27 V (Proc.devRef .tc main_v239) = cmpf .ogt (degT (argsOfV V).ei2 (argsOfV V).ea2) zeros1 :=
  (L26_main_v239 (Stg 26 V) (argsOfV V).ei2 (argsOfV V).ea2
    (carry 0 26 V main_arg4 (by decide +kernel))
    (carry 0 26 V main_arg7 (by decide +kernel))).trans rfl

theorem Stg27_main_v240 (V : Vl) : Stg 27 V (Proc.devRef .tc main_v240) = Host.rsqrt (degT (argsOfV V).ei2 (argsOfV V).ea2) :=
  (L26_main_v240 (Stg 26 V) (argsOfV V).ei2 (argsOfV V).ea2
    (carry 0 26 V main_arg4 (by decide +kernel))
    (carry 0 26 V main_arg7 (by decide +kernel))).trans rfl

theorem Stg27_main_cst_47 (V : Vl) : Stg 27 V (Proc.devRef .tc main_cst_47) = (constant (F := Ideal) S_ .f32 0x00000000#32) :=
  (L26_main_cst_47 (Stg 26 V)).trans rfl

theorem Stg27_main_v231 (V : Vl) : Stg 27 V (Proc.devRef .tc main_v231) = rowT (argsOfV V).ei2 :=
  (L26_main_v231 (Stg 26 V) (argsOfV V).ei2
    (carry 0 26 V main_arg4 (by decide +kernel))).trans rfl

theorem Stg27_main_v234 (V : Vl) : Stg 27 V (Proc.devRef .tc main_v234) = ewT (argsOfV V).ea2 :=
  (L26_main_v234 (Stg 26 V) (argsOfV V).ea2
    (carry 0 26 V main_arg7 (by decide +kernel))).trans rfl

theorem Stg27_main_v232 (V : Vl) : Stg 27 V (Proc.devRef .tc main_v232) = colT (argsOfV V).ei2 :=
  (L26_main_v232 (Stg 26 V) (argsOfV V).ei2
    (carry 0 26 V main_arg4 (by decide +kernel))).trans rfl

theorem Stg27_main_v225 (V : Vl) : Stg 27 V (Proc.devRef .tc main_v225) = (Host.dotGeneral dot_S100000x32_S32x32_S100000x32_1_0_0_1_n_n none (argsOfV V).hR (argsOfV V).Wo2) :=
  (L26_main_v225 (Stg 26 V) (argsOfV V).hR (argsOfV V).Wo2
    ((carry 24 26 V main_v173 (by decide +kernel)).trans (Stg24_main_v173 V))
    (carry 0 26 V main_arg16 (by decide +kernel))).trans rfl

theorem Stg27_main_v224 (V : Vl) : Stg 27 V (Proc.devRef .tc main_v224) = addf zeros2 ((argsOfV V).g2R (argsOfV V).Wo1 (argsOfV V).ei1 (argsOfV V).ea1 (argsOfV V).bo1) :=
  (L26_main_v224 (Stg 26 V) (argsOfV V).ei1 (argsOfV V).ea1 (Host.dotGeneral dot_S100000x32_S32x32_S100000x32_1_0_0_1_n_n none (argsOfV V).hR (argsOfV V).Wo1) (argsOfV V).bo1
    (Stg26_main_c_38 V)
    ((carry 24 26 V main_v181 (by decide +kernel)).trans (Stg24_main_v181 V))
    ((carry 25 26 V main_v190 (by decide +kernel)).trans (Stg25_main_v190 V))
    (Stg26_main_v198 V)
    ((carry 24 26 V main_v180 (by decide +kernel)).trans (Stg24_main_v180 V))
    ((carry 24 26 V main_v174 (by decide +kernel)).trans (Stg24_main_v174 V))
    (carry 0 26 V main_arg18 (by decide +kernel))).trans rfl

theorem Stg28_main_v241 (V : Vl) : Stg 28 V (Proc.devRef .tc main_v241) = dinvT (argsOfV V).ei2 (argsOfV V).ea2 :=
  (L27_main_v241 (Stg 27 V) (argsOfV V).ei2 (argsOfV V).ea2
    (Stg27_main_v239 V)
    (Stg27_main_v240 V)
    (Stg27_main_cst_47 V)).trans rfl

theorem Stg29_main_v247 (V : Vl) : Stg 29 V (Proc.devRef .tc main_v247) = idxCol (fixT (rowT (argsOfV V).ei2)) :=
  (L28_main_v247 (Stg 28 V) (argsOfV V).ei2
    ((carry 27 28 V main_v231 (by decide +kernel)).trans (Stg27_main_v231 V))).trans rfl

theorem Stg30_main_v281 (V : Vl) : Stg 30 V (Proc.devRef .tc main_v281) = rowT (argsOfV V).ei3 :=
  (L29_main_v281 (Stg 29 V) (argsOfV V).ei3
    (carry 0 29 V main_arg5 (by decide +kernel))).trans rfl

theorem Stg30_main_v289 (V : Vl) : Stg 30 V (Proc.devRef .tc main_v289) = cmpf .ogt (degT (argsOfV V).ei3 (argsOfV V).ea3) zeros1 :=
  (L29_main_v289 (Stg 29 V) (argsOfV V).ei3 (argsOfV V).ea3
    (carry 0 29 V main_arg5 (by decide +kernel))
    (carry 0 29 V main_arg8 (by decide +kernel))).trans rfl

theorem Stg30_main_v290 (V : Vl) : Stg 30 V (Proc.devRef .tc main_v290) = Host.rsqrt (degT (argsOfV V).ei3 (argsOfV V).ea3) :=
  (L29_main_v290 (Stg 29 V) (argsOfV V).ei3 (argsOfV V).ea3
    (carry 0 29 V main_arg5 (by decide +kernel))
    (carry 0 29 V main_arg8 (by decide +kernel))).trans rfl

theorem Stg30_main_cst_58 (V : Vl) : Stg 30 V (Proc.devRef .tc main_cst_58) = (constant (F := Ideal) S_ .f32 0x00000000#32) :=
  (L29_main_cst_58 (Stg 29 V)).trans rfl

theorem Stg30_main_v284 (V : Vl) : Stg 30 V (Proc.devRef .tc main_v284) = ewT (argsOfV V).ea3 :=
  (L29_main_v284 (Stg 29 V) (argsOfV V).ea3
    (carry 0 29 V main_arg8 (by decide +kernel))).trans rfl

theorem Stg30_main_v282 (V : Vl) : Stg 30 V (Proc.devRef .tc main_v282) = colT (argsOfV V).ei3 :=
  (L29_main_v282 (Stg 29 V) (argsOfV V).ei3
    (carry 0 29 V main_arg5 (by decide +kernel))).trans rfl

theorem Stg30_main_v275 (V : Vl) : Stg 30 V (Proc.devRef .tc main_v275) = (Host.dotGeneral dot_S100000x32_S32x32_S100000x32_1_0_0_1_n_n none (argsOfV V).hR (argsOfV V).Wo3) :=
  (L29_main_v275 (Stg 29 V) (argsOfV V).hR (argsOfV V).Wo3
    ((carry 24 29 V main_v173 (by decide +kernel)).trans (Stg24_main_v173 V))
    (carry 0 29 V main_arg17 (by decide +kernel))).trans rfl

theorem Stg30_main_v274 (V : Vl) : Stg 30 V (Proc.devRef .tc main_v274) = addf (addf zeros2 ((argsOfV V).g2R (argsOfV V).Wo1 (argsOfV V).ei1 (argsOfV V).ea1 (argsOfV V).bo1)) ((argsOfV V).g2R (argsOfV V).Wo2 (argsOfV V).ei2 (argsOfV V).ea2 (argsOfV V).bo2) :=
  (L29_main_v274 (Stg 29 V) (argsOfV V).ei2 (argsOfV V).ea2 (Host.dotGeneral dot_S100000x32_S32x32_S100000x32_1_0_0_1_n_n none (argsOfV V).hR (argsOfV V).Wo2) (argsOfV V).bo2 (addf zeros2 ((argsOfV V).g2R (argsOfV V).Wo1 (argsOfV V).ei1 (argsOfV V).ea1 (argsOfV V).bo1))
    ((carry 28 29 V main_v241 (by decide +kernel)).trans (Stg28_main_v241 V))
    (Stg29_main_v247 V)
    ((carry 27 29 V main_v234 (by decide +kernel)).trans (Stg27_main_v234 V))
    ((carry 27 29 V main_v232 (by decide +kernel)).trans (Stg27_main_v232 V))
    ((carry 27 29 V main_v231 (by decide +kernel)).trans (Stg27_main_v231 V))
    ((carry 27 29 V main_v225 (by decide +kernel)).trans (Stg27_main_v225 V))
    (carry 0 29 V main_arg19 (by decide +kernel))
    ((carry 27 29 V main_v224 (by decide +kernel)).trans (Stg27_main_v224 V))).trans rfl

theorem Stg31_main_v291 (V : Vl) : Stg 31 V (Proc.devRef .tc main_v291) = dinvT (argsOfV V).ei3 (argsOfV V).ea3 :=
  (L30_main_v291 (Stg 30 V) (argsOfV V).ei3 (argsOfV V).ea3
    (Stg30_main_v289 V)
    (Stg30_main_v290 V)
    (Stg30_main_cst_58 V)).trans rfl

theorem Stg32_main_v296 (V : Vl) : Stg 32 V (Proc.devRef .tc main_v296) = fixT (rowT (argsOfV V).ei3) :=
  (L31_main_v296 (Stg 31 V) (argsOfV V).ei3
    ((carry 30 31 V main_v281 (by decide +kernel)).trans (Stg30_main_v281 V))).trans rfl

theorem Stg33_main_v324 (V : Vl) : Stg 33 V (Proc.devRef .tc main_v324) = (argsOfV V).outR :=
  (L32_main_v324 (Stg 32 V) (argsOfV V).ei3 (argsOfV V).ea3 (Host.dotGeneral dot_S100000x32_S32x32_S100000x32_1_0_0_1_n_n none (argsOfV V).hR (argsOfV V).Wo3) (argsOfV V).bo3 (addf (addf zeros2 ((argsOfV V).g2R (argsOfV V).Wo1 (argsOfV V).ei1 (argsOfV V).ea1 (argsOfV V).bo1)) ((argsOfV V).g2R (argsOfV V).Wo2 (argsOfV V).ei2 (argsOfV V).ea2 (argsOfV V).bo2))
    (Stg32_main_v296 V)
    ((carry 31 32 V main_v291 (by decide +kernel)).trans (Stg31_main_v291 V))
    ((carry 30 32 V main_v284 (by decide +kernel)).trans (Stg30_main_v284 V))
    ((carry 30 32 V main_v282 (by decide +kernel)).trans (Stg30_main_v282 V))
    ((carry 30 32 V main_v281 (by decide +kernel)).trans (Stg30_main_v281 V))
    ((carry 30 32 V main_v275 (by decide +kernel)).trans (Stg30_main_v275 V))
    (carry 0 32 V main_arg20 (by decide +kernel))
    ((carry 30 32 V main_v274 (by decide +kernel)).trans (Stg30_main_v274 V))).trans rfl

end Cert.ReferenceIdeal.RefRead

end
-- ==== Proof.RefRead.lean ====
import proofs.«426271_j85796266705527_4_alg».proof.Proof.RefReadS

noncomputable section

namespace Cert.ReferenceIdeal.RefRead

open Cert.ReferenceIdeal Cert.ReferenceIdeal.Run
open Idealize.ShloMosaic Idealize.ShloMosaic.TcCoe Idealize.SL.Sem
open Cert.SpecT

theorem read_out (V : Vl) : StableHlo.after (refOps (F := Ideal)) V (Proc.devRef .tc main_v324) = (argsOfV V).outR :=
  (congrFun (after_refOps V) _).trans (Stg33_main_v324 V)

theorem read_w1 (V : Vl) : StableHlo.after (refOps (F := Ideal)) V (Proc.devRef .tc main_v161) = (argsOfV V).w1R :=
  (congrFun (after_refOps V) _).trans ((carry 24 33 V main_v161 (by decide +kernel)).trans (Stg24_main_v161 V))

theorem read_w2 (V : Vl) : StableHlo.after (refOps (F := Ideal)) V (Proc.devRef .tc main_v162) = (argsOfV V).w2R :=
  (congrFun (after_refOps V) _).trans ((carry 24 33 V main_v162 (by decide +kernel)).trans (Stg24_main_v162 V))

theorem read_w3 (V : Vl) : StableHlo.after (refOps (F := Ideal)) V (Proc.devRef .tc main_v163) = (argsOfV V).w3R :=
  (congrFun (after_refOps V) _).trans ((carry 24 33 V main_v163 (by decide +kernel)).trans (Stg24_main_v163 V))

/-- No operation writes an argument. -/
theorem read_arg (V : Vl) (r : Ref sig .tc) (hr : r ∈ argRefs) :
    StableHlo.after (refOps (F := Ideal)) V (Proc.devRef .tc r) = V (Proc.devRef .tc r) :=
  (congrFun (after_refOps V) _).trans (carry 0 33 V r (carry_arg r hr))

end Cert.ReferenceIdeal.RefRead

end
-- ==== Proof.MathAtt.lean ====
import proofs.«426271_j85796266705527_4_alg».proof.Proof.Spec
import Mathlib.Data.EReal.Basic
import Mathlib.Data.EReal.Operations
import Mathlib.Analysis.SpecialFunctions.Exp
import Mathlib.Algebra.BigOperators.Group.Finset.Basic
import Mathlib.Tactic.FieldSimp
import Mathlib.Tactic.Positivity

noncomputable section

namespace Cert.Spec

open Idealize.ShloMosaic Idealize.ShloMosaic.ValueIdx

def IsReal (t : EReal) : Prop := ∃ v : ℝ, t = (v : EReal)

theorem IsReal.add {s t : EReal} : IsReal s → IsReal t → IsReal (s + t) := by
  rintro ⟨u, rfl⟩ ⟨v, rfl⟩; exact ⟨u + v, (EReal.coe_add u v).symm⟩

theorem IsReal.mul {s t : EReal} : IsReal s → IsReal t → IsReal (s * t) := by
  rintro ⟨u, rfl⟩ ⟨v, rfl⟩; exact ⟨u * v, (EReal.coe_mul u v).symm⟩

-- A maximum is one of its two arguments.
theorem IsReal.max {s t : EReal} (hs : IsReal s) (ht : IsReal t) : IsReal (max s t) := by
  rcases max_choice s t with h | h <;> rw [h] <;> assumption

theorem isReal_sum {ι : Type} (s : Finset ι) {f : ι → EReal} (h : ∀ i, IsReal (f i)) : IsReal (∑ i ∈ s, f i) :=
  Finset.sum_induction f IsReal (fun _ _ => IsReal.add) ⟨0, rfl⟩ fun i _ => h i

-- The slope's pattern has biased exponent 120, neither all ones nor zero.
theorem slope_real : IsReal slope := by
  unfold slope IsReal
  simp only [Ideal.ofBits, Ideal.ieee]
  rw [if_neg (by decide), if_neg (by decide)]
  exact ⟨_, rfl⟩

theorem relu_isReal {acc : Arr2 nN 32} {b : Arr1 32} (hacc : Fin2 acc) (hb : Fin1 b) (p : Fin nN) (k : Fin 32) :
    IsReal (relu acc b p k) :=
  IsReal.max (IsReal.add (hacc _) (hb _)) ⟨0, rfl⟩

theorem logit_isReal {acc : Arr2 nN 32} {b : Arr1 32} {a : Fin 32 → EReal} (hacc : Fin2 acc) (hb : Fin1 b)
    (ha : ∀ k, IsReal (a k)) (p : Fin nN) : IsReal (logit acc b a p) := by
  have hs := isReal_sum Finset.univ fun k => (relu_isReal hacc hb p k).mul (ha k)
  unfold logit leaky
  split
  · exact hs
  · exact slope_real.mul hs

-- For reals exp (s - m) = exp s / exp m, and the common factor exp m cancels in the quotient.
theorem quot_shift {n r1 r2 r3 m : EReal} (hn : IsReal n) (h1 : IsReal r1) (h2 : IsReal r2) (h3 : IsReal r3)
    (hm : IsReal m) :
    Ideal.div (Ideal.exp (n - m)) ((Ideal.exp (r1 - m) + Ideal.exp (r2 - m)) + Ideal.exp (r3 - m))
        = Ideal.div (Ideal.exp n) ((Ideal.exp r1 + Ideal.exp r2) + Ideal.exp r3)
      ∧ IsReal (Ideal.div (Ideal.exp (n - m)) ((Ideal.exp (r1 - m) + Ideal.exp (r2 - m)) + Ideal.exp (r3 - m))) := by
  obtain ⟨n, rfl⟩ := hn; obtain ⟨r1, rfl⟩ := h1; obtain ⟨r2, rfl⟩ := h2; obtain ⟨r3, rfl⟩ := h3; obtain ⟨m, rfl⟩ := hm
  have q : ∀ a b c d : ℝ, Ideal.div (Ideal.exp (a : EReal)) ((Ideal.exp (b : EReal) + Ideal.exp (c : EReal)) + Ideal.exp (d : EReal))
      = ((Real.exp a / ((Real.exp b + Real.exp c) + Real.exp d) : ℝ) : EReal) := fun a b c d => by
    simp only [Ideal.exp_coe, ← EReal.coe_add]
    rw [Ideal.div_coe (by positivity), ← EReal.coe_mul, mul_one_div]
  simp only [← EReal.coe_sub]
  rw [q, q]
  refine ⟨congrArg _ ?_, _, rfl⟩
  simp only [Real.exp_sub]
  have hm : Real.exp m ≠ 0 := (Real.exp_pos m).ne'
  have hS : (Real.exp r1 + Real.exp r2) + Real.exp r3 ≠ 0 := by positivity
  field_simp

namespace AttIn

structure Finite (x : AttIn) : Prop where
  acc1 : Fin2 x.acc1
  acc2 : Fin2 x.acc2
  acc3 : Fin2 x.acc3
  b1 : Fin1 x.b1
  b2 : Fin1 x.b2
  b3 : Fin1 x.b3
  a : ∀ k, IsReal (x.a k)

variable {x : AttIn} (h : x.Finite)
include h

-- The three logits of a row are reals, so is their maximum; the shift by it cancels for any real numerator logit.
theorem Finite.shift (p : Fin nN) {n : EReal} (hn : IsReal n) :
    Ideal.div (Ideal.exp (n - x.mx p)) (x.sumK p) = Ideal.div (Ideal.exp n) (x.sumR p)
      ∧ IsReal (Ideal.div (Ideal.exp (n - x.mx p)) (x.sumK p)) :=
  have h1 := logit_isReal h.acc1 h.b1 h.a p
  have h2 := logit_isReal h.acc2 h.b2 h.a p
  have h3 := logit_isReal h.acc3 h.b3 h.a p
  quot_shift hn h1 h2 h3 ((h1.max h2).max h3)

theorem Finite.term {acc : Arr2 nN 32} {b : Arr1 32} (hacc : Fin2 acc) (hb : Fin1 b) (p : Fin nN) (k : Fin 32) :
    IsReal (Ideal.div (Ideal.exp (logit acc b x.a p - x.mx p)) (x.sumK p) * relu acc b p k) :=
  (h.shift p (logit_isReal hacc hb h.a p)).2.mul (relu_isReal hacc hb p k)

theorem hK_real : Fin2 x.hKArr := fun _ =>
  ((h.term h.acc1 h.b1 _ _).add (h.term h.acc2 h.b2 _ _)).add (h.term h.acc3 h.b3 _ _)

end AttIn

end Cert.Spec

end
-- ==== Proof.MathFin.lean ====
import proofs.«426271_j85796266705527_4_alg».proof.Proof.SpecT
import proofs.«426271_j85796266705527_4_alg».proof.Proof.MathAtt
import Idealize.ShloMosaic.PureOps.Ideal.Laws
import Idealize.ShloMosaic.Lib.ValueIdx
import Idealize.ShloMosaic.Lib.IdealHost

noncomputable section

namespace Cert.SpecT

open Idealize.ShloMosaic Idealize.ShloMosaic.ValueIdx Cert.ReferenceIdeal Cert.ReferenceIdeal.Facts₀ Cert.Spec

variable [Cert.ReferenceIdeal.Facts]

def FinV {s : Shape} (x : FVec Ideal s .f32) : Prop := ∀ j, IsReal (x j)

theorem zeroSplat_apply {t : Shape} (dims : Fin S_.rank → Fin t.rank) (hb : S_.BroadcastsInDim t dims) (i : t.Idx) :
    broadcastInDim t dims hb (constant (F := Ideal) S_ .f32 0x00000000#32) i = 0 := Ideal.ofBits_zero_f32

theorem zeros2_apply (i : S100000x32.Idx) : zeros2 (F := Ideal) i = 0 := Ideal.ofBits_zero_f32

theorem zeros_fin {t : Shape} (dims : Fin S_.rank → Fin t.rank) (hb : S_.BroadcastsInDim t dims) :
    FinV (broadcastInDim t dims hb (constant (F := Ideal) S_ .f32 0x00000000#32)) :=
  fun i => ⟨0, by rw [EReal.coe_zero]; exact zeroSplat_apply _ _ i⟩

-- Each entry of a concatenation is an entry of one piece.
theorem concatenate_fin (t : Shape) (a : Fin t.rank) (xs : List ((s : Shape) × (s.Idx → EReal)))
    (h : Shape.Concatenates (xs.map (·.1)) t a) (hx : ∀ p ∈ xs, ∀ i, IsReal (p.2 i)) (j : t.Idx) :
    IsReal (concatenate t a xs h j) := by
  unfold concatenate
  exact hx _ (List.getElem_mem _) _

-- Each entry is the operand's entry plus a finite sum of update entries.
theorem scatterAdd_fin {s si su : Shape} {w : Nat} (d : ScatterDims s si su) {x : FVec Ideal s .f32} (idx : IVec si w)
    {upd : FVec Ideal su .f32} (hx : FinV x) (hu : FinV upd) : FinV (Host.scatterAdd d x idx upd) :=
  fun i => (hx i).add (isReal_sum _ fun j => hu j)

theorem ewT_fin {ea : FVec Ideal S1600000 .f32} (h : FinV ea) : FinV (ewT (F := Ideal) ea) := fun j => by
  refine concatenate_fin _ _ _ _ (fun p hp i => ?_) j
  simp only [List.mem_cons, List.not_mem_nil, or_false] at hp
  rcases hp with rfl | rfl
  · exact h i
  · exact ⟨1, Ideal.ofBits_one_f32⟩

-- The reciprocal square root is taken only of a positive real, where it is a real.
theorem select_rsqrt_real {d : EReal} (hd : IsReal d) :
    IsReal (Scalar.select (Ideal.cmp .ogt d 0) (Ideal.rsqrt d) 0) := by
  obtain ⟨v, rfl⟩ := hd
  by_cases hpos : (0 : EReal) < (v : EReal)
  · have hv : 0 < v := by exact_mod_cast hpos
    unfold Scalar.select
    split
    · exact ⟨_, by rw [Ideal.rsqrt_coe, if_neg (not_lt.2 hv.le), if_neg hv.ne']⟩
    · exact ⟨0, EReal.coe_zero.symm⟩
  · rw [show Ideal.cmp .ogt (v : EReal) 0 = 0#1 by unfold Ideal.cmp; rw [decide_eq_false hpos]; rfl, select_zero]
    exact ⟨0, EReal.coe_zero.symm⟩

theorem select_rsqrt_fin {s : Shape} (d z₀ z₁ : FVec Ideal s .f32) (hd : FinV d) (h₀ : ∀ i, z₀ i = 0)
    (h₁ : ∀ i, z₁ i = 0) : FinV (select (cmpf .ogt d z₀) (Host.rsqrt d) z₁) := by
  intro i
  rw [select_apply, cmpf_apply, Ideal.cmpf_def, h₀ i, h₁ i]
  unfold Host.rsqrt
  rw [Ideal.hostUnary_rsqrt_def]
  exact select_rsqrt_real (hd i)

theorem degT_fin (ei : Ei) {ea : FVec Ideal S1600000 .f32} (h : FinV ea) : FinV (degT (F := Ideal) ei ea) :=
  scatterAdd_fin _ _ (zeros_fin _ _) (ewT_fin h)

theorem dinvT_fin (ei : Ei) {ea : FVec Ideal S1600000 .f32} (h : FinV ea) : FinV (dinvT (F := Ideal) ei ea) :=
  select_rsqrt_fin _ _ _ (degT_fin ei h) (fun i => zeroSplat_apply _ _ i) (fun i => zeroSplat_apply _ _ i)

theorem mulf_fin {s : Shape} {a b : FVec Ideal s .f32} (ha : FinV a) (hb : FinV b) : FinV (mulf (F := Ideal) a b) :=
  fun j => (ha j).mul (hb j)

theorem gather_fin {s si t : Shape} {w : Nat} (d : GatherDims s si t) {x : FVec Ideal s .f32} (idx : IVec si w)
    (hx : FinV x) : FinV (Host.gather d x idx) :=
  fun _ => hx _

theorem normT_fin (ei : Ei) {ea : FVec Ideal S1600000 .f32} (h : FinV ea) : FinV (normT (F := Ideal) ei ea) :=
  mulf_fin (mulf_fin (gather_fin _ _ (dinvT_fin ei h)) (ewT_fin h)) (gather_fin _ _ (dinvT_fin ei h))

theorem gssT_fin {feat : FVec Ideal S100000x32 .f32} (ei : Ei) {nrm : FVec Ideal S1700000 .f32} (hf : FinV feat)
    (hn : FinV nrm) : FinV (gssT (F := Ideal) feat ei nrm) :=
  scatterAdd_fin _ _ (zeros_fin _ _) (mulf_fin (fun _ => hn _) (gather_fin _ _ hf))

theorem mm_apply {K C : Nat} (x : Arr2 nN K) (w : Arr2 K C) (p : Fin nN) (q : Fin C) :
    mm x w (ix2 p q) = ∑ k : Fin K, x (ix2 p k) * w (ix2 k q) := rfl

theorem mm_fin {K C : Nat} {x : Arr2 nN K} {w : Arr2 K C} (hx : Fin2 x) (hw : Fin2 w) : Fin2 (mm x w) :=
  fun i => isReal_sum Finset.univ fun k => IsReal.mul (hx (ix2 (i 0) k)) (hw (ix2 k (i 1)))

end Cert.SpecT

end
-- ==== Proof.MathLin.lean ====
import proofs.«426271_j85796266705527_4_alg».proof.Proof.MathFin
import Mathlib.Algebra.BigOperators.Group.Finset.Sigma
import Mathlib.Algebra.BigOperators.Ring.Finset

noncomputable section

namespace Cert.SpecT

open Idealize.ShloMosaic Idealize.ShloMosaic.ValueIdx Cert.ReferenceIdeal Cert.ReferenceIdeal.Facts₀ Cert.Spec

variable [Cert.ReferenceIdeal.Facts]

-- An update lands on an operand index exactly when start plus window coordinate is that index on every axis.
theorem resultIdx?_eq_some_iff {s si u : Shape} (d : ScatterDims s si u) {w : Nat} (j : u.Idx) (idx : IVec si w)
    (i : s.Idx) :
    d.resultIdx? j idx = some i ↔ ∀ a, d.start j idx a + d.window j a = ((i a).val : Int) := by
  unfold ScatterDims.resultIdx?
  split
  · rename_i h
    simp only [Option.some.injEq, funext_iff, Fin.ext_iff]
    exact forall_congr' fun a => by have := h a; omega
  · rename_i h
    exact iff_of_false (by simp) fun h' => h fun a => by have := h' a; have := (i a).isLt; omega

theorem scatter2_siIdx (e : Fin 1700000) (k : Fin 32) (c : Fin scatter_S100000x32_S1700000x1_S1700000x32_1_0_0_1.scatterDimsToOperandDims.length) :
    scatter_S100000x32_S1700000x1_S1700000x32_1_0_0_1.siIdx (ix2 e k) c = ix2 e 0 := by
  funext b
  match b with
  | ⟨0, _⟩ => rfl
  | ⟨1, _⟩ =>
    apply Fin.ext
    have := c.isLt
    show c.val = 0
    change c.val < 1 at this
    omega

-- Which edges land on a row does not depend on the column.
theorem scatter2_lands_iff {w : Nat} (idx : IVec S1700000x1 w) (e : Fin 1700000) (k q : Fin 32) (n : Fin 100000) :
    scatter_S100000x32_S1700000x1_S1700000x32_1_0_0_1.resultIdx? (ix2 e k) idx = some (ix2 n q) ↔ k = q ∧ (idx (ix2 e 0)).toInt = (n.val : Int) := by
  rw [resultIdx?_eq_some_iff, Fin.forall_fin_two]
  show (idx (scatter_S100000x32_S1700000x1_S1700000x32_1_0_0_1.siIdx (ix2 e k) _)).toInt + ((0 : Nat) : Int) = (n.val : Int)
    ∧ (0 : Int) + ((k.val : Nat) : Int) = (q.val : Int) ↔ _
  rw [scatter2_siIdx, Fin.ext_iff]
  omega

theorem gather2_siIdx (e : Fin 1700000) (k : Fin 32) (c : Fin gather_S100000x32_S1700000x1_S1700000x32_1_0_n_n_0_1_132.startIndexMap.length) :
    gather_S100000x32_S1700000x1_S1700000x32_1_0_n_n_0_1_132.siIdx (ix2 e k) c = ix2 e 0 := by
  funext b
  match b with
  | ⟨0, _⟩ => rfl
  | ⟨1, _⟩ =>
    apply Fin.ext
    have := c.isLt
    show c.val = 0
    change c.val < 1 at this
    omega

def gRow {w : Nat} (idx : IVec S1700000x1 w) (e : Fin 1700000) : Fin 100000 :=
  ⟨min (idx (ix2 e 0)).toInt.toNat 99999, by omega⟩

-- The source row of a gathered entry does not depend on the column.
theorem gather2_source {w : Nat} (idx : IVec S1700000x1 w) (e : Fin 1700000) (k : Fin 32) :
    gather_S100000x32_S1700000x1_S1700000x32_1_0_n_n_0_1_132.operandIdx (ix2 e k) idx = ix2 (gRow idx e) k := by
  funext a
  apply Fin.ext
  match a with
  | ⟨0, _⟩ =>
    show min (idx (gather_S100000x32_S1700000x1_S1700000x32_1_0_n_n_0_1_132.siIdx (ix2 e k) _)).toInt.toNat _ + 0 + 0 = _
    rw [gather2_siIdx]
    rfl
  | ⟨1, _⟩ =>
    show 0 + 0 + k.val = k.val
    omega

theorem scatter2_sum {w : Nat} (idx : IVec S1700000x1 w) (upd : S1700000x32.Idx → EReal) (n : Fin 100000) (q : Fin 32)
    [DecidablePred fun j : S1700000x32.Idx => scatter_S100000x32_S1700000x1_S1700000x32_1_0_0_1.resultIdx? j idx = some (ix2 n q)] :
    ∑ j ∈ Finset.univ.filter (fun j : S1700000x32.Idx => scatter_S100000x32_S1700000x1_S1700000x32_1_0_0_1.resultIdx? j idx = some (ix2 n q)), upd j
      = ∑ e ∈ Finset.univ.filter (fun e : Fin 1700000 => (idx (ix2 e 0)).toInt = (n.val : Int)), upd (ix2 e q) := by
  rw [Finset.sum_filter, sum_idx2, Finset.sum_filter]
  refine Finset.sum_congr rfl fun e _ => ?_
  simp only [scatter2_lands_iff]
  by_cases hL : (idx (ix2 e 0)).toInt = (n.val : Int) <;> simp [hL]

theorem nrmB_apply (nrm : FVec Ideal S1700000 .f32) (e : Fin 1700000) (q : Fin 32) :
    broadcastInDim S1700000x32 ![0, 1] bcast_S1700000x1_S1700000x32_0_1
      (broadcastInDim S1700000x1 ![0] bcast_S1700000_S1700000x1_0 nrm) (ix2 e q) = nrm (ix1 e) := by
  simp only [broadcastInDim]
  congr 1
  funext a
  match a with
  | ⟨0, _⟩ => rfl

theorem scatterAdd_apply {s si u : Shape} (d : ScatterDims s si u) {w : Nat} (x : FVec Ideal s .f32)
    (idx : IVec si w) (upd : FVec Ideal u .f32) (i : s.Idx) :
    Host.scatterAdd d x idx upd i
      = x i + ∑ j ∈ Finset.univ.filter (fun j => d.resultIdx? j idx = some i), upd j := rfl

theorem gather_apply {s si t : Shape} (d : GatherDims s si t) {w : Nat} (x : FVec Ideal s .f32) (idx : IVec si w)
    (j : t.Idx) : Host.gather d x idx j = x (d.operandIdx j idx) := rfl

-- Entry (n, q): over the edges whose target is n, the edge's norm times the source row's entry in column q.
theorem gssT_apply (feat : Arr2 nN 32) (ei : Ei) (nrm : FVec Ideal S1700000 .f32) (n : Fin 100000) (q : Fin 32) :
    gssT (F := Ideal) feat ei nrm (ix2 n q)
      = ∑ e ∈ Finset.univ.filter (fun e : Fin 1700000 => (idxCol (colT ei) (ix2 e 0)).toInt = (n.val : Int)),
          nrm (ix1 e) * feat (ix2 (gRow (idxCol (fixT (rowT ei))) e) q) := by
  unfold gssT
  rw [scatterAdd_apply, zeros2_apply, zero_add, scatter2_sum]
  refine Finset.sum_congr rfl fun e _ => ?_
  rw [mulf_apply, nrmB_apply, gather_apply, gather2_source]

theorem coe_sum {ι : Type} (s : Finset ι) (f : ι → ℝ) : ((∑ i ∈ s, f i : ℝ) : EReal) = ∑ i ∈ s, (f i : EReal) :=
  map_sum (⟨⟨(↑), EReal.coe_zero⟩, EReal.coe_add⟩ : ℝ →+ EReal) f s

-- Over reals the product distributes over both sums, which then exchange.
theorem exchange {ι κ : Type} [Fintype κ] (E : Finset ι) {a : ι → EReal} {H : ι → κ → EReal} {W : κ → EReal}
    (ha : ∀ e, IsReal (a e)) (hH : ∀ e l, IsReal (H e l)) (hW : ∀ l, IsReal (W l)) :
    ∑ e ∈ E, a e * ∑ l, H e l * W l = ∑ l, (∑ e ∈ E, a e * H e l) * W l := by
  simp only [IsReal] at ha hH hW
  choose a' ha' using ha
  choose H' hH' using hH
  choose W' hW' using hW
  simp only [ha', hH', hW', ← EReal.coe_mul, ← coe_sum]
  refine congrArg _ ?_
  simp only [Finset.mul_sum, Finset.sum_mul, mul_assoc]
  exact Finset.sum_comm

-- Propagation commutes with a right product: the edges summed over and their source rows do not depend on the column.
theorem gss_mm (h : Arr2 nN 32) (Wo : Arr2 32 32) (ei : Ei) (nrm : FVec Ideal S1700000 .f32)
    (hh : Fin2 h) (hW : Fin2 Wo) (hn : FinV nrm) :
    gssT (F := Ideal) (mm (K := 32) (C := 32) h Wo) ei nrm
      = mm (K := 32) (C := 32) (gssT (F := Ideal) h ei nrm) Wo := by
  funext i
  obtain ⟨n, q, rfl⟩ : ∃ (n : Fin 100000) (q : Fin 32), i = ix2 n q := ⟨i 0, i 1, eq_ix2 i⟩
  rw [gssT_apply]
  simp only [mm_apply]
  rw [exchange]
  · exact Finset.sum_congr rfl fun l _ => by rw [gssT_apply]
  · exact fun _ => hn _
  · exact fun _ _ => hh _
  · exact fun _ => hW _

end Cert.SpecT

end
-- ==== Proof.MathDot.lean ====
import proofs.«426271_j85796266705527_4_alg».proof.Proof.MathFin
import Idealize.ShloMosaic.Lib.StackMember
import Idealize.ShloMosaic.Lib.Pipeline.Value

noncomputable section

namespace Cert.SpecT

open Idealize.ShloMosaic Idealize.ShloMosaic.ValueIdx Cert.ReferenceIdeal Cert.ReferenceIdeal.Facts₀ Cert.Spec

variable [Cert.ReferenceIdeal.Facts]

theorem eq_ix2_col (i : S100000x1.Idx) : i = ix2 (i 0) 0 :=
  (eq_ix2 i).trans (congrArg (ix2 (i 0)) (Subsingleton.elim (α := Fin 1) _ _))

-- A product with one contracted axis is, entry by entry, the sum over the contracted coordinate.
theorem dot_eq {K C : Nat} (x : FVec Ideal ⟨2, ![nN, K]⟩ .f32) (w : FVec Ideal ⟨2, ![K, C]⟩ .f32) :
    Host.dotGeneral (F := Ideal) (DotDims.plain nN K C) none x w = mm (K := K) (C := C) x w := by
  funext i
  obtain ⟨p, q, rfl⟩ : ∃ (p : Fin nN) (q : Fin C), i = ix2 p q := ⟨i 0, i 1, eq_ix2 i⟩
  exact StackMember.dotGeneral_plain_apply none x w p q

theorem dot1_eq (x : FVec Ideal S100000x128 .f32) (W : FVec Ideal S128x32 .f32) :
    Host.dotGeneral (F := Ideal) dot_S100000x128_S128x32_S100000x32_1_0_0_1_n_n none x W = mm (K := 128) (C := 32) x W :=
  dot_eq x W

theorem dot3_eq (h : FVec Ideal S100000x32 .f32) (Wo : FVec Ideal S32x32 .f32) :
    Host.dotGeneral (F := Ideal) dot_S100000x32_S32x32_S100000x32_1_0_0_1_n_n none h Wo = mm (K := 32) (C := 32) h Wo :=
  dot_eq h Wo

theorem dot2_apply (e : FVec Ideal S100000x32 .f32) (attw : FVec Ideal S32x1 .f32) (p : Fin 100000) :
    Host.dotGeneral (F := Ideal) dot_S100000x32_S32x1_S100000x1_1_0_0_1_n_n none e attw (ix2 p 0)
      = ∑ k : Fin 32, e (ix2 p k) * attw (ix2 k 0) :=
  StackMember.dotGeneral_plain_apply (m := 100000) (n := 1) (k := 32) none e attw p 0

section Pointwise

variable (x : FVec Ideal S100000x128 .f32) (ei : Ei) (ea : FVec Ideal S1600000 .f32) (W : FVec Ideal S128x32 .f32)
  (b : FVec Ideal S32 .f32) (attw : FVec Ideal S32x1 .f32)

theorem biasRows_apply (p : Fin 100000) (k : Fin 32) : biasRows (F := Ideal) b (ix2 p k) = b (ix1 k) := by
  unfold biasRows
  rw [broadcastInDim_apply _ _ _ (ix2 p k) (ix2 (0 : Fin 1) k) (fun a => match a with | ⟨0, _⟩ => rfl | ⟨1, _⟩ => rfl),
    broadcastInDim_apply _ _ _ (ix2 (0 : Fin 1) k) (ix1 k) (fun a => match a with | ⟨0, _⟩ => rfl)]

theorem colRows_apply (w : FVec Ideal S100000x1 .f32) (p : Fin 100000) (k : Fin 32) :
    colRows (F := Ideal) w (ix2 p k) = w (ix2 p 0) := by
  unfold colRows
  rw [broadcastInDim_apply _ _ _ (ix2 p k) (ix2 p (0 : Fin 1)) (fun a => match a with | ⟨0, _⟩ => rfl | ⟨1, _⟩ => rfl)]

theorem embR_apply (p : Fin 100000) (k : Fin 32) :
    embR (F := Ideal) x ei ea W b (ix2 p k)
      = relu (gssT (F := Ideal) (mm (K := 128) (C := 32) x W) ei (normT ei ea)) b p k := by
  unfold embR relu
  rw [maximumf_apply, addf_apply, biasRows_apply, zeros2_apply, dot1_eq]

theorem leakyT_apply (s : FVec Ideal S100000x1 .f32) (i : S100000x1.Idx) : leakyT (F := Ideal) s i = leaky (s i) := by
  unfold leakyT leaky
  rw [select_apply, cmpf_apply, mulf_apply, broadcastInDim_scalar_apply, broadcastInDim_scalar_apply, constant_apply,
    constant_apply, Ideal.ofBits_zero_f32, Ideal.cmpf_def]
  by_cases h : 0 ≤ s i
  · rw [if_pos h, show Ideal.cmp .oge (s i) 0 = 1#1 by simp [Ideal.cmp, h], select_one]
  · rw [if_neg h, show Ideal.cmp .oge (s i) 0 = 0#1 by simp [Ideal.cmp, h], select_zero]
    rfl

-- A branch's attention coefficient at a node is exp of the branch's logit there.
theorem coefR_apply (p : Fin 100000) :
    coefR (F := Ideal) x ei ea W b attw (ix2 p 0)
      = Ideal.exp (logit (gssT (F := Ideal) (mm (K := 128) (C := 32) x W) ei (normT ei ea)) b (fun k => attw (ix2 k 0)) p) := by
  have hexp : ∀ (s : FVec Ideal S100000x1 .f32) (i : S100000x1.Idx), Host.exp (F := Ideal) s i = Ideal.exp (s i) :=
    fun _ _ => rfl
  unfold coefR logit
  rw [hexp, leakyT_apply, dot2_apply]
  refine congrArg (fun t => Ideal.exp (leaky t)) (Finset.sum_congr rfl fun k _ => ?_)
  rw [embR_apply]

end Pointwise

end Cert.SpecT

end
-- ==== Proof.Bridge.lean ====
import proofs.«426271_j85796266705527_4_alg».proof.Proof.SpecT
import proofs.«426271_j85796266705527_4_alg».proof.Proof.Gen.ReferenceIdeal
import proofs.«426271_j85796266705527_4_alg».proof.Proof.MathLin
import proofs.«426271_j85796266705527_4_alg».proof.Proof.MathDot

noncomputable section

namespace Cert.SpecT.Args
open Idealize.ShloMosaic Idealize.ShloMosaic.ValueIdx Cert.Spec Cert.SpecT Cert.ReferenceIdeal

structure Finite (A : Args Ideal) : Prop where
  x1 : FinV A.x1
  x2 : FinV A.x2
  x3 : FinV A.x3
  ea1 : FinV A.ea1
  ea2 : FinV A.ea2
  ea3 : FinV A.ea3
  W1 : FinV A.W1
  W2 : FinV A.W2
  W3 : FinV A.W3
  b1 : FinV A.b1
  b2 : FinV A.b2
  b3 : FinV A.b3
  Wo1 : FinV A.Wo1
  Wo2 : FinV A.Wo2
  Wo3 : FinV A.Wo3
  bo1 : FinV A.bo1
  bo2 : FinV A.bo2
  bo3 : FinV A.bo3
  attw : FinV A.attw

variable (A : Args Ideal) (hA : A.Finite)

include hA in
theorem attIn_finite : A.attIn.Finite where
  acc1 := gssT_fin _ (mm_fin hA.x1 hA.W1) (normT_fin _ hA.ea1)
  acc2 := gssT_fin _ (mm_fin hA.x2 hA.W2) (normT_fin _ hA.ea2)
  acc3 := gssT_fin _ (mm_fin hA.x3 hA.W3) (normT_fin _ hA.ea3)
  b1 := hA.b1
  b2 := hA.b2
  b3 := hA.b3
  a := fun _ => hA.attw _

theorem csumR_apply (p : Fin 100000) : A.csumR (ix2 p 0) = A.attIn.sumR p := by
  unfold Args.csumR Args.c1R Args.c2R Args.c3R AttIn.sumR AttIn.c1R AttIn.c2R AttIn.c3R AttIn.s1 AttIn.s2 AttIn.s3
  rw [addf_apply, addf_apply, coefR_apply, coefR_apply, coefR_apply]
  rfl

include hA in
-- A weight column: the numerator's coefficient is exp of a real logit, and the shift by the row maximum cancels.
theorem w_eq {acc : Arr2 nN 32} {b : Arr1 32} (hacc : Fin2 acc) (hb : Fin1 b) {c : FVec Ideal S100000x1 .f32}
    (hc : ∀ p, c (ix2 p 0) = Ideal.exp (logit acc b A.attIn.a p)) :
    (fun i => Ideal.div (Ideal.exp (logit acc b A.attIn.a (i 0) - A.attIn.mx (i 0))) (A.attIn.sumK (i 0)))
      = Host.divf c A.csumR := by
  funext i
  obtain ⟨p, rfl⟩ : ∃ p : Fin 100000, i = ix2 p 0 := ⟨i 0, eq_ix2_col i⟩
  rw [hostDivf_apply, hc, csumR_apply]
  exact ((attIn_finite A hA).shift p (logit_isReal hacc hb (attIn_finite A hA).a p)).1

include hA in
theorem w1_eq : A.w1K = A.w1R := by
  unfold Args.w1K Args.w1R Args.c1R AttIn.w1K AttIn.c1K AttIn.s1
  exact w_eq A hA (attIn_finite A hA).acc1 (attIn_finite A hA).b1 fun p => coefR_apply _ _ _ _ _ _ p
include hA in
theorem w2_eq : A.w2K = A.w2R := by
  unfold Args.w2K Args.w2R Args.c2R AttIn.w2K AttIn.c2K AttIn.s2
  exact w_eq A hA (attIn_finite A hA).acc2 (attIn_finite A hA).b2 fun p => coefR_apply _ _ _ _ _ _ p
include hA in
theorem w3_eq : A.w3K = A.w3R := by
  unfold Args.w3K Args.w3R Args.c3R AttIn.w3K AttIn.c3K AttIn.s3
  exact w_eq A hA (attIn_finite A hA).acc3 (attIn_finite A hA).b3 fun p => coefR_apply _ _ _ _ _ _ p

include hA in
theorem hR_eq : A.hR = A.hKer := by
  funext i
  obtain ⟨p, k, rfl⟩ : ∃ (p : Fin 100000) (k : Fin 32), i = ix2 p k := ⟨i 0, i 1, eq_ix2 i⟩
  unfold Args.hR Args.e1R Args.e2R Args.e3R
  rw [← w1_eq A hA, ← w2_eq A hA, ← w3_eq A hA, addf_apply, addf_apply, addf_apply, mulf_apply, mulf_apply, mulf_apply,
    colRows_apply, colRows_apply, colRows_apply, zeros2_apply, zero_add, embR_apply, embR_apply, embR_apply]
  show _ = A.attIn.hK p k
  unfold AttIn.hK
  rfl

include hA in
theorem hKer_fin : Fin2 A.hKer := AttIn.hK_real (attIn_finite A hA)

include hA in
-- A dense product by a fixed matrix commutes with the propagation, so project-then-propagate is propagate-then-project.
theorem g2R_eq {Wo : FVec Ideal S32x32 .f32} (ei : Ei) {ea : FVec Ideal S1600000 .f32} (bo : FVec Ideal S32 .f32)
    (hWo : FinV Wo) (hea : FinV ea) :
    A.g2R Wo ei ea bo
      = addf (mm (K := 32) (C := 32) (gssT (F := Ideal) A.hKer ei (normT ei ea)) Wo) (biasRows bo) := by
  unfold Args.g2R
  rw [hR_eq A hA, dot3_eq, gss_mm _ _ _ _ (hKer_fin A hA) hWo (normT_fin _ hea)]

theorem six (a b c x y z : EReal) : ((0 + (a + x)) + (b + y)) + (c + z) = ((a + b) + c) + ((x + y) + z) := by
  rw [zero_add, add_add_add_comm a x b y, add_add_add_comm (a + b) (x + y) c z]

include hA in
theorem out_eq : A.outK = A.outR := by
  funext i
  obtain ⟨p, q, rfl⟩ : ∃ (p : Fin 100000) (q : Fin 32), i = ix2 p q := ⟨i 0, i 1, eq_ix2 i⟩
  unfold Args.outR
  rw [g2R_eq A hA _ _ hA.Wo1 hA.ea1, g2R_eq A hA _ _ hA.Wo2 hA.ea2, g2R_eq A hA _ _ hA.Wo3 hA.ea3,
    addf_apply, addf_apply, addf_apply, addf_apply, addf_apply, addf_apply, zeros2_apply,
    biasRows_apply, biasRows_apply, biasRows_apply, six]
  rfl

end Cert.SpecT.Args

end
-- ==== Proof.PreFin.lean ====
import proofs.«426271_j85796266705527_4_alg».proof.Defs
import proofs.«426271_j85796266705527_4_alg».proof.Proof.Gen.Pre_finite_inputs
import Idealize.ShloMosaic.Lib.ReduceAll
import Idealize.ShloMosaic.Lib.ValueIdx

noncomputable section

namespace Cert.PreFin

open Idealize.ShloMosaic Idealize.ShloMosaic.ValueIdx Idealize.SL.Sem
open Cert.Pre_finite_inputs

instance : Subsingleton S_.Idx := ⟨fun a b => funext fun d => d.elim0⟩

/-- `max x (-x) < +∞` excludes both infinities. -/
theorem real_of_abs_lt (x : EReal)
    (e : FloatOps.cmpf (F := Ideal) (φ := .f32) .olt (FloatOps.hostAbsf (F := Ideal) (φ := .f32) x)
      (Ideal.ofBits .f32 0x7F800000#32) = 1#1) :
    ∃ v : ℝ, x = (v : EReal) := by
  change Ideal.cmp .olt (max x (-x)) (Ideal.ofBits .f32 0x7F800000#32) = 1#1 at e
  induction x using EReal.rec with
  | bot => simp [Ideal.ofBits, Ideal.ieee, Ideal.cmp] at e
  | top => simp [Ideal.ofBits, Ideal.ieee, Ideal.cmp] at e
  | coe r => exact ⟨r, rfl⟩

/-- `all (|x| < +∞)` holds at the one index of its rank-0 result: every entry of `x` is a real, at any shape. -/
theorem real_of_all {s : Shape} {axes : List (Fin s.rank)} (x : FVec Ideal s .f32)
    (bc : S_.BroadcastsInDim s (![] : Fin 0 → Fin s.rank)) (h : s.ReducesTo axes S_) (hu : 0 < S_.numel)
    (e : Host.reduce IntOp.andi (cmpf .olt (Host.absf x) (broadcastInDim s ![] bc (constant (F := Ideal) S_ .f32 0x7F800000#32)))
      (constantI S_ 1 1#1) h hu ix0 = 1#1) (j : s.Idx) : ∃ v : ℝ, x j = (v : EReal) :=
  real_of_abs_lt (x j) (Host.reduce_andi_all _ _ h hu ix0 e j)

theorem andi_ix0 (a b : IVec S_ 1) : andi a b ix0 = 1#1 ↔ a ix0 = 1#1 ∧ b ix0 = 1#1 := IntOp.andi_eq_one

end Cert.PreFin

end
-- ==== Proof.lean ====
import proofs.«426271_j85796266705527_4_alg».proof.Defs
import proofs.«426271_j85796266705527_4_alg».proof.Proof.Gen.Kernel
import proofs.«426271_j85796266705527_4_alg».proof.Proof.Gen.Kernel.Skeleton
import proofs.«426271_j85796266705527_4_alg».proof.Proof.Gen.Kernel.Launch
import proofs.«426271_j85796266705527_4_alg».proof.Proof.Gen.Kernel.Points
import proofs.«426271_j85796266705527_4_alg».proof.Proof.Gen.Kernel.Frame
import proofs.«426271_j85796266705527_4_alg».proof.Proof.Gen.KernelIdeal
import proofs.«426271_j85796266705527_4_alg».proof.Proof.Gen.KernelIdeal.Skeleton
import proofs.«426271_j85796266705527_4_alg».proof.Proof.Gen.KernelIdeal.Launch
import proofs.«426271_j85796266705527_4_alg».proof.Proof.Gen.KernelIdeal.Points
import proofs.«426271_j85796266705527_4_alg».proof.Proof.Gen.KernelIdeal.Frame
import proofs.«426271_j85796266705527_4_alg».proof.Proof.Gen.ReferenceIdeal
import proofs.«426271_j85796266705527_4_alg».proof.Proof.Gen.Pre_finite_inputs
import proofs.«426271_j85796266705527_4_alg».proof.Proof.KRun
import proofs.«426271_j85796266705527_4_alg».proof.Proof.KRead
import proofs.«426271_j85796266705527_4_alg».proof.Proof.RefRun
import proofs.«426271_j85796266705527_4_alg».proof.Proof.RefRead
import proofs.«426271_j85796266705527_4_alg».proof.Proof.Bridge
import proofs.«426271_j85796266705527_4_alg».proof.Proof.PreFin
import Idealize.ShloMosaic.Adequacy
import Idealize.ShloMosaic.Init

set_option maxRecDepth 16384

noncomputable section

namespace Cert.Proof

open Idealize.ShloMosaic Idealize.SL.Sem
open Cert.ReferenceIdeal.RefRead (read_arg argsOfV)
open Cert.KernelIdeal.KRead (argsOf)

/-- The reference's frame is its run with the values dropped: no operation writes an argument. -/
theorem frame_ri : Cert.frame_ReferenceIdeal := fun m ρ _ =>
  (θ_run Cert.ReferenceIdeal.defs _ _).mono (fun r h c => by
    repeat' refine And.intro ?_ ?_
    all_goals exact (h c _).trans (read_arg _ _ (by decide)))
    (Cert.ReferenceIdeal.Run.run (F := Ideal) m ρ)

/-- The precondition is a conjunction of `all (|x| < +∞)`, one per float argument. -/
theorem args_finite (m : (ℓ : Loc Cert.KernelIdeal.nD Cert.KernelIdeal.τ Cert.KernelIdeal.sig) → Buf (Elt Ideal) ℓ)
    (h : Cert.Pre_KernelIdeal m) (c : Dev Cert.KernelIdeal.nD) : (argsOf m c).Finite := by
  have e := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at e
  simp only [Cert.PreFin.andi_ix0, and_assoc] at e
  obtain ⟨e0, e1, e2, e3, e4, e5, e6, e7, e8, e9, e10, e11, e12, e13, e14, e15, e16, e17, e18⟩ := e
  exact ⟨Cert.PreFin.real_of_all _ _ _ _ e0, Cert.PreFin.real_of_all _ _ _ _ e1, Cert.PreFin.real_of_all _ _ _ _ e2, Cert.PreFin.real_of_all _ _ _ _ e3, Cert.PreFin.real_of_all _ _ _ _ e4, Cert.PreFin.real_of_all _ _ _ _ e5, Cert.PreFin.real_of_all _ _ _ _ e6, Cert.PreFin.real_of_all _ _ _ _ e7, Cert.PreFin.real_of_all _ _ _ _ e8, Cert.PreFin.real_of_all _ _ _ _ e9, Cert.PreFin.real_of_all _ _ _ _ e10, Cert.PreFin.real_of_all _ _ _ _ e11, Cert.PreFin.real_of_all _ _ _ _ e12, Cert.PreFin.real_of_all _ _ _ _ e13, Cert.PreFin.real_of_all _ _ _ _ e14, Cert.PreFin.real_of_all _ _ _ _ e15, Cert.PreFin.real_of_all _ _ _ _ e16, Cert.PreFin.real_of_all _ _ _ _ e17, Cert.PreFin.real_of_all _ _ _ _ e18⟩

/-- Both programs run to their own composition of the arguments, and the two compositions agree on finite arguments. -/
theorem algebraic : Cert.algebraic_KernelIdeal_ReferenceIdeal := by
  intro m g m' g' hpre hagree
  have hargs : ∀ c, argsOfV (StableHlo.launchContents m' c) = argsOf m c := fun c => by
    obtain ⟨h0, h1, h2, h3, h4, h5, h6, h7, h8, h9, h10, h11, h12, h13, h14, h15, h16, h17, h18, h19, h20, h21⟩ := hagree c
    exact congr (congr (congr (congr (congr (congr (congr (congr (congr (congr (congr (congr (congr (congr (congr (congr (congr (congr (congr (congr (congr (congrArg Cert.SpecT.Args.mk h0) h1) h2) h3) h4) h5) h6) h7) h8) h9) h10) h11) h12) h13) h14) h15) h16) h17) h18) h19) h20) h21
  refine ⟨fun c => (argsOf m c).outK, fun c => (argsOf m c).w1K, fun c => (argsOf m c).w2K, fun c => (argsOf m c).w3K, ?_, ?_⟩
  · exact (θ_run Cert.KernelIdeal.defs _ _).mono (fun r h c =>
      ⟨(h c).1.trans (Cert.KernelIdeal.KRead.read_out m g c), (h c).2.1.trans (Cert.KernelIdeal.KRead.read_w1 m g c), (h c).2.2.1.trans (Cert.KernelIdeal.KRead.read_w2 m g c),
       (h c).2.2.2.1.trans (Cert.KernelIdeal.KRead.read_w3 m g c), (h c).2.2.2.2⟩)
      (Cert.KernelIdeal.KRun.run (F := Ideal) m g)
  · refine (θ_run Cert.ReferenceIdeal.defs _ _).mono (fun r h c => ?_) (Cert.ReferenceIdeal.Run.run (F := Ideal) m' g')
    have fin := args_finite m hpre c
    refine ⟨(h c _).trans ((Cert.ReferenceIdeal.RefRead.read_out _).trans ((congrArg _ (hargs c)).trans (Cert.SpecT.Args.out_eq _ fin).symm)),
      (h c _).trans ((Cert.ReferenceIdeal.RefRead.read_w1 _).trans ((congrArg _ (hargs c)).trans (Cert.SpecT.Args.w1_eq _ fin).symm)),
      (h c _).trans ((Cert.ReferenceIdeal.RefRead.read_w2 _).trans ((congrArg _ (hargs c)).trans (Cert.SpecT.Args.w2_eq _ fin).symm)),
      (h c _).trans ((Cert.ReferenceIdeal.RefRead.read_w3 _).trans ((congrArg _ (hargs c)).trans (Cert.SpecT.Args.w3_eq _ fin).symm)), ?_⟩
    repeat' refine And.intro ?_ ?_
    all_goals exact (h c _).trans (read_arg _ _ (by decide))

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ, frame_ri, trivial, algebraic⟩

end Cert.Proof

end
